-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v68)) (v2 : (c : Dev Cert.KernelIdeal.nD) → Buf (Elt Ideal) ((c.tc : Thread Cert.KernelIdeal.nD Cert.KernelIdeal.τ).loc Cert.KernelIdeal.main_v66_1)) (v3 : (c : Dev Cert.KernelIdeal.nD) → Buf (Elt Ideal) ((c.tc : Thread Cert.KernelIdeal.nD Cert.KernelIdeal.τ).loc Cert.KernelIdeal.main_v66_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_v66_1) = v2 c
          ∧ r.2.mem ((c.tc : Thread Cert.KernelIdeal.nD Cert.KernelIdeal.τ).loc Cert.KernelIdeal.main_v66_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v51) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S32768x1 : Shape := ⟨2, ![32768, 1]⟩
abbrev S4x25 : Shape := ⟨2, ![4, 25]⟩
abbrev S256x25 : Shape := ⟨2, ![256, 25]⟩
abbrev S256 : Shape := ⟨1, ![256]⟩
abbrev S1024x512 : Shape := ⟨2, ![1024, 512]⟩
abbrev S1024x256 : Shape := ⟨2, ![1024, 256]⟩
abbrev S1024 : Shape := ⟨1, ![1024]⟩
abbrev S256x256 : Shape := ⟨2, ![256, 256]⟩
abbrev S512x512 : Shape := ⟨2, ![512, 512]⟩
abbrev S512 : Shape := ⟨1, ![512]⟩
abbrev S256x512 : Shape := ⟨2, ![256, 512]⟩
abbrev S128x256 : Shape := ⟨2, ![128, 256]⟩
abbrev S128 : Shape := ⟨1, ![128]⟩
abbrev S64x128 : Shape := ⟨2, ![64, 128]⟩
abbrev S64 : Shape := ⟨1, ![64]⟩
abbrev S3x64 : Shape := ⟨2, ![3, 64]⟩
abbrev S3 : Shape := ⟨1, ![3]⟩
abbrev S64x256 : Shape := ⟨2, ![64, 256]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S4x25 : S_.BroadcastsInDim S4x25 (![] : Fin 0 → Fin S4x25.rank)
  reducesTo_S4x25_S_d0_1 : S4x25.ReducesTo [0, 1] S_
  bcast_S_S256x25 : S_.BroadcastsInDim S256x25 (![] : Fin 0 → Fin S256x25.rank)
  reducesTo_S256x25_S_d0_1 : S256x25.ReducesTo [0, 1] S_
  bcast_S_S256 : S_.BroadcastsInDim S256 (![] : Fin 0 → Fin S256.rank)
  reducesTo_S256_S_d0 : S256.ReducesTo [0] S_
  bcast_S_S1024x512 : S_.BroadcastsInDim S1024x512 (![] : Fin 0 → Fin S1024x512.rank)
  reducesTo_S1024x512_S_d0_1 : S1024x512.ReducesTo [0, 1] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S256x256 : S_.BroadcastsInDim S256x256 (![] : Fin 0 → Fin S256x256.rank)
  reducesTo_S256x256_S_d0_1 : S256x256.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S3x64 : S_.BroadcastsInDim S3x64 (![] : Fin 0 → Fin S3x64.rank)
  reducesTo_S3x64_S_d0_1 : S3x64.ReducesTo [0, 1] S_
  bcast_S_S3 : S_.BroadcastsInDim S3 (![] : Fin 0 → Fin S3.rank)
  reducesTo_S3_S_d0 : S3.ReducesTo [0] S_
  bcast_S_S64x256 : S_.BroadcastsInDim S64x256 (![] : Fin 0 → Fin S64x256.rank)
  reducesTo_S64x256_S_d0_1 : S64x256.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_
  bcast_S_S32768x1 : S_.BroadcastsInDim S32768x1 (![] : Fin 0 → Fin S32768x1.rank)
  reducesTo_S32768x1_S_d0_1 : S32768x1.ReducesTo [0, 1] S_

variable [Facts]

def fn_part9 {F : FTy → Type} [FloatOps F] (main_arg1 : IVec S32768x1 32) (main_v153 : IVec S_ 1) : IVec S_ 1 :=
  let main_c_60 : IVec S_ 32 := constantI S_ 32 0#32
  let main_v154 : IVec S32768x1 32 := broadcastInDim S32768x1 ![] bcast_S_S32768x1 main_c_60
  let main_v155 : IVec S32768x1 1 := cmpi .sge main_arg1 main_v154
  let main_c_61 : IVec S_ 1 := constantI S_ 1 1#1
  let main_v156 : IVec S_ 1 := (fun x v => Host.reduce IntOp.andi x v reducesTo_S32768x1_S_d0_1 h_S_) main_v155 main_c_61
  let main_v157 : IVec S_ 1 := andi main_v153 main_v156
  let main_c_62 : IVec S_ 32 := constantI S_ 32 4#32
  let main_v158 : IVec S32768x1 32 := broadcastInDim S32768x1 ![] bcast_S_S32768x1 main_c_62
  let main_v159 : IVec S32768x1 1 := cmpi .slt main_arg1 main_v158
  let main_c_63 : IVec S_ 1 := constantI S_ 1 1#1
  let main_v160 : IVec S_ 1 := (fun x v => Host.reduce IntOp.andi x v reducesTo_S32768x1_S_d0_1 h_S_) main_v159 main_c_63
  let main_v161 : IVec S_ 1 := andi main_v157 main_v160
  main_v161

def fn_part8 {F : FTy → Type} [FloatOps F] (main_arg1 : IVec S32768x1 32) (main_arg29 : FVec F S32 .f32) (main_arg30 : FVec F S1x32 .f32) (main_arg31 : FVec F S1 .f32) (main_v133 : IVec S_ 1) (main_v136 : IVec S32x64 1) : IVec S_ 1 :=
  let main_c_53 : IVec S_ 1 := constantI S_ 1 1#1
  let main_v137 : IVec S_ 1 := (fun x v => Host.reduce IntOp.andi x v reducesTo_S32x64_S_d0_1 h_S_) main_v136 main_c_53
  let main_v138 : IVec S_ 1 := andi main_v133 main_v137
  let main_v139 : FVec F S32 .f32 := Host.absf main_arg29
  let main_cst_54 : FVec F S_ .f32 := constant S_ .f32 0x7F800000#32
  let main_v140 : FVec F S32 .f32 := broadcastInDim S32 ![] bcast_S_S32 main_cst_54
  let main_v141 : IVec S32 1 := cmpf .olt main_v139 main_v140
  let main_c_55 : IVec S_ 1 := constantI S_ 1 1#1
  let main_v142 : IVec S_ 1 := (fun x v => Host.reduce IntOp.andi x v reducesTo_S32_S_d0 h_S_) main_v141 main_c_55
  let main_v143 : IVec S_ 1 := andi main_v138 main_v142
  let main_v144 : FVec F S1x32 .f32 := Host.absf main_arg30
  let main_cst_56 : FVec F S_ .f32 := constant S_ .f32 0x7F800000#32
  let main_v145 : FVec F S1x32 .f32 := broadcastInDim S1x32 ![] bcast_S_S1x32 main_cst_56
  let main_v146 : IVec S1x32 1 := cmpf .olt main_v144 main_v145
  let main_c_57 : IVec S_ 1 := constantI S_ 1 1#1
  let main_v147 : IVec S_ 1 := (fun x v => Host.reduce IntOp.andi x v reducesTo_S1x32_S_d0_1 h_S_) main_v146 main_c_57
  let main_v148 : IVec S_ 1 := andi main_v143 main_v147
  let main_v149 : FVec F S1 .f32 := Host.absf main_arg31
  let main_cst_58 : FVec F S_ .f32 := constant S_ .f32 0x7F800000#32
  let main_v150 : FVec F S1 .f32 := broadcastInDim S1 ![] bcast_S_S1 main_cst_58
  let main_v151 : IVec S1 1 := cmpf .olt main_v149 main_v150
  let main_c_59 : IVec S_ 1 := constantI S_ 1 1#1
  let main_v152 : IVec S_ 1 := (fun x v => Host.reduce IntOp.andi x v reducesTo_S1_S_d0 h_S_) main_v151 main_c_59
  let main_v153 : IVec S_ 1 := andi main_v148 main_v152
  fn_part9 (F := F) main_arg1 main_v153

def fn_part7 {F : FTy → Type} [FloatOps F] (main_arg1 : IVec S32768x1 32) (main_arg26 : FVec F S64x256 .f32) (main_arg27 : FVec F S64 .f32) (main_arg28 : FVec F S32x64 .f32) (main_arg29 : FVec F S32 .f32) (main_arg30 : FVec F S1x32 .f32) (main_arg31 : FVec F S1 .f32) (main_v118 : IVec S_ 1) (main_v119 : FVec F S3 .f32) : IVec S_ 1 :=
  let main_cst_46 : FVec F S_ .f32 := constant S_ .f32 0x7F800000#32
  let main_v120 : FVec F S3 .f32 := broadcastInDim S3 ![] bcast_S_S3 main_cst_46
  let main_v121 : IVec S3 1 := cmpf .olt main_v119 main_v120
  let main_c_47 : IVec S_ 1 := constantI S_ 1 1#1
  let main_v122 : IVec S_ 1 := (fun x v => Host.reduce IntOp.andi x v reducesTo_S3_S_d0 h_S_) main_v121 main_c_47
  let main_v123 : IVec S_ 1 := andi main_v118 main_v122
  let main_v124 : FVec F S64x256 .f32 := Host.absf main_arg26
  let main_cst_48 : FVec F S_ .f32 := constant S_ .f32 0x7F800000#32
  let main_v125 : FVec F S64x256 .f32 := broadcastInDim S64x256 ![] bcast_S_S64x256 main_cst_48
  let main_v126 : IVec S64x256 1 := cmpf .olt main_v124 main_v125
  let main_c_49 : IVec S_ 1 := constantI S_ 1 1#1
  let main_v127 : IVec S_ 1 := (fun x v => Host.reduce IntOp.andi x v reducesTo_S64x256_S_d0_1 h_S_) main_v126 main_c_49
  let main_v128 : IVec S_ 1 := andi main_v123 main_v127
  let main_v129 : FVec F S64 .f32 := Host.absf main_arg27
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  let main_v134 : FVec F S32x64 .f32 := Host.absf main_arg28
  let main_cst_52 : FVec F S_ .f32 := constant S_ .f32 0x7F800000#32
  let main_v135 : FVec F S32x64 .f32 := broadcastInDim S32x64 ![] bcast_S_S32x64 main_cst_52
  let main_v136 : IVec S32x64 1 := cmpf .olt main_v134 main_v135
  fn_part8 (F := F) main_arg1 main_arg29 main_arg30 main_arg31 main_v133 main_v136

def fn_part6 {F : FTy → Type} [FloatOps F] (main_arg1 : IVec S32768x1 32) (main_arg22 : FVec F S64x128 .f32) (main_arg23 : FVec F S64 .f32) (main_arg24 : FVec F S3x64 .f32) (main_arg25 : FVec F S3 .f32) (main_arg26 : FVec F S64x256 .f32) (main_arg27 : FVec F S64 .f32) (main_arg28 : FVec F S32x64 .f32) (main_arg29 : FVec F S32 .f32) (main_arg30 : FVec F S1x32 .f32) (main_arg31 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S64x128 .f32 := Host.absf main_arg22
  let main_cst_40 : FVec F S_ .f32 := constant S_ .f32 0x7F800000#32
  let main_v105 : FVec F S64x128 .f32 := broadcastInDim S64x128 ![] bcast_S_S64x128 main_cst_40
  let main_v106 : IVec S64x128 1 := cmpf .olt main_v104 main_v105
  let main_c_41 : IVec S_ 1 := constantI S_ 1 1#1
  let main_v107 : IVec S_ 1 := (fun x v => Host.reduce IntOp.andi x v reducesTo_S64x128_S_d0_1 h_S_) main_v106 main_c_41
  let main_v108 : IVec S_ 1 := andi main_v103 main_v107
  let main_v109 : FVec F S64 .f32 := Host.absf main_arg23
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S3x64 .f32 := Host.absf main_arg24
  let main_cst_44 : FVec F S_ .f32 := constant S_ .f32 0x7F800000#32
  let main_v115 : FVec F S3x64 .f32 := broadcastInDim S3x64 ![] bcast_S_S3x64 main_cst_44
  let main_v116 : IVec S3x64 1 := cmpf .olt main_v114 main_v115
  let main_c_45 : IVec S_ 1 := constantI S_ 1 1#1
  let main_v117 : IVec S_ 1 := (fun x v => Host.reduce IntOp.andi x v reducesTo_S3x64_S_d0_1 h_S_) main_v116 main_c_45
  let main_v118 : IVec S_ 1 := andi main_v113 main_v117
  let main_v119 : FVec F S3 .f32 := Host.absf main_arg25
  fn_part7 (F := F) main_arg1 main_arg26 main_arg27 main_arg28 main_arg29 main_arg30 main_arg31 main_v118 main_v119

def fn_part5 {F : FTy → Type} [FloatOps F] (main_arg1 : IVec S32768x1 32) (main_arg19 : FVec F S256 .f32) (main_arg20 : FVec F S128x256 .f32) (main_arg21 : FVec F S128 .f32) (main_arg22 : FVec F S64x128 .f32) (main_arg23 : FVec F S64 .f32) (main_arg24 : FVec F S3x64 .f32) (main_arg25 : FVec F S3 .f32) (main_arg26 : FVec F S64x256 .f32) (main_arg27 : FVec F S64 .f32) (main_arg28 : FVec F S32x64 .f32) (main_arg29 : FVec F S32 .f32) (main_arg30 : FVec F S1x32 .f32) (main_arg31 : FVec F S1 .f32) (main_v83 : IVec S_ 1) (main_v84 : FVec F S256x512 .f32) (main_cst_32 : FVec F S_ .f32) : IVec S_ 1 :=
  let main_v85 : FVec F S256x512 .f32 := broadcastInDim S256x512 ![] bcast_S_S256x512 main_cst_32
  let main_v86 : IVec S256x512 1 := cmpf .olt main_v84 main_v85
  let main_c_33 : IVec S_ 1 := constantI S_ 1 1#1
  let main_v87 : IVec S_ 1 := (fun x v => Host.reduce IntOp.andi x v reducesTo_S256x512_S_d0_1 h_S_) main_v86 main_c_33
  let main_v88 : IVec S_ 1 := andi main_v83 main_v87
  let main_v89 : FVec F S256 .f32 := Host.absf main_arg19
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S128x256 .f32 := Host.absf main_arg20
  let main_cst_36 : FVec F S_ .f32 := constant S_ .f32 0x7F800000#32
  let main_v95 : FVec F S128x256 .f32 := broadcastInDim S128x256 ![] bcast_S_S128x256 main_cst_36
  let main_v96 : IVec S128x256 1 := cmpf .olt main_v94 main_v95
  let main_c_37 : IVec S_ 1 := constantI S_ 1 1#1
  let main_v97 : IVec S_ 1 := (fun x v => Host.reduce IntOp.andi x v reducesTo_S128x256_S_d0_1 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg1 main_arg22 main_arg23 main_arg24 main_arg25 main_arg26 main_arg27 main_arg28 main_arg29 main_arg30 main_arg31 main_v98 main_v101 main_c_39

def fn_part4 {F : FTy → Type} [FloatOps F] (main_arg1 : IVec S32768x1 32) (main_arg15 : FVec F S256 .f32) (main_arg16 : FVec F S512x512 .f32) (main_arg17 : FVec F S512 .f32) (main_arg18 : FVec F S256x512 .f32) (main_arg19 : FVec F S256 .f32) (main_arg20 : FVec F S128x256 .f32) (main_arg21 : FVec F S128 .f32) (main_arg22 : FVec F S64x128 .f32) (main_arg23 : FVec F S64 .f32) (main_arg24 : FVec F S3x64 .f32) (main_arg25 : FVec F S3 .f32) (main_arg26 : FVec F S64x256 .f32) (main_arg27 : FVec F S64 .f32) (main_arg28 : FVec F S32x64 .f32) (main_arg29 : FVec F S32 .f32) (main_arg30 : FVec F S1x32 .f32) (main_arg31 : FVec F S1 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S512x512 .f32 := Host.absf main_arg16
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512 .f32 := Host.absf main_arg17
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S256x512 .f32 := Host.absf main_arg18
  let main_cst_32 : FVec F S_ .f32 := constant S_ .f32 0x7F800000#32
  fn_part5 (F := F) main_arg1 main_arg19 main_arg20 main_arg21 main_arg22 main_arg23 main_arg24 main_arg25 main_arg26 main_arg27 main_arg28 main_arg29 main_arg30 main_arg31 main_v83 main_v84 main_cst_32

def fn_part3 {F : FTy → Type} [FloatOps F] (main_arg1 : IVec S32768x1 32) (main_arg12 : FVec F S256x256 .f32) (main_arg13 : FVec F S256 .f32) (main_arg14 : FVec F S256x256 .f32) (main_arg15 : FVec F S256 .f32) (main_arg16 : FVec F S512x512 .f32) (main_arg17 : FVec F S512 .f32) (main_arg18 : FVec F S256x512 .f32) (main_arg19 : FVec F S256 .f32) (main_arg20 : FVec F S128x256 .f32) (main_arg21 : FVec F S128 .f32) (main_arg22 : FVec F S64x128 .f32) (main_arg23 : FVec F S64 .f32) (main_arg24 : FVec F S3x64 .f32) (main_arg25 : FVec F S3 .f32) (main_arg26 : FVec F S64x256 .f32) (main_arg27 : FVec F S64 .f32) (main_arg28 : FVec F S32x64 .f32) (main_arg29 : FVec F S32 .f32) (main_arg30 : FVec F S1x32 .f32) (main_arg31 : FVec F S1 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg14
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg1 main_arg15 main_arg16 main_arg17 main_arg18 main_arg19 main_arg20 main_arg21 main_arg22 main_arg23 main_arg24 main_arg25 main_arg26 main_arg27 main_arg28 main_arg29 main_arg30 main_arg31 main_v63 main_v67

def fn_part2 {F : FTy → Type} [FloatOps F] (main_arg1 : IVec S32768x1 32) (main_arg8 : FVec F S1024x512 .f32) (main_arg9 : FVec F S1024x256 .f32) (main_arg10 : FVec F S1024 .f32) (main_arg11 : FVec F S1024 .f32) (main_arg12 : FVec F S256x256 .f32) (main_arg13 : FVec F S256 .f32) (main_arg14 : FVec F S256x256 .f32) (main_arg15 : FVec F S256 .f32) (main_arg16 : FVec F S512x512 .f32) (main_arg17 : FVec F S512 .f32) (main_arg18 : FVec F S256x512 .f32) (main_arg19 : FVec F S256 .f32) (main_arg20 : FVec F S128x256 .f32) (main_arg21 : FVec F S128 .f32) (main_arg22 : FVec F S64x128 .f32) (main_arg23 : FVec F S64 .f32) (main_arg24 : FVec F S3x64 .f32) (main_arg25 : FVec F S3 .f32) (main_arg26 : FVec F S64x256 .f32) (main_arg27 : FVec F S64 .f32) (main_arg28 : FVec F S32x64 .f32) (main_arg29 : FVec F S32 .f32) (main_arg30 : FVec F S1x32 .f32) (main_arg31 : FVec F S1 .f32) (main_v33 : IVec S_ 1) : IVec S_ 1 :=
  let main_v34 : FVec F S1024x512 .f32 := Host.absf main_arg8
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S1024x256 .f32 := Host.absf main_arg9
  let main_cst_14 : FVec F S_ .f32 := constant S_ .f32 0x7F800000#32
  let main_v40 : FVec F S1024x256 .f32 := broadcastInDim S1024x256 ![] bcast_S_S1024x256 main_cst_14
  let main_v41 : IVec S1024x256 1 := cmpf .olt main_v39 main_v40
  let main_c_15 : IVec S_ 1 := constantI S_ 1 1#1
  let main_v42 : IVec S_ 1 := (fun x v => Host.reduce IntOp.andi x v reducesTo_S1024x256_S_d0_1 h_S_) main_v41 main_c_15
  let main_v43 : IVec S_ 1 := andi main_v38 main_v42
  let main_v44 : FVec F S1024 .f32 := Host.absf main_arg10
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg11
  let main_cst_18 : FVec F S_ .f32 := constant S_ .f32 0x7F800000#32
  let main_v50 : FVec F S1024 .f32 := broadcastInDim S1024 ![] bcast_S_S1024 main_cst_18
  fn_part3 (F := F) main_arg1 main_arg12 main_arg13 main_arg14 main_arg15 main_arg16 main_arg17 main_arg18 main_arg19 main_arg20 main_arg21 main_arg22 main_arg23 main_arg24 main_arg25 main_arg26 main_arg27 main_arg28 main_arg29 main_arg30 main_arg31 main_v48 main_v49 main_v50

def fn_part1 {F : FTy → Type} [FloatOps F] (main_arg1 : IVec S32768x1 32) (main_arg5 : FVec F S4x25 .f32) (main_arg6 : FVec F S256x25 .f32) (main_arg7 : FVec F S256 .f32) (main_arg8 : FVec F S1024x512 .f32) (main_arg9 : FVec F S1024x256 .f32) (main_arg10 : FVec F S1024 .f32) (main_arg11 : FVec F S1024 .f32) (main_arg12 : FVec F S256x256 .f32) (main_arg13 : FVec F S256 .f32) (main_arg14 : FVec F S256x256 .f32) (main_arg15 : FVec F S256 .f32) (main_arg16 : FVec F S512x512 .f32) (main_arg17 : FVec F S512 .f32) (main_arg18 : FVec F S256x512 .f32) (main_arg19 : FVec F S256 .f32) (main_arg20 : FVec F S128x256 .f32) (main_arg21 : FVec F S128 .f32) (main_arg22 : FVec F S64x128 .f32) (main_arg23 : FVec F S64 .f32) (main_arg24 : FVec F S3x64 .f32) (main_arg25 : FVec F S3 .f32) (main_arg26 : FVec F S64x256 .f32) (main_arg27 : FVec F S64 .f32) (main_arg28 : FVec F S32x64 .f32) (main_arg29 : FVec F S32 .f32) (main_arg30 : FVec F S1x32 .f32) (main_arg31 : FVec F S1 .f32) (main_v13 : IVec S_ 1) (main_v16 : IVec S32768x256 1) : IVec S_ 1 :=
  let main_c_5 : IVec S_ 1 := constantI S_ 1 1#1
  let main_v17 : IVec S_ 1 := (fun x v => Host.reduce IntOp.andi x v reducesTo_S32768x256_S_d0_1 h_S_) main_v16 main_c_5
  let main_v18 : IVec S_ 1 := andi main_v13 main_v17
  let main_v19 : FVec F S4x25 .f32 := Host.absf main_arg5
  let main_cst_6 : FVec F S_ .f32 := constant S_ .f32 0x7F800000#32
  let main_v20 : FVec F S4x25 .f32 := broadcastInDim S4x25 ![] bcast_S_S4x25 main_cst_6
  let main_v21 : IVec S4x25 1 := cmpf .olt main_v19 main_v20
  let main_c_7 : IVec S_ 1 := constantI S_ 1 1#1
  let main_v22 : IVec S_ 1 := (fun x v => Host.reduce IntOp.andi x v reducesTo_S4x25_S_d0_1 h_S_) main_v21 main_c_7
  let main_v23 : IVec S_ 1 := andi main_v18 main_v22
  let main_v24 : FVec F S256x25 .f32 := Host.absf main_arg6
  let main_cst_8 : FVec F S_ .f32 := constant S_ .f32 0x7F800000#32
  let main_v25 : FVec F S256x25 .f32 := broadcastInDim S256x25 ![] bcast_S_S256x25 main_cst_8
  let main_v26 : IVec S256x25 1 := cmpf .olt main_v24 main_v25
  let main_c_9 : IVec S_ 1 := constantI S_ 1 1#1
  let main_v27 : IVec S_ 1 := (fun x v => Host.reduce IntOp.andi x v reducesTo_S256x25_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v33

def fn {F : FTy → Type} [FloatOps F] (main_arg0 : FVec F S32768x256 .f32) (main_arg1 : IVec S32768x1 32) (main_arg2 : FVec F S32768x256 .f32) (main_arg3 : FVec F S32768x256 .f32) (main_arg4 : FVec F S32768x256 .f32) (main_arg5 : FVec F S4x25 .f32) (main_arg6 : FVec F S256x25 .f32) (main_arg7 : FVec F S256 .f32) (main_arg8 : FVec F S1024x512 .f32) (main_arg9 : FVec F S1024x256 .f32) (main_arg10 : FVec F S1024 .f32) (main_arg11 : FVec F S1024 .f32) (main_arg12 : FVec F S256x256 .f32) (main_arg13 : FVec F S256 .f32) (main_arg14 : FVec F S256x256 .f32) (main_arg15 : FVec F S256 .f32) (main_arg16 : FVec F S512x512 .f32) (main_arg17 : FVec F S512 .f32) (main_arg18 : FVec F S256x512 .f32) (main_arg19 : FVec F S256 .f32) (main_arg20 : FVec F S128x256 .f32) (main_arg21 : FVec F S128 .f32) (main_arg22 : FVec F S64x128 .f32) (main_arg23 : FVec F S64 .f32) (main_arg24 : FVec F S3x64 .f32) (main_arg25 : FVec F S3 .f32) (main_arg26 : FVec F S64x256 .f32) (main_arg27 : FVec F S64 .f32) (main_arg28 : FVec F S32x64 .f32) (main_arg29 : FVec F S32 .f32) (main_arg30 : FVec F S1x32 .f32) (main_arg31 : FVec F S1 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32768x256 .f32 := Host.absf main_arg2
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  let main_v9 : FVec F S32768x256 .f32 := Host.absf main_arg3
  let main_cst_2 : FVec F S_ .f32 := constant S_ .f32 0x7F800000#32
  let main_v10 : FVec F S32768x256 .f32 := broadcastInDim S32768x256 ![] bcast_S_S32768x256 main_cst_2
  let main_v11 : IVec S32768x256 1 := cmpf .olt main_v9 main_v10
  let main_c_3 : IVec S_ 1 := constantI S_ 1 1#1
  let main_v12 : IVec S_ 1 := (fun x v => Host.reduce IntOp.andi x v reducesTo_S32768x256_S_d0_1 h_S_) main_v11 main_c_3
  let main_v13 : IVec S_ 1 := andi main_v8 main_v12
  let main_v14 : FVec F S32768x256 .f32 := Host.absf main_arg4
  let main_cst_4 : FVec F S_ .f32 := constant S_ .f32 0x7F800000#32
  let main_v15 : FVec F S32768x256 .f32 := broadcastInDim S32768x256 ![] bcast_S_S32768x256 main_cst_4
  let main_v16 : IVec S32768x256 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S32768x256 : Shape := ⟨2, ![32768, 256]⟩
abbrev S32768x1 : Shape := ⟨2, ![32768, 1]⟩
abbrev S4x25 : Shape := ⟨2, ![4, 25]⟩
abbrev S256x25 : Shape := ⟨2, ![256, 25]⟩
abbrev S256 : Shape := ⟨1, ![256]⟩
abbrev S1024x512 : Shape := ⟨2, ![1024, 512]⟩
abbrev S1024x256 : Shape := ⟨2, ![1024, 256]⟩
abbrev S1024 : Shape := ⟨1, ![1024]⟩
abbrev S256x256 : Shape := ⟨2, ![256, 256]⟩
abbrev S512x512 : Shape := ⟨2, ![512, 512]⟩
abbrev S512 : Shape := ⟨1, ![512]⟩
abbrev S256x512 : Shape := ⟨2, ![256, 512]⟩
abbrev S128x256 : Shape := ⟨2, ![128, 256]⟩
abbrev S128 : Shape := ⟨1, ![128]⟩
abbrev S64x128 : Shape := ⟨2, ![64, 128]⟩
abbrev S64 : Shape := ⟨1, ![64]⟩
abbrev S3x64 : Shape := ⟨2, ![3, 64]⟩
abbrev S3 : Shape := ⟨1, ![3]⟩
abbrev S64x256 : Shape := ⟨2, ![64, 256]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩
abbrev S25x256 : Shape := ⟨2, ![25, 256]⟩
abbrev S4x256 : Shape := ⟨2, ![4, 256]⟩
abbrev S1x256 : Shape := ⟨2, ![1, 256]⟩
abbrev S512x1024 : Shape := ⟨2, ![512, 1024]⟩
abbrev S256x1024 : Shape := ⟨2, ![256, 1024]⟩
abbrev S1x1024 : Shape := ⟨2, ![1, 1024]⟩
abbrev S1x512 : Shape := ⟨2, ![1, 512]⟩
abbrev S512x256 : Shape := ⟨2, ![512, 256]⟩
abbrev S192x256 : Shape := ⟨2, ![192, 256]⟩
abbrev S192 : Shape := ⟨1, ![192]⟩
abbrev S256x192 : Shape := ⟨2, ![256, 192]⟩
abbrev S1x192 : Shape := ⟨2, ![1, 192]⟩
abbrev S128x64 : Shape := ⟨2, ![128, 64]⟩
abbrev S64x32 : Shape := ⟨2, ![64, 32]⟩
abbrev S128x32 : Shape := ⟨2, ![128, 32]⟩
abbrev S128x96 : Shape := ⟨2, ![128, 96]⟩
abbrev S64x64 : Shape := ⟨2, ![64, 64]⟩
abbrev S64x96 : Shape := ⟨2, ![64, 96]⟩
abbrev S192x96 : Shape := ⟨2, ![192, 96]⟩
abbrev S96 : Shape := ⟨1, ![96]⟩
abbrev S1x96 : Shape := ⟨2, ![1, 96]⟩
abbrev S64x3 : Shape := ⟨2, ![64, 3]⟩
abbrev S32x1 : Shape := ⟨2, ![32, 1]⟩
abbrev S64x1 : Shape := ⟨2, ![64, 1]⟩
abbrev S64x4 : Shape := ⟨2, ![64, 4]⟩
abbrev S64x8 : Shape := ⟨2, ![64, 8]⟩
abbrev S32x7 : Shape := ⟨2, ![32, 7]⟩
abbrev S32x8 : Shape := ⟨2, ![32, 8]⟩
abbrev S96x8 : Shape := ⟨2, ![96, 8]⟩
abbrev S4 : Shape := ⟨1, ![4]⟩
abbrev S8 : Shape := ⟨1, ![8]⟩
abbrev S1x8 : Shape := ⟨2, ![1, 8]⟩
abbrev S32768x8 : Shape := ⟨2, ![32768, 8]⟩
abbrev S1024x1 : Shape := ⟨2, ![1024, 1]⟩
abbrev S1024x8 : Shape := ⟨2, ![1024, 8]⟩
abbrev S1024x4 : Shape := ⟨2, ![1024, 4]⟩
abbrev S1024x1024 : Shape := ⟨2, ![1024, 1024]⟩
abbrev S1024x192 : Shape := ⟨2, ![1024, 192]⟩
abbrev S1024x96 : Shape := ⟨2, ![1024, 96]⟩
abbrev S32768x3 : Shape := ⟨2, ![32768, 3]⟩

abbrev nBuf : Space → Nat
  | .hbm => 118
  | .vmem => 37
  | .smem => 0
  | _ => 0

abbrev bufTy : (tb : Table) → Fin (tcTables nBuf tb) → BufTy
  | .hbm, ⟨0, _⟩ => ⟨S32768x256, .f32⟩
  | .hbm, ⟨1, _⟩ => ⟨S32768x1, .i32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S4x25, .f32⟩
  | .hbm, ⟨6, _⟩ => ⟨S256x25, .f32⟩
  | .hbm, ⟨7, _⟩ => ⟨S256, .f32⟩
  | .hbm, ⟨8, _⟩ => ⟨S1024x512, .f32⟩
  | .hbm, ⟨9, _⟩ => ⟨S1024x256, .f32⟩
  | .hbm, ⟨10, _⟩ => ⟨S1024, .f32⟩
  | .hbm, ⟨11, _⟩ => ⟨S1024, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S512x512, .f32⟩
  | .hbm, ⟨17, _⟩ => ⟨S512, .f32⟩
  | .hbm, ⟨18, _⟩ => ⟨S256x512, .f32⟩
  | .hbm, ⟨19, _⟩ => ⟨S256, .f32⟩
  | .hbm, ⟨20, _⟩ => ⟨S128x256, .f32⟩
  | .hbm, ⟨21, _⟩ => ⟨S128, .f32⟩
  | .hbm, ⟨22, _⟩ => ⟨S64x128, .f32⟩
  | .hbm, ⟨23, _⟩ => ⟨S64, .f32⟩
  | .hbm, ⟨24, _⟩ => ⟨S3x64, .f32⟩
  | .hbm, ⟨25, _⟩ => ⟨S3, .f32⟩
  | .hbm, ⟨26, _⟩ => ⟨S64x256, .f32⟩
  | .hbm, ⟨27, _⟩ => ⟨S64, .f32⟩
  | .hbm, ⟨28, _⟩ => ⟨S32x64, .f32⟩
  | .hbm, ⟨29, _⟩ => ⟨S32, .f32⟩
  | .hbm, ⟨30, _⟩ => ⟨S1x32, .f32⟩
  | .hbm, ⟨31, _⟩ => ⟨S1, .f32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S32768x1, .i32⟩
  | .hbm, ⟨36, _⟩ => ⟨S32768x1, .i32⟩
  | .hbm, ⟨37, _⟩ => ⟨S_, .i32⟩
  | .hbm, ⟨38, _⟩ => ⟨S32768x1, .i32⟩
  | .hbm, ⟨39, _⟩ => ⟨S32768x1, .i32⟩
  | .hbm, ⟨40, _⟩ => ⟨S25x256, .f32⟩
  | .hbm, ⟨41, _⟩ => ⟨S4x256, .f32⟩
  | .hbm, ⟨42, _⟩ => ⟨S1x256, .f32⟩
  | .hbm, ⟨43, _⟩ => ⟨S4x256, .f32⟩
  | .hbm, ⟨44, _⟩ => ⟨S4x256, .f32⟩
  | .hbm, ⟨45, _⟩ => ⟨S4x256, .f32⟩
  | .hbm, ⟨46, _⟩ => ⟨S4x256, .f32⟩
  | .hbm, ⟨47, _⟩ => ⟨S_, .f32⟩
  | .hbm, ⟨48, _⟩ => ⟨S4x256, .f32⟩
  | .hbm, ⟨49, _⟩ => ⟨S4x256, .f32⟩
  | .hbm, ⟨50, _⟩ => ⟨S_, .f32⟩
  | .hbm, ⟨51, _⟩ => ⟨S4x256, .f32⟩
  | .hbm, ⟨52, _⟩ => ⟨S4x256, .f32⟩
  | .hbm, ⟨53, _⟩ => ⟨S512x1024, .f32⟩
  | .hbm, ⟨54, _⟩ => ⟨S256x1024, .f32⟩
  | .hbm, ⟨55, _⟩ => ⟨S256x1024, .bf16⟩
  | .hbm, ⟨56, _⟩ => ⟨S256x1024, .f32⟩
  | .hbm, ⟨57, _⟩ => ⟨S256x1024, .bf16⟩
  | .hbm, ⟨58, _⟩ => ⟨S256x1024, .f32⟩
  | .hbm, ⟨59, _⟩ => ⟨S256x1024, .bf16⟩
  | .hbm, ⟨60, _⟩ => ⟨S1024, .f32⟩
  | .hbm, ⟨61, _⟩ => ⟨S1x1024, .f32⟩
  | .hbm, ⟨62, _⟩ => ⟨S512x512, .f32⟩
  | .hbm, ⟨63, _⟩ => ⟨S256x512, .f32⟩
  | .hbm, ⟨64, _⟩ => ⟨S256x512, .bf16⟩
  | .hbm, ⟨65, _⟩ => ⟨S256x512, .f32⟩
  | .hbm, ⟨66, _⟩ => ⟨S256x512, .bf16⟩
  | .hbm, ⟨67, _⟩ => ⟨S1x512, .f32⟩
  | .hbm, ⟨68, _⟩ => ⟨S512x256, .f32⟩
  | .hbm, ⟨69, _⟩ => ⟨S256x256, .f32⟩
  | .hbm, ⟨70, _⟩ => ⟨S256x256, .bf16⟩
  | .hbm, ⟨71, _⟩ => ⟨S256x256, .f32⟩
  | .hbm, ⟨72, _⟩ => ⟨S256x256, .bf16⟩
  | .hbm, ⟨73, _⟩ => ⟨S1x256, .f32⟩
  | .hbm, ⟨74, _⟩ => ⟨S256x256, .f32⟩
  | .hbm, ⟨75, _⟩ => ⟨S256x256, .bf16⟩
  | .hbm, ⟨76, _⟩ => ⟨S1x256, .f32⟩
  | .hbm, ⟨77, _⟩ => ⟨S256x256, .f32⟩
  | .hbm, ⟨78, _⟩ => ⟨S256x256, .bf16⟩
  | .hbm, ⟨79, _⟩ => ⟨S1x256, .f32⟩
  | .hbm, ⟨80, _⟩ => ⟨S192x256, .f32⟩
  | .hbm, ⟨81, _⟩ => ⟨S192, .f32⟩
  | .hbm, ⟨82, _⟩ => ⟨S256x192, .f32⟩
  | .hbm, ⟨83, _⟩ => ⟨S256x192, .bf16⟩
  | .hbm, ⟨84, _⟩ => ⟨S1x192, .f32⟩
  | .hbm, ⟨85, _⟩ => ⟨S128x64, .f32⟩
  | .hbm, ⟨86, _⟩ => ⟨S64x32, .f32⟩
  | .hbm, ⟨87, _⟩ => ⟨S_, .f32⟩
  | .hbm, ⟨88, _⟩ => ⟨S128x32, .f32⟩
  | .hbm, ⟨89, _⟩ => ⟨S128x96, .f32⟩
  | .hbm, ⟨90, _⟩ => ⟨S_, .f32⟩
  | .hbm, ⟨91, _⟩ => ⟨S64x64, .f32⟩
  | .hbm, ⟨92, _⟩ => ⟨S64x96, .f32⟩
  | .hbm, ⟨93, _⟩ => ⟨S192x96, .f32⟩
  | .hbm, ⟨94, _⟩ => ⟨S192x96, .bf16⟩
  | .hbm, ⟨95, _⟩ => ⟨S96, .f32⟩
  | .hbm, ⟨96, _⟩ => ⟨S1x96, .f32⟩
  | .hbm, ⟨97, _⟩ => ⟨S64x3, .f32⟩
  | .hbm, ⟨98, _⟩ => ⟨S32x1, .f32⟩
  | .hbm, ⟨99, _⟩ => ⟨S_, .f32⟩
  | .hbm, ⟨100, _⟩ => ⟨S64x1, .f32⟩
  | .hbm, ⟨101, _⟩ => ⟨S_, .f32⟩
  | .hbm, ⟨102, _⟩ => ⟨S64x4, .f32⟩
  | .hbm, ⟨103, _⟩ => ⟨S64x8, .f32⟩
  | .hbm, ⟨104, _⟩ => ⟨S_, .f32⟩
  | .hbm, ⟨105, _⟩ => ⟨S32x7, .f32⟩
  | .hbm, ⟨106, _⟩ => ⟨S32x8, .f32⟩
  | .hbm, ⟨107, _⟩ => ⟨S96x8, .f32⟩
  | .hbm, ⟨108, _⟩ => ⟨S96x8, .bf16⟩
  | .hbm, ⟨109, _⟩ => ⟨S_, .f32⟩
  | .hbm, ⟨110, _⟩ => ⟨S4, .f32⟩
  | .hbm, ⟨111, _⟩ => ⟨S8, .f32⟩
  | .hbm, ⟨112, _⟩ => ⟨S1x8, .f32⟩
  | .hbm, ⟨113, _⟩ => ⟨S32768x8, .f32⟩
  | .hbm, ⟨114, _⟩ => ⟨S32768x256, .f32⟩
  | .hbm, ⟨115, _⟩ => ⟨S32768x256, .f32⟩
  | .hbm, ⟨116, _⟩ => ⟨S32768x1, .f32⟩
  | .hbm, ⟨117, _⟩ => ⟨S32768x3, .f32⟩
  | .local _ .vmem, ⟨0, _⟩ => ⟨S1024x256, .f32⟩
  | .local _ .vmem, ⟨1, _⟩ => ⟨S1024x256, .f32⟩
  | .local _ .vmem, ⟨2, _⟩ => ⟨S1024x1, .i32⟩
  | .local _ .vmem, ⟨3, _⟩ => ⟨S1024x1, .i32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S4x256, .f32⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S256x256, .bf16⟩
  | .local _ .vmem, ⟨16, _⟩ => ⟨S1x256, .f32⟩
  | .local _ .vmem, ⟨17, _⟩ => ⟨S256x256, .bf16⟩
  | .local _ .vmem, ⟨18, _⟩ => ⟨S1x256, .f32⟩
  | .local _ .vmem, ⟨19, _⟩ => ⟨S256x512, .bf16⟩
  | .local _ .vmem, ⟨20, _⟩ => ⟨S256x512, .bf16⟩
  | .local _ .vmem, ⟨21, _⟩ => ⟨S1x512, .f32⟩
  | .local _ .vmem, ⟨22, _⟩ => ⟨S256x256, .bf16⟩
  | .local _ .vmem, ⟨23, _⟩ => ⟨S256x256, .bf16⟩
  | .local _ .vmem, ⟨24, _⟩ => ⟨S1x256, .f32⟩
  | .local _ .vmem, ⟨25, _⟩ => ⟨S256x192, .bf16⟩
  | .local _ .vmem, ⟨26, _⟩ => ⟨S1x192, .f32⟩
  | .local _ .vmem, ⟨27, _⟩ => ⟨S192x96, .bf16⟩
  | .local _ .vmem, ⟨28, _⟩ => ⟨S1x96, .f32⟩
  | .local _ .vmem, ⟨29, _⟩ => ⟨S96x8, .bf16⟩
  | .local _ .vmem, ⟨30, _⟩ => ⟨S1x8, .f32⟩
  | .local _ .vmem, ⟨31, _⟩ => ⟨S1024x8, .f32⟩
  | .local _ .vmem, ⟨32, _⟩ => ⟨S1024x8, .f32⟩
  | .local _ .vmem, ⟨33, _⟩ => ⟨S1024x256, .f32⟩
  | .local _ .vmem, ⟨34, _⟩ => ⟨S1024x256, .f32⟩
  | .local _ .vmem, ⟨35, _⟩ => ⟨S1024x256, .f32⟩
  | .local _ .vmem, ⟨36, _⟩ => ⟨S1024x256, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_c : Ref sig .tc := ⟨.hbm, 32, rfl⟩
abbrev main_c_0 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v0 : Ref sig .tc := ⟨.hbm, 39, rfl⟩
abbrev main_v1 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst : Ref sig .tc := ⟨.hbm, 47, rfl⟩
abbrev main_v8 : Ref sig .tc := ⟨.hbm, 48, rfl⟩
abbrev main_v9 : Ref sig .tc := ⟨.hbm, 49, rfl⟩
abbrev main_cst_1 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_2 : Ref sig .tc := ⟨.hbm, 87, rfl⟩
abbrev main_v46 : Ref sig .tc := ⟨.hbm, 88, rfl⟩
abbrev main_v47 : Ref sig .tc := ⟨.hbm, 89, rfl⟩
abbrev main_cst_3 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_4 : Ref sig .tc := ⟨.hbm, 99, rfl⟩
abbrev main_v56 : Ref sig .tc := ⟨.hbm, 100, rfl⟩
abbrev main_cst_5 : Ref sig .tc := ⟨.hbm, 101, rfl⟩
abbrev main_v57 : Ref sig .tc := ⟨.hbm, 102, rfl⟩
abbrev main_v58 : Ref sig .tc := ⟨.hbm, 103, rfl⟩
abbrev main_cst_6 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_7 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66_0 : Ref sig .tc := ⟨.hbm, 113, rfl⟩
abbrev main_v66_1 : Ref sig .tc := ⟨.hbm, 114, rfl⟩
abbrev main_v66_2 : Ref sig .tc := ⟨.hbm, 115, rfl⟩
abbrev main_v67 : Ref sig .tc := ⟨.hbm, 116, rfl⟩
abbrev main_v68 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg22_0 : Ref sig .tc := ⟨.vmem, 27, rfl⟩
abbrev cc0_stg23_0 : Ref sig .tc := ⟨.vmem, 28, rfl⟩
abbrev cc0_stg24_0 : Ref sig .tc := ⟨.vmem, 29, rfl⟩
abbrev cc0_stg25_0 : Ref sig .tc := ⟨.vmem, 30, rfl⟩
abbrev cc0_stg26_0 : Ref sig .tc := ⟨.vmem, 31, rfl⟩
abbrev cc0_stg26_1 : Ref sig .tc := ⟨.vmem, 32, rfl⟩
abbrev cc0_stg27_0 : Ref sig .tc := ⟨.vmem, 33, rfl⟩
abbrev cc0_stg27_1 : Ref sig .tc := ⟨.vmem, 34, rfl⟩
abbrev cc0_stg28_0 : Ref sig .tc := ⟨.vmem, 35, rfl⟩
abbrev cc0_stg28_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem22_0 : DmaSem sig := 27
abbrev cc0_sem23_0 : DmaSem sig := 28
abbrev cc0_sem24_0 : DmaSem sig := 29
abbrev cc0_sem25_0 : DmaSem sig := 30
abbrev cc0_sem26_0 : DmaSem sig := 31
abbrev cc0_sem26_1 : DmaSem sig := 32
abbrev cc0_sem27_0 : DmaSem sig := 33
abbrev cc0_sem27_1 : DmaSem sig := 34
abbrev cc0_sem28_0 : DmaSem sig := 35
abbrev cc0_sem28_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x192 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x192 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S192x96 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x96 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S96x8 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x8 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S1024x8 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1024x256 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1024x256 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

class Facts₀ : Prop where
  bcast_S_S32768x1 : S_.BroadcastsInDim S32768x1 (![] : Fin 0 → Fin S32768x1.rank)
  transposes_S256x25_S25x256_1_0 : S256x25.Transposes [1, 0] S25x256
  bcast_S256_S1x256_1 : S256.BroadcastsInDim S1x256 (![1] : Fin 1 → Fin S1x256.rank)
  bcast_S1x256_S4x256_0_1 : S1x256.BroadcastsInDim S4x256 (![0, 1] : Fin 2 → Fin S4x256.rank)
  bcast_S_S4x256 : S_.BroadcastsInDim S4x256 (![] : Fin 0 → Fin S4x256.rank)
  transposes_S1024x512_S512x1024_1_0 : S1024x512.Transposes [1, 0] S512x1024
  slices_S512x1024_S256x1024_0_0 : S512x1024.Slices ![0, 0] S256x1024
  bitsLt_bf16_f32 : FTy.bits .bf16 < FTy.bits .f32
  slices_S512x1024_S256x1024_256_0 : S512x1024.Slices ![256, 0] S256x1024
  transposes_S1024x256_S256x1024_1_0 : S1024x256.Transposes [1, 0] S256x1024
  shapeCasts_S1024_S1x1024 : S1024.ShapeCasts S1x1024
  transposes_S512x512_S512x512_1_0 : S512x512.Transposes [1, 0] S512x512
  slices_S512x512_S256x512_0_0 : S512x512.Slices ![0, 0] S256x512
  slices_S512x512_S256x512_256_0 : S512x512.Slices ![256, 0] S256x512
  shapeCasts_S512_S1x512 : S512.ShapeCasts S1x512
  transposes_S256x512_S512x256_1_0 : S256x512.Transposes [1, 0] S512x256
  slices_S512x256_S256x256_0_0 : S512x256.Slices ![0, 0] S256x256
  slices_S512x256_S256x256_256_0 : S512x256.Slices ![256, 0] S256x256
  shapeCasts_S256_S1x256 : S256.ShapeCasts S1x256
  transposes_S256x256_S256x256_1_0 : S256x256.Transposes [1, 0] S256x256
  concatenates_S128x256_S64x256_S192x256_d0 : Shape.Concatenates [S128x256, S64x256] S192x256 0
  concatenates_S128_S64_S192_d0 : Shape.Concatenates [S128, S64] S192 0
  transposes_S192x256_S256x192_1_0 : S192x256.Transposes [1, 0] S256x192
  shapeCasts_S192_S1x192 : S192.ShapeCasts S1x192
  transposes_S64x128_S128x64_1_0 : S64x128.Transposes [1, 0] S128x64
  transposes_S32x64_S64x32_1_0 : S32x64.Transposes [1, 0] S64x32
  bcast_S_S128x32 : S_.BroadcastsInDim S128x32 (![] : Fin 0 → Fin S128x32.rank)
  concatenates_S128x64_S128x32_S128x96_d1 : Shape.Concatenates [S128x64, S128x32] S128x96 1
  bcast_S_S64x64 : S_.BroadcastsInDim S64x64 (![] : Fin 0 → Fin S64x64.rank)
  concatenates_S64x64_S64x32_S64x96_d1 : Shape.Concatenates [S64x64, S64x32] S64x96 1
  concatenates_S128x96_S64x96_S192x96_d0 : Shape.Concatenates [S128x96, S64x96] S192x96 0
  concatenates_S64_S32_S96_d0 : Shape.Concatenates [S64, S32] S96 0
  shapeCasts_S96_S1x96 : S96.ShapeCasts S1x96
  transposes_S3x64_S64x3_1_0 : S3x64.Transposes [1, 0] S64x3
  transposes_S1x32_S32x1_1_0 : S1x32.Transposes [1, 0] S32x1
  bcast_S_S64x1 : S_.BroadcastsInDim S64x1 (![] : Fin 0 → Fin S64x1.rank)
  bcast_S_S64x4 : S_.BroadcastsInDim S64x4 (![] : Fin 0 → Fin S64x4.rank)
  concatenates_S64x1_S64x3_S64x4_S64x8_d1 : Shape.Concatenates [S64x1, S64x3, S64x4] S64x8 1
  bcast_S_S32x7 : S_.BroadcastsInDim S32x7 (![] : Fin 0 → Fin S32x7.rank)
  concatenates_S32x1_S32x7_S32x8_d1 : Shape.Concatenates [S32x1, S32x7] S32x8 1
  concatenates_S64x8_S32x8_S96x8_d0 : Shape.Concatenates [S64x8, S32x8] S96x8 0
  bcast_S_S4 : S_.BroadcastsInDim S4 (![] : Fin 0 → Fin S4.rank)
  concatenates_S1_S3_S4_S8_d0 : Shape.Concatenates [S1, S3, S4] S8 0
  shapeCasts_S8_S1x8 : S8.ShapeCasts S1x8
  inb_S1024x256_S1024x256_0_0 : ∀ a, (![0, 0] : Fin 2 → Nat) a + S1024x256.size a ≤ S1024x256.size a
  h_S1024x256 : 0 < S1024x256.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x4_d1_w32 : S1024x4.Iotas .tc 32 [1]
  broadcasts_S1024x1_S1024x4 : S1024x1.Broadcasts S1024x4
  natLt_1_32 : 1 < 32
  inb_S4x256_S4x256_0_0 : ∀ a, (![0, 0] : Fin 2 → Nat) a + S4x256.size a ≤ S4x256.size a
  h_S4x256 : 0 < S4x256.numel
  shapeCasts_S4x256_S4x256 : S4x256.ShapeCasts S4x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  slices_S1024x512_o0_0_S1024x256 : S1024x512.Slices ![0, 0] S1024x256
  slices_S1024x512_o0_256_S1024x256 : S1024x512.Slices ![0, 256] S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x192_S256x192_0_0 : ∀ a, (![0, 0] : Fin 2 → Nat) a + S256x192.size a ≤ S256x192.size a
  h_S256x192 : 0 < S256x192.numel
  shapeCasts_S256x192_S256x192 : S256x192.ShapeCasts S256x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S1024x192 : S1x192.Broadcasts S1024x192
  inb_S192x96_S192x96_0_0 : ∀ a, (![0, 0] : Fin 2 → Nat) a + S192x96.size a ≤ S192x96.size a
  h_S192x96 : 0 < S192x96.numel
  shapeCasts_S192x96_S192x96 : S192x96.ShapeCasts S192x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S1024x96 : S1x96.Broadcasts S1024x96
  inb_S96x8_S96x8_0_0 : ∀ a, (![0, 0] : Fin 2 → Nat) a + S96x8.size a ≤ S96x8.size a
  h_S96x8 : 0 < S96x8.numel
  shapeCasts_S96x8_S96x8 : S96x8.ShapeCasts S96x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  inb_S1024x8_S1024x8_0_0 : ∀ a, (![0, 0] : Fin 2 → Nat) a + S1024x8.size a ≤ S1024x8.size a
  h_S1024x8 : 0 < S1024x8.numel
  slices_S32768x8_S32768x1_0_0 : S32768x8.Slices ![0, 0] S32768x1
  slices_S32768x8_S32768x3_0_1 : S32768x8.Slices ![0, 1] S32768x3
  dot_S4x25_S25x256_S4x256_1_0_0_1_n_n_wf : DotDims.WF S4x25 S25x256 S4x256 [1] [0] [0] [1] [] []
  dot_S1024x4_S4x256_S1024x256_1_0_0_1_n_n_wf : DotDims.WF S1024x4 S4x256 S1024x256 [1] [0] [0] [1] [] []
  dot_S1024x256_S256x1024_S1024x1024_1_0_0_1_n_n_wf : DotDims.WF S1024x256 S256x1024 S1024x1024 [1] [0] [0] [1] [] []
  dot_S1024x256_S256x512_S1024x512_1_0_0_1_n_n_wf : DotDims.WF S1024x256 S256x512 S1024x512 [1] [0] [0] [1] [] []
  dot_S1024x256_S256x256_S1024x256_1_0_0_1_n_n_wf : DotDims.WF S1024x256 S256x256 S1024x256 [1] [0] [0] [1] [] []
  dot_S1024x256_S256x192_S1024x192_1_0_0_1_n_n_wf : DotDims.WF S1024x256 S256x192 S1024x192 [1] [0] [0] [1] [] []
  dot_S1024x192_S192x96_S1024x96_1_0_0_1_n_n_wf : DotDims.WF S1024x192 S192x96 S1024x96 [1] [0] [0] [1] [] []
  dot_S1024x96_S96x8_S1024x8_1_0_0_1_n_n_wf : DotDims.WF S1024x96 S96x8 S1024x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S32768x256.size a
  hwx0_0 : ∀ i : grid0.Coords, EltTy.bits .f32 = 32 ∨ (Rect.block (s := S32768x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S32768x1.size a
  hwx0_1 : ∀ i : grid0.Coords, EltTy.bits .i32 = 32 ∨ (Rect.block (s := S32768x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S32768x256.size a
  hwx0_2 : ∀ i : grid0.Coords, EltTy.bits .f32 = 32 ∨ (Rect.block (s := S32768x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S32768x256.size a
  hwx0_3 : ∀ i : grid0.Coords, EltTy.bits .f32 = 32 ∨ (Rect.block (s := S32768x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S32768x256.size a
  hwx0_4 : ∀ i : grid0.Coords, EltTy.bits .f32 = 32 ∨ (Rect.block (s := S32768x256) S1024x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x256.size a
  hwx0_5 : ∀ i : grid0.Coords, EltTy.bits .f32 = 32 ∨ (Rect.block (s := S4x256) S4x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S256x1024.size a
  hwx0_6 : ∀ i : grid0.Coords, EltTy.bits .bf16 = 32 ∨ (Rect.block (s := S256x1024) S256x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S256x1024.size a
  hwx0_7 : ∀ i : grid0.Coords, EltTy.bits .bf16 = 32 ∨ (Rect.block (s := S256x1024) S256x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S256x1024.size a
  hwx0_8 : ∀ i : grid0.Coords, EltTy.bits .bf16 = 32 ∨ (Rect.block (s := S256x1024) S256x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .bf16 = 32 ∨ (Rect.block (s := S256x256) S256x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x512.size a ≤ S256x512.size a
  hwx0_14 : ∀ i : grid0.Coords, EltTy.bits .bf16 = 32 ∨ (Rect.block (s := S256x512) S256x512.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x512.size a ≤ S256x512.size a
  hwx0_15 : ∀ i : grid0.Coords, EltTy.bits .bf16 = 32 ∨ (Rect.block (s := S256x512) S256x512.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x512.size a ≤ S1x512.size a
  hwx0_16 : ∀ i : grid0.Coords, EltTy.bits .f32 = 32 ∨ (Rect.block (s := S1x512) S1x512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x256.size a ≤ S256x256.size a
  hwx0_17 : ∀ i : grid0.Coords, EltTy.bits .bf16 = 32 ∨ (Rect.block (s := S256x256) S256x256.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256x256.size a ≤ S256x256.size a
  hwx0_18 : ∀ i : grid0.Coords, EltTy.bits .bf16 = 32 ∨ (Rect.block (s := S256x256) S256x256.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x256.size a ≤ S1x256.size a
  hwx0_19 : ∀ i : grid0.Coords, EltTy.bits .f32 = 32 ∨ (Rect.block (s := S1x256) S1x256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256x192.size a ≤ S256x192.size a
  hwx0_20 : ∀ i : grid0.Coords, EltTy.bits .bf16 = 32 ∨ (Rect.block (s := S256x192) S256x192.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x192.size a ≤ S1x192.size a
  hwx0_21 : ∀ i : grid0.Coords, EltTy.bits .f32 = 32 ∨ (Rect.block (s := S1x192) S1x192.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S192x96.size a ≤ S192x96.size a
  hwx0_22 : ∀ i : grid0.Coords, EltTy.bits .bf16 = 32 ∨ (Rect.block (s := S192x96) S192x96.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x96.size a ≤ S1x96.size a
  hwx0_23 : ∀ i : grid0.Coords, EltTy.bits .f32 = 32 ∨ (Rect.block (s := S1x96) S1x96.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S96x8.size a ≤ S96x8.size a
  hwx0_24 : ∀ i : grid0.Coords, EltTy.bits .bf16 = 32 ∨ (Rect.block (s := S96x8) S96x8.size (cc0_transform_24 i) (hinb0_24 i)).WholeWords (EltTy.packing .bf16)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1x8.size a ≤ S1x8.size a
  hwx0_25 : ∀ i : grid0.Coords, EltTy.bits .f32 = 32 ∨ (Rect.block (s := S1x8) S1x8.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S1024x8.size a ≤ S32768x8.size a
  hwx0_26 : ∀ i : grid0.Coords, EltTy.bits .f32 = 32 ∨ (Rect.block (s := S32768x8) S1024x8.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S1024x256.size a ≤ S32768x256.size a
  hwx0_27 : ∀ i : grid0.Coords, EltTy.bits .f32 = 32 ∨ (Rect.block (s := S32768x256) S1024x256.size (cc0_transform_27 i) (hinb0_27 i)).WholeWords (EltTy.packing .f32)
  hstage0_28 : ∀ j, (stage0_28 j).IsWhole
  nbuf0_28 : grid0.bufCount reads0_28 false = 2
  hreads0_28 : ∀ i i' : grid0.Coords, (∀ a, reads0_28 a = true → i a = i' a) → cc0_transform_28 i = cc0_transform_28 i'
  hinb0_28 : ∀ (i : grid0.Coords) a, (cc0_transform_28 i a + 1) * S1024x256.size a ≤ S32768x256.size a
  hwx0_28 : ∀ i : grid0.Coords, EltTy.bits .f32 = 32 ∨ (Rect.block (s := S32768x256) S1024x256.size (cc0_transform_28 i) (hinb0_28 i)).WholeWords (EltTy.packing .f32)

variable [Facts₀]

def dot_S4x25_S25x256_S4x256_1_0_0_1_n_n : DotDims S4x25 S25x256 S4x256 where
  lhsContracting := [1]
  rhsContracting := [0]
  lhsNonContracting := [0]
  rhsNonContracting := [1]
  lhsBatch := []
  rhsBatch := []
  wf := dot_S4x25_S25x256_S4x256_1_0_0_1_n_n_wf
def dot_S1024x4_S4x256_S1024x256_1_0_0_1_n_n : DotDims S1024x4 S4x256 S1024x256 where
  lhsContracting := [1]
  rhsContracting := [0]
  lhsNonContracting := [0]
  rhsNonContracting := [1]
  lhsBatch := []
  rhsBatch := []
  wf := dot_S1024x4_S4x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x192_S1024x192_1_0_0_1_n_n : DotDims S1024x256 S256x192 S1024x192 where
  lhsContracting := [1]
  rhsContracting := [0]
  lhsNonContracting := [0]
  rhsNonContracting := [1]
  lhsBatch := []
  rhsBatch := []
  wf := dot_S1024x256_S256x192_S1024x192_1_0_0_1_n_n_wf
def dot_S1024x192_S192x96_S1024x96_1_0_0_1_n_n : DotDims S1024x192 S192x96 S1024x96 where
  lhsContracting := [1]
  rhsContracting := [0]
  lhsNonContracting := [0]
  rhsNonContracting := [1]
  lhsBatch := []
  rhsBatch := []
  wf := dot_S1024x192_S192x96_S1024x96_1_0_0_1_n_n_wf
def dot_S1024x96_S96x8_S1024x8_1_0_0_1_n_n : DotDims S1024x96 S96x8 S1024x8 where
  lhsContracting := [1]
  rhsContracting := [0]
  lhsNonContracting := [0]
  rhsNonContracting := [1]
  lhsBatch := []
  rhsBatch := []
  wf := dot_S1024x96_S96x8_S1024x8_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S4x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S256x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S256x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S256x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v34) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v35) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v37) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v38) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v23) S256x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v25) S256x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v26) S1x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v29) S256x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v31) S256x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v32) S1x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v42) S256x192.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v43) S1x192.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v51) S192x96.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v53) S1x96.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v62) S96x8.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v65) S1x8.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v66_0) S1024x8.size cc0_transform_26 reads0_26 true false 2 stage0_26 sem0_26
    hrank0 hreads0_26 hinb0_26 nbuf0_26 (Memref.isWhole_whole _) hwx0_26 hstage0_26

abbrev win0_27 : Pipeline.Window sig grid0 :=
  Pipeline.Window.ofSpec (Memref.whole main_v66_1) S1024x256.size cc0_transform_27 reads0_27 true false 2 stage0_27 sem0_27
    hrank0 hreads0_27 hinb0_27 nbuf0_27 (Memref.isWhole_whole _) hwx0_27 hstage0_27

abbrev win0_28 : Pipeline.Window sig grid0 :=
  Pipeline.Window.ofSpec (Memref.whole main_v66_2) S1024x256.size cc0_transform_28 reads0_28 true false 2 stage0_28 sem0_28
    hrank0 hreads0_28 hinb0_28 nbuf0_28 (Memref.isWhole_whole _) hwx0_28 hstage0_28

abbrev win0 : Fin 29 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | ⟨_ + 29, h⟩ => absurd h (Nat.not_lt.2 (Nat.le_add_left _ _))
abbrev spec0 : Fin 29 → Pipeline.WinSpec sig grid0.rank := fun w => (win0 w).toWinSpec

class Facts : Prop extends Facts₀ where

variable [Facts]
-- ==== ReferenceIdeal.lean ====
abbrev S32768x256 : Shape := ⟨2, ![32768, 256]⟩
abbrev S32768x1 : Shape := ⟨2, ![32768, 1]⟩
abbrev S4x25 : Shape := ⟨2, ![4, 25]⟩
abbrev S256x25 : Shape := ⟨2, ![256, 25]⟩
abbrev S256 : Shape := ⟨1, ![256]⟩
abbrev S1024x512 : Shape := ⟨2, ![1024, 512]⟩
abbrev S1024x256 : Shape := ⟨2, ![1024, 256]⟩
abbrev S1024 : Shape := ⟨1, ![1024]⟩
abbrev S256x256 : Shape := ⟨2, ![256, 256]⟩
abbrev S512x512 : Shape := ⟨2, ![512, 512]⟩
abbrev S512 : Shape := ⟨1, ![512]⟩
abbrev S256x512 : Shape := ⟨2, ![256, 512]⟩
abbrev S128x256 : Shape := ⟨2, ![128, 256]⟩
abbrev S128 : Shape := ⟨1, ![128]⟩
abbrev S64x128 : Shape := ⟨2, ![64, 128]⟩
abbrev S64 : Shape := ⟨1, ![64]⟩
abbrev S3x64 : Shape := ⟨2, ![3, 64]⟩
abbrev S3 : Shape := ⟨1, ![3]⟩
abbrev S64x256 : Shape := ⟨2, ![64, 256]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩
abbrev S32768x1x1 : Shape := ⟨3, ![32768, 1, 1]⟩
abbrev S32768x1x25 : Shape := ⟨3, ![32768, 1, 25]⟩
abbrev S32768x25 : Shape := ⟨2, ![32768, 25]⟩
abbrev S25x256 : Shape := ⟨2, ![25, 256]⟩
abbrev S1x256 : Shape := ⟨2, ![1, 256]⟩
abbrev S32768x512 : Shape := ⟨2, ![32768, 512]⟩
abbrev S512x1024 : Shape := ⟨2, ![512, 1024]⟩
abbrev S32768x1024 : Shape := ⟨2, ![32768, 1024]⟩
abbrev S1x1024 : Shape := ⟨2, ![1, 1024]⟩
abbrev S256x1024 : Shape := ⟨2, ![256, 1024]⟩
abbrev S1x512 : Shape := ⟨2, ![1, 512]⟩
abbrev S512x256 : Shape := ⟨2, ![512, 256]⟩
abbrev S256x128 : Shape := ⟨2, ![256, 128]⟩
abbrev S32768x128 : Shape := ⟨2, ![32768, 128]⟩
abbrev S1x128 : Shape := ⟨2, ![1, 128]⟩
abbrev S128x64 : Shape := ⟨2, ![128, 64]⟩
abbrev S32768x64 : Shape := ⟨2, ![32768, 64]⟩
abbrev S1x64 : Shape := ⟨2, ![1, 64]⟩
abbrev S256x64 : Shape := ⟨2, ![256, 64]⟩
abbrev S64x32 : Shape := ⟨2, ![64, 32]⟩
abbrev S32768x32 : Shape := ⟨2, ![32768, 32]⟩
abbrev S32x1 : Shape := ⟨2, ![32, 1]⟩
abbrev S1x1 : Shape := ⟨2, ![1, 1]⟩
abbrev S64x3 : Shape := ⟨2, ![64, 3]⟩
abbrev S32768x3 : Shape := ⟨2, ![32768, 3]⟩
abbrev S1x3 : Shape := ⟨2, ![1, 3]⟩

abbrev nBuf : Space → Nat
  | .hbm => 183
  | .vmem => 0
  | .smem => 0
  | _ => 0

abbrev hbmTy0_0 (i : Nat) : BufTy := match i % 128 with
  | 0 => ⟨S32768x256, .f32⟩
  | 1 => ⟨S32768x1, .i32⟩
  | 2 => ⟨S32768x256, .f32⟩
  | 3 => ⟨S32768x256, .f32⟩
  | 4 => ⟨S32768x256, .f32⟩
  | 5 => ⟨S4x25, .f32⟩
  | 6 => ⟨S256x25, .f32⟩
  | 7 => ⟨S256, .f32⟩
  | 8 => ⟨S1024x512, .f32⟩
  | 9 => ⟨S1024x256, .f32⟩
  | 10 => ⟨S1024, .f32⟩
  | 11 => ⟨S1024, .f32⟩
  | 12 => ⟨S256x256, .f32⟩
  | 13 => ⟨S256, .f32⟩
  | 14 => ⟨S256x256, .f32⟩
  | 15 => ⟨S256, .f32⟩
  | 16 => ⟨S512x512, .f32⟩
  | 17 => ⟨S512, .f32⟩
  | 18 => ⟨S256x512, .f32⟩
  | 19 => ⟨S256, .f32⟩
  | 20 => ⟨S128x256, .f32⟩
  | 21 => ⟨S128, .f32⟩
  | 22 => ⟨S64x128, .f32⟩
  | 23 => ⟨S64, .f32⟩
  | 24 => ⟨S3x64, .f32⟩
  | 25 => ⟨S3, .f32⟩
  | 26 => ⟨S64x256, .f32⟩
  | 27 => ⟨S64, .f32⟩
  | 28 => ⟨S32x64, .f32⟩
  | 29 => ⟨S32, .f32⟩
  | 30 => ⟨S1x32, .f32⟩
  | 31 => ⟨S1, .f32⟩
  | 32 => ⟨S_, .i32⟩
  | 33 => ⟨S32768x1, .i32⟩
  | 34 => ⟨S32768x1, .i1⟩
  | 35 => ⟨S_, .i32⟩
  | 36 => ⟨S32768x1, .i32⟩
  | 37 => ⟨S32768x1, .i32⟩
  | 38 => ⟨S32768x1, .i32⟩
  | 39 => ⟨S32768x1x1, .i32⟩
  | 40 => ⟨S32768x1x25, .f32⟩
  | 41 => ⟨S32768x25, .f32⟩
  | 42 => ⟨S25x256, .f32⟩
  | 43 => ⟨S32768x256, .f32⟩
  | 44 => ⟨S1x256, .f32⟩
  | 45 => ⟨S32768x256, .f32⟩
  | 46 => ⟨S32768x256, .f32⟩
  | 47 => ⟨S32768x256, .f32⟩
  | 48 => ⟨S32768x256, .f32⟩
  | 49 => ⟨S_, .f32⟩
  | 50 => ⟨S32768x256, .f32⟩
  | 51 => ⟨S32768x256, .f32⟩
  | 52 => ⟨S_, .f32⟩
  | 53 => ⟨S32768x256, .f32⟩
  | 54 => ⟨S32768x256, .f32⟩
  | 55 => ⟨S32768x256, .f32⟩
  | 56 => ⟨S32768x512, .f32⟩
  | 57 => ⟨S512x1024, .f32⟩
  | 58 => ⟨S32768x1024, .f32⟩
  | 59 => ⟨S1x1024, .f32⟩
  | 60 => ⟨S32768x1024, .f32⟩
  | 61 => ⟨S32768x1024, .f32⟩
  | 62 => ⟨S256x1024, .f32⟩
  | 63 => ⟨S32768x1024, .f32⟩
  | 64 => ⟨S32768x1024, .f32⟩
  | 65 => ⟨S1x1024, .f32⟩
  | 66 => ⟨S32768x1024, .f32⟩
  | 67 => ⟨S32768x1024, .f32⟩
  | 68 => ⟨S32768x256, .f32⟩
  | 69 => ⟨S32768x256, .f32⟩
  | 70 => ⟨S32768x256, .f32⟩
  | 71 => ⟨S32768x256, .f32⟩
  | 72 => ⟨S32768x256, .f32⟩
  | 73 => ⟨S32768x256, .f32⟩
  | 74 => ⟨S_, .f32⟩
  | 75 => ⟨S32768x256, .f32⟩
  | 76 => ⟨S32768x256, .f32⟩
  | 77 => ⟨S_, .f32⟩
  | 78 => ⟨S32768x256, .f32⟩
  | 79 => ⟨S32768x256, .f32⟩
  | 80 => ⟨S32768x256, .f32⟩
  | 81 => ⟨S32768x256, .f32⟩
  | 82 => ⟨S32768x256, .f32⟩
  | 83 => ⟨S_, .f32⟩
  | 84 => ⟨S32768x256, .f32⟩
  | 85 => ⟨S32768x256, .f32⟩
  | 86 => ⟨S_, .f32⟩
  | 87 => ⟨S32768x256, .f32⟩
  | 88 => ⟨S32768x256, .f32⟩
  | 89 => ⟨S32768x256, .f32⟩
  | 90 => ⟨S32768x256, .f32⟩
  | 91 => ⟨S32768x256, .f32⟩
  | 92 => ⟨S32768x256, .f32⟩
  | 93 => ⟨S32768x256, .f32⟩
  | 94 => ⟨S_, .f32⟩
  | 95 => ⟨S32768x256, .f32⟩
  | 96 => ⟨S32768x256, .f32⟩
  | 97 => ⟨S_, .f32⟩
  | 98 => ⟨S32768x256, .f32⟩
  | 99 => ⟨S32768x256, .f32⟩
  | 100 => ⟨S32768x256, .f32⟩
  | 101 => ⟨S32768x256, .f32⟩
  | 102 => ⟨S32768x512, .f32⟩
  | 103 => ⟨S512x512, .f32⟩
  | 104 => ⟨S32768x512, .f32⟩
  | 105 => ⟨S1x512, .f32⟩
  | 106 => ⟨S32768x512, .f32⟩
  | 107 => ⟨S32768x512, .f32⟩
  | 108 => ⟨S_, .f32⟩
  | 109 => ⟨S32768x512, .f32⟩
  | 110 => ⟨S32768x512, .f32⟩
  | 111 => ⟨S32768x256, .f32⟩
  | 112 => ⟨S32768x256, .f32⟩
  | 113 => ⟨S256x256, .f32⟩
  | 114 => ⟨S32768x256, .f32⟩
  | 115 => ⟨S1x256, .f32⟩
  | 116 => ⟨S32768x256, .f32⟩
  | 117 => ⟨S32768x256, .f32⟩
  | 118 => ⟨S_, .f32⟩
  | 119 => ⟨S32768x256, .f32⟩
  | 120 => ⟨S32768x256, .f32⟩
  | 121 => ⟨S256x256, .f32⟩
  | 122 => ⟨S32768x256, .f32⟩
  | 123 => ⟨S1x256, .f32⟩
  | 124 => ⟨S32768x256, .f32⟩
  | 125 => ⟨S32768x256, .f32⟩
  | 126 => ⟨S_, .f32⟩
  | 127 => ⟨S32768x256, .f32⟩
  | _ => ⟨S32768x256, .f32⟩

abbrev hbmTy0_1 (i : Nat) : BufTy := match i % 128 with
  | 0 => ⟨S32768x256, .f32⟩
  | 1 => ⟨S32768x256, .f32⟩
  | 2 => ⟨S32768x256, .f32⟩
  | 3 => ⟨S32768x256, .f32⟩
  | 4 => ⟨S32768x512, .f32⟩
  | 5 => ⟨S512x256, .f32⟩
  | 6 => ⟨S32768x256, .f32⟩
  | 7 => ⟨S1x256, .f32⟩
  | 8 => ⟨S32768x256, .f32⟩
  | 9 => ⟨S32768x256, .f32⟩
  | 10 => ⟨S_, .f32⟩
  | 11 => ⟨S32768x256, .f32⟩
  | 12 => ⟨S32768x256, .f32⟩
  | 13 => ⟨S256x128, .f32⟩
  | 14 => ⟨S32768x128, .f32⟩
  | 15 => ⟨S1x128, .f32⟩
  | 16 => ⟨S32768x128, .f32⟩
  | 17 => ⟨S32768x128, .f32⟩
  | 18 => ⟨S_, .f32⟩
  | 19 => ⟨S32768x128, .f32⟩
  | 20 => ⟨S32768x128, .f32⟩
  | 21 => ⟨S128x64, .f32⟩
  | 22 => ⟨S32768x64, .f32⟩
  | 23 => ⟨S1x64, .f32⟩
  | 24 => ⟨S32768x64, .f32⟩
  | 25 => ⟨S32768x64, .f32⟩
  | 26 => ⟨S_, .f32⟩
  | 27 => ⟨S32768x64, .f32⟩
  | 28 => ⟨S32768x64, .f32⟩
  | 29 => ⟨S256x64, .f32⟩
  | 30 => ⟨S32768x64, .f32⟩
  | 31 => ⟨S1x64, .f32⟩
  | 32 => ⟨S32768x64, .f32⟩
  | 33 => ⟨S32768x64, .f32⟩
  | 34 => ⟨S_, .f32⟩
  | 35 => ⟨S32768x64, .f32⟩
  | 36 => ⟨S32768x64, .f32⟩
  | 37 => ⟨S64x32, .f32⟩
  | 38 => ⟨S32768x32, .f32⟩
  | 39 => ⟨S1x32, .f32⟩
  | 40 => ⟨S32768x32, .f32⟩
  | 41 => ⟨S32768x32, .f32⟩
  | 42 => ⟨S_, .f32⟩
  | 43 => ⟨S32768x32, .f32⟩
  | 44 => ⟨S32768x32, .f32⟩
  | 45 => ⟨S32x1, .f32⟩
  | 46 => ⟨S32768x1, .f32⟩
  | 47 => ⟨S1x1, .f32⟩
  | 48 => ⟨S32768x1, .f32⟩
  | 49 => ⟨S32768x1, .f32⟩
  | 50 => ⟨S64x3, .f32⟩
  | 51 => ⟨S32768x3, .f32⟩
  | 52 => ⟨S1x3, .f32⟩
  | 53 => ⟨S32768x3, .f32⟩
  | 54 => ⟨S32768x3, .f32⟩
  | _ => ⟨S32768x256, .f32⟩

abbrev hbmTy (i : Nat) : BufTy := match i / 128 with
  | 0 => hbmTy0_0 i
  | 1 => hbmTy0_1 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_c : Ref sig .tc := ⟨.hbm, 32, rfl⟩
abbrev main_v0 : Ref sig .tc := ⟨.hbm, 33, rfl⟩
abbrev main_v1 : Ref sig .tc := ⟨.hbm, 34, rfl⟩
abbrev main_c_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_cst : Ref sig .tc := ⟨.hbm, 49, rfl⟩
abbrev main_v15 : Ref sig .tc := ⟨.hbm, 50, rfl⟩
abbrev main_v16 : Ref sig .tc := ⟨.hbm, 51, rfl⟩
abbrev main_cst_1 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_2 : Ref sig .tc := ⟨.hbm, 74, rfl⟩
abbrev main_v38 : Ref sig .tc := ⟨.hbm, 75, rfl⟩
abbrev main_v39 : Ref sig .tc := ⟨.hbm, 76, rfl⟩
abbrev main_cst_3 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_4 : Ref sig .tc := ⟨.hbm, 83, rfl⟩
abbrev main_v45 : Ref sig .tc := ⟨.hbm, 84, rfl⟩
abbrev main_v46 : Ref sig .tc := ⟨.hbm, 85, rfl⟩
abbrev main_cst_5 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_cst_6 : Ref sig .tc := ⟨.hbm, 94, rfl⟩
abbrev main_v54 : Ref sig .tc := ⟨.hbm, 95, rfl⟩
abbrev main_v55 : Ref sig .tc := ⟨.hbm, 96, rfl⟩
abbrev main_cst_7 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_call0_cst : Ref sig .tc := ⟨.hbm, 108, rfl⟩
abbrev main_call0_v0 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_call1_cst : Ref sig .tc := ⟨.hbm, 118, rfl⟩
abbrev main_call1_v0 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_call2_cst : Ref sig .tc := ⟨.hbm, 126, rfl⟩
abbrev main_call2_v0 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_call3_cst : Ref sig .tc := ⟨.hbm, 138, rfl⟩
abbrev main_call3_v0 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_call4_cst : Ref sig .tc := ⟨.hbm, 146, rfl⟩
abbrev main_call4_v0 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_call5_cst : Ref sig .tc := ⟨.hbm, 154, rfl⟩
abbrev main_call5_v0 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_call6_cst : Ref sig .tc := ⟨.hbm, 162, rfl⟩
abbrev main_call6_v0 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_call7_cst : Ref sig .tc := ⟨.hbm, 170, rfl⟩
abbrev main_call7_v0 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩

abbrev nD : Nat := 1
abbrev τ : Topo := Topo.v7x

variable {F : FTy → Type} [FloatOps F]

class Facts₀ : Prop where
  bcast_S_S32768x1 : S_.BroadcastsInDim S32768x1 (![] : Fin 0 → Fin S32768x1.rank)
  bcast_S32768x1_S32768x1x1_0_1 : S32768x1.BroadcastsInDim S32768x1x1 (![0, 1] : Fin 2 → Fin S32768x1x1.rank)
  shapeCasts_S32768x1x25_S32768x25 : S32768x1x25.ShapeCasts S32768x25
  transposes_S256x25_S25x256_1_0 : S256x25.Transposes [1, 0] S25x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  concatenates_S32768x256_S32768x256_S32768x512_d1 : Shape.Concatenates [S32768x256, S32768x256] S32768x512 1
  transposes_S1024x512_S512x1024_1_0 : S1024x512.Transposes [1, 0] S512x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  transposes_S1024x256_S256x1024_1_0 : S1024x256.Transposes [1, 0] S256x1024
  slices_S32768x1024_S32768x256_0_0 : S32768x1024.Slices ![0, 0] S32768x256
  slices_S32768x1024_S32768x256_0_256 : S32768x1024.Slices ![0, 256] S32768x256
  slices_S32768x1024_S32768x256_0_512 : S32768x1024.Slices ![0, 512] S32768x256
  slices_S32768x1024_S32768x256_0_768 : S32768x1024.Slices ![0, 768] S32768x256
  transposes_S512x512_S512x512_1_0 : S512x512.Transposes [1, 0] S512x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  slices_S32768x512_S32768x256_0_0 : S32768x512.Slices ![0, 0] S32768x256
  slices_S32768x512_S32768x256_0_256 : S32768x512.Slices ![0, 256] S32768x256
  transposes_S256x256_S256x256_1_0 : S256x256.Transposes [1, 0] S256x256
  transposes_S256x512_S512x256_1_0 : S256x512.Transposes [1, 0] S512x256
  transposes_S128x256_S256x128_1_0 : S128x256.Transposes [1, 0] S256x128
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  transposes_S64x128_S128x64_1_0 : S64x128.Transposes [1, 0] S128x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  bcast_S_S32768x64 : S_.BroadcastsInDim S32768x64 (![] : Fin 0 → Fin S32768x64.rank)
  transposes_S64x256_S256x64_1_0 : S64x256.Transposes [1, 0] S256x64
  transposes_S32x64_S64x32_1_0 : S32x64.Transposes [1, 0] S64x32
  bcast_S32_S1x32_1 : S32.BroadcastsInDim S1x32 (![1] : Fin 1 → Fin S1x32.rank)
  bcast_S1x32_S32768x32_0_1 : S1x32.BroadcastsInDim S32768x32 (![0, 1] : Fin 2 → Fin S32768x32.rank)
  bcast_S_S32768x32 : S_.BroadcastsInDim S32768x32 (![] : Fin 0 → Fin S32768x32.rank)
  transposes_S1x32_S32x1_1_0 : S1x32.Transposes [1, 0] S32x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  transposes_S3x64_S64x3_1_0 : S3x64.Transposes [1, 0] S64x3
  bcast_S3_S1x3_1 : S3.BroadcastsInDim S1x3 (![1] : Fin 1 → Fin S1x3.rank)
  bcast_S1x3_S32768x3_0_1 : S1x3.BroadcastsInDim S32768x3 (![0, 1] : Fin 2 → Fin S32768x3.rank)
  gather_S4x25_S32768x1x1_S32768x1x25_2_0_n_n_0_2_125_wf : GatherDims.WF S4x25 S32768x1x1 S32768x1x25 [2] [0] [] [0] [] 2 ![1, 25]
  dot_S32768x25_S25x256_S32768x256_1_0_0_1_n_n_wf : DotDims.WF S32768x25 S25x256 S32768x256 [1] [0] [0] [1] [] []
  dot_S32768x512_S512x1024_S32768x1024_1_0_0_1_n_n_wf : DotDims.WF S32768x512 S512x1024 S32768x1024 [1] [0] [0] [1] [] []
  dot_S32768x256_S256x1024_S32768x1024_1_0_0_1_n_n_wf : DotDims.WF S32768x256 S256x1024 S32768x1024 [1] [0] [0] [1] [] []
  dot_S32768x512_S512x512_S32768x512_1_0_0_1_n_n_wf : DotDims.WF S32768x512 S512x512 S32768x512 [1] [0] [0] [1] [] []
  dot_S32768x256_S256x256_S32768x256_1_0_0_1_n_n_wf : DotDims.WF S32768x256 S256x256 S32768x256 [1] [0] [0] [1] [] []
  dot_S32768x512_S512x256_S32768x256_1_0_0_1_n_n_wf : DotDims.WF S32768x512 S512x256 S32768x256 [1] [0] [0] [1] [] []
  dot_S32768x256_S256x128_S32768x128_1_0_0_1_n_n_wf : DotDims.WF S32768x256 S256x128 S32768x128 [1] [0] [0] [1] [] []
  dot_S32768x128_S128x64_S32768x64_1_0_0_1_n_n_wf : DotDims.WF S32768x128 S128x64 S32768x64 [1] [0] [0] [1] [] []
  dot_S32768x256_S256x64_S32768x64_1_0_0_1_n_n_wf : DotDims.WF S32768x256 S256x64 S32768x64 [1] [0] [0] [1] [] []
  dot_S32768x64_S64x32_S32768x32_1_0_0_1_n_n_wf : DotDims.WF S32768x64 S64x32 S32768x32 [1] [0] [0] [1] [] []
  dot_S32768x32_S32x1_S32768x1_1_0_0_1_n_n_wf : DotDims.WF S32768x32 S32x1 S32768x1 [1] [0] [0] [1] [] []
  dot_S32768x64_S64x3_S32768x3_1_0_0_1_n_n_wf : DotDims.WF S32768x64 S64x3 S32768x3 [1] [0] [0] [1] [] []

variable [Facts₀]

def gather_S4x25_S32768x1x1_S32768x1x25_2_0_n_n_0_2_125 : GatherDims S4x25 S32768x1x1 S32768x1x25 where
  offsetDims := [2]
  collapsedSliceDims := [0]
  operandBatchingDims := []
  startIndicesBatchingDims := []
  startIndexMap := [0]
  indexVectorDim := 2
  sliceSizes := ![1, 25]
  wf := gather_S4x25_S32768x1x1_S32768x1x25_2_0_n_n_0_2_125_wf
def dot_S32768x25_S25x256_S32768x256_1_0_0_1_n_n : DotDims S32768x25 S25x256 S32768x256 where
  lhsContracting := [1]
  rhsContracting := [0]
  lhsNonContracting := [0]
  rhsNonContracting := [1]
  lhsBatch := []
  rhsBatch := []
  wf := dot_S32768x25_S25x256_S32768x256_1_0_0_1_n_n_wf
def dot_S32768x512_S512x1024_S32768x1024_1_0_0_1_n_n : DotDims S32768x512 S512x1024 S32768x1024 where
  lhsContracting := [1]
  rhsContracting := [0]
  lhsNonContracting := [0]
  rhsNonContracting := [1]
  lhsBatch := []
  rhsBatch := []
  wf := dot_S32768x512_S512x1024_S32768x1024_1_0_0_1_n_n_wf
def dot_S32768x256_S256x1024_S32768x1024_1_0_0_1_n_n : DotDims S32768x256 S256x1024 S32768x1024 where
  lhsContracting := [1]
  rhsContracting := [0]
  lhsNonContracting := [0]
  rhsNonContracting := [1]
  lhsBatch := []
  rhsBatch := []
  wf := dot_S32768x256_S256x1024_S32768x1024_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S32768x512_S512x256_S32768x256_1_0_0_1_n_n : DotDims S32768x512 S512x256 S32768x256 where
  lhsContracting := [1]
  rhsContracting := [0]
  lhsNonContracting := [0]
  rhsNonContracting := [1]
  lhsBatch := []
  rhsBatch := []
  wf := dot_S32768x512_S512x256_S32768x256_1_0_0_1_n_n_wf
def dot_S32768x256_S256x128_S32768x128_1_0_0_1_n_n : DotDims S32768x256 S256x128 S32768x128 where
  lhsContracting := [1]
  rhsContracting := [0]
  lhsNonContracting := [0]
  rhsNonContracting := [1]
  lhsBatch := []
  rhsBatch := []
  wf := dot_S32768x256_S256x128_S32768x128_1_0_0_1_n_n_wf
def dot_S32768x128_S128x64_S32768x64_1_0_0_1_n_n : DotDims S32768x128 S128x64 S32768x64 where
  lhsContracting := [1]
  rhsContracting := [0]
  lhsNonContracting := [0]
  rhsNonContracting := [1]
  lhsBatch := []
  rhsBatch := []
  wf := dot_S32768x128_S128x64_S32768x64_1_0_0_1_n_n_wf
def dot_S32768x256_S256x64_S32768x64_1_0_0_1_n_n : DotDims S32768x256 S256x64 S32768x64 where
  lhsContracting := [1]
  rhsContracting := [0]
  lhsNonContracting := [0]
  rhsNonContracting := [1]
  lhsBatch := []
  rhsBatch := []
  wf := dot_S32768x256_S256x64_S32768x64_1_0_0_1_n_n_wf
def dot_S32768x64_S64x32_S32768x32_1_0_0_1_n_n : DotDims S32768x64 S64x32 S32768x32 where
  lhsContracting := [1]
  rhsContracting := [0]
  lhsNonContracting := [0]
  rhsNonContracting := [1]
  lhsBatch := []
  rhsBatch := []
  wf := dot_S32768x64_S64x32_S32768x32_1_0_0_1_n_n_wf
def dot_S32768x32_S32x1_S32768x1_1_0_0_1_n_n : DotDims S32768x32 S32x1 S32768x1 where
  lhsContracting := [1]
  rhsContracting := [0]
  lhsNonContracting := [0]
  rhsNonContracting := [1]
  lhsBatch := []
  rhsBatch := []
  wf := dot_S32768x32_S32x1_S32768x1_1_0_0_1_n_n_wf
def dot_S32768x64_S64x3_S32768x3_1_0_0_1_n_n : DotDims S32768x64 S64x3 S32768x3 where
  lhsContracting := [1]
  rhsContracting := [0]
  lhsNonContracting := [0]
  rhsNonContracting := [1]
  lhsBatch := []
  rhsBatch := []
  wf := dot_S32768x64_S64x3_S32768x3_1_0_0_1_n_n_wf

class Facts : Prop extends Facts₀ where

variable [Facts]
-- ==== Proof.KIFrame.lean ====
import proofs.«429130_j6116033429958_3_alg».proof.Proof.Gen.KernelIdeal.Launch
import proofs.«429130_j6116033429958_3_alg».proof.Proof.Gen.KernelIdeal.Skeleton
import proofs.«429130_j6116033429958_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Frm

open Cert.KernelIdeal Cert.KernelIdeal.Gen
open Idealize.ShloMosaic Idealize.ShloMosaic.TcCoe
open Idealize.SL Idealize.SL.RA
open Idealize.ShloMosaic.Pipeline (Dat)

variable {F : FTy → Type} [FloatOps F]

variable (m : (ℓ : Loc nD τ sig) → Buf (Elt F) ℓ)

noncomputable abbrev V0 (c : Dev nD) : Valuation τ sig (Elt F) :=
  StableHlo.after (List.flatten [hostOps0, hostOps0_1, hostOps0_2]) (fun b => m (c, b))
noncomputable abbrev V (c : Dev nD) (b : Ref sig .tc) : Buf (Elt F) ((c : Thread nD τ).loc b) := V0 m c (Proc.devRef .tc b)

noncomputable def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

noncomputable def argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31]

abbrev r1024x256 : Rect S1024x256 := Rect.unit (s := S1024x256) ![0, 0] S1024x256.size inb_S1024x256_S1024x256_0_0
abbrev r1024x1 : Rect S1024x1 := Rect.unit (s := S1024x1) ![0, 0] S1024x1.size inb_S1024x1_S1024x1_0_0
abbrev r4x256 : Rect S4x256 := Rect.unit (s := S4x256) ![0, 0] S4x256.size inb_S4x256_S4x256_0_0
abbrev r256x1024 : Rect S256x1024 := Rect.unit (s := S256x1024) ![0, 0] S256x1024.size inb_S256x1024_S256x1024_0_0
abbrev r1x1024 : Rect S1x1024 := Rect.unit (s := S1x1024) ![0, 0] S1x1024.size inb_S1x1024_S1x1024_0_0
abbrev r256x256 : Rect S256x256 := Rect.unit (s := S256x256) ![0, 0] S256x256.size inb_S256x256_S256x256_0_0
abbrev r1x256 : Rect S1x256 := Rect.unit (s := S1x256) ![0, 0] S1x256.size inb_S1x256_S1x256_0_0
abbrev r256x512 : Rect S256x512 := Rect.unit (s := S256x512) ![0, 0] S256x512.size inb_S256x512_S256x512_0_0
abbrev r1x512 : Rect S1x512 := Rect.unit (s := S1x512) ![0, 0] S1x512.size inb_S1x512_S1x512_0_0
abbrev r256x192 : Rect S256x192 := Rect.unit (s := S256x192) ![0, 0] S256x192.size inb_S256x192_S256x192_0_0
abbrev r1x192 : Rect S1x192 := Rect.unit (s := S1x192) ![0, 0] S1x192.size inb_S1x192_S1x192_0_0
abbrev r192x96 : Rect S192x96 := Rect.unit (s := S192x96) ![0, 0] S192x96.size inb_S192x96_S192x96_0_0
abbrev r1x96 : Rect S1x96 := Rect.unit (s := S1x96) ![0, 0] S1x96.size inb_S1x96_S1x96_0_0
abbrev r96x8 : Rect S96x8 := Rect.unit (s := S96x8) ![0, 0] S96x8.size inb_S96x8_S96x8_0_0
abbrev r1x8 : Rect S1x8 := Rect.unit (s := S1x8) ![0, 0] S1x8.size inb_S1x8_S1x8_0_0
abbrev r1024x8 : Rect S1024x8 := Rect.unit (s := S1024x8) ![0, 0] S1024x8.size inb_S1024x8_S1024x8_0_0

structure Blk (F : FTy → Type) where
  x0 : Vec F S1024x256 .f32
  x1 : Vec F S1024x1 .i32
  x2 : Vec F S1024x256 .f32
  x3 : Vec F S1024x256 .f32
  x4 : Vec F S1024x256 .f32
  x5 : Vec F S4x256 .f32
  x6 : Vec F S256x1024 .bf16
  x7 : Vec F S256x1024 .bf16
  x8 : Vec F S256x1024 .bf16
  x9 : Vec F S1x1024 .f32
  x10 : Vec F S256x256 .bf16
  x11 : Vec F S1x256 .f32
  x12 : Vec F S256x256 .bf16
  x13 : Vec F S1x256 .f32
  x14 : Vec F S256x512 .bf16
  x15 : Vec F S256x512 .bf16
  x16 : Vec F S1x512 .f32
  x17 : Vec F S256x256 .bf16
  x18 : Vec F S256x256 .bf16
  x19 : Vec F S1x256 .f32
  x20 : Vec F S256x192 .bf16
  x21 : Vec F S1x192 .f32
  x22 : Vec F S192x96 .bf16
  x23 : Vec F S1x96 .f32
  x24 : Vec F S96x8 .bf16
  x25 : Vec F S1x8 .f32

def bGf (B : Blk F) : FVec F S1024x256 .f32 := k0_pay3 (View.ld B.x0 r1024x256) (View.ld B.x1 r1024x1) (View.ld B.x5 r4x256)
def bGates (B : Blk F) : FVec F S1024x1024 .f32 := k0_pay4 (View.ld B.x0 r1024x256) (View.ld B.x1 r1024x1) (View.ld B.x2 r1024x256) (View.ld B.x5 r4x256) (View.ld B.x6 r256x1024) (View.ld B.x7 r256x1024) (View.ld B.x8 r256x1024) (View.ld B.x9 r1x1024)
def bGi (B : Blk F) : FVec F S1024x256 .f32 := k0_pay5 (View.ld B.x0 r1024x256) (View.ld B.x1 r1024x1) (View.ld B.x2 r1024x256) (View.ld B.x5 r4x256) (View.ld B.x6 r256x1024) (View.ld B.x7 r256x1024) (View.ld B.x8 r256x1024) (View.ld B.x9 r1x1024)
def bGfo (B : Blk F) : FVec F S1024x256 .f32 := k0_pay6 (View.ld B.x0 r1024x256) (View.ld B.x1 r1024x1) (View.ld B.x2 r1024x256) (View.ld B.x5 r4x256) (View.ld B.x6 r256x1024) (View.ld B.x7 r256x1024) (View.ld B.x8 r256x1024) (View.ld B.x9 r1x1024)
def bCx (B : Blk F) : FVec F S1024x256 .f32 := k0_pay7 (View.ld B.x3 r1024x256) (bGates B) (bGi B) (bGfo B)
def bHx (B : Blk F) : FVec F S1024x256 .f32 := k0_pay8 (View.ld B.x3 r1024x256) (bGates B) (bGi B) (bGfo B)
def bVal (B : Blk F) : FVec F S1024x256 .f32 := k0_pay10 (View.ld B.x3 r1024x256) (bGf B) (bGates B) (bGi B) (bGfo B) (View.ld B.x14 r256x512) (View.ld B.x15 r256x512) (View.ld B.x16 r1x512)
def bWq (B : Blk F) : FVec F S1024x256 .f32 := k0_pay11 (View.ld B.x4 r1024x256) (View.ld B.x10 r256x256) (View.ld B.x11 r1x256)
def bWk (B : Blk F) : FVec F S1024x256 .f32 := k0_pay12 (View.ld B.x3 r1024x256) (bGf B) (bGates B) (bGi B) (bGfo B) (View.ld B.x14 r256x512) (View.ld B.x15 r256x512) (View.ld B.x16 r1x512) (View.ld B.x12 r256x256)
def bPv2 (B : Blk F) : FVec F S1024x96 .f32 := k0_pay13 (bHx B) (bVal B) (bWq B) (bWk B) (View.ld B.x13 r1x256) (View.ld B.x17 r256x256) (View.ld B.x18 r256x256) (View.ld B.x19 r1x256) (View.ld B.x20 r256x192) (View.ld B.x21 r1x192) (View.ld B.x22 r192x96)
def bOut (B : Blk F) : FVec F S1024x8 .f32 := k0_pay1 (bPv2 B) (View.ld B.x23 r1x96) (View.ld B.x24 r96x8) (View.ld B.x25 r1x8)

def out0_26 (B : Blk F) : Vec F S1024x8 .f32 := View.canon [⟨r1024x8, bOut B⟩]
def out0_27 (B : Blk F) : Vec F S1024x256 .f32 := View.canon [⟨r1024x256, bHx B⟩]
def out0_28 (B : Blk F) : Vec F S1024x256 .f32 := View.canon [⟨r1024x256, bCx B⟩]

noncomputable def blk (c : Dev nD) (t : Fin cfg0.N) : Blk F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t, iblk m c 23 t, iblk m c 24 t, iblk m c 25 t⟩

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => out0_26 (blk m c t)
    | ⟨27, _⟩ => out0_27 (blk m c t)
    | ⟨28, _⟩ => out0_28 (blk m c t)
    | ⟨_ + 29, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_26 (c : Dev nD) (t : Fin cfg0.N) : (dats m 0 c).after 26 t = out0_26 (blk m c t) := by dsimp only [dats]
theorem after0_27 (c : Dev nD) (t : Fin cfg0.N) : (dats m 0 c).after 27 t = out0_27 (blk m c t) := by dsimp only [dats]
theorem after0_28 (c : Dev nD) (t : Fin cfg0.N) : (dats m 0 c).after 28 t = out0_28 (blk m c t) := by dsimp only [dats]

end Cert.KernelIdeal.Frm

end
-- ==== Proof.KIFrameHost.lean ====
import proofs.«429130_j6116033429958_3_alg».proof.Proof.KIFrame

noncomputable section

namespace Cert.KernelIdeal.Frm

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

theorem hostOps0_fresh : (hostOps0 : List (HloOp τ sig (Elt F))).Forall fun op => op.fresh = ∅ :=
  ⟨rfl, rfl⟩
theorem hostOps0_1_fresh : (hostOps0_1 : List (HloOp τ sig (Elt F))).Forall fun op => op.fresh = ∅ :=
  ⟨rfl, rfl, rfl, rfl, rfl, rfl⟩
theorem hostOps0_2_fresh : (hostOps0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps1_fresh : (hostOps1 : List (HloOp τ sig (Elt F))).Forall fun op => op.fresh = ∅ :=
  ⟨rfl, rfl⟩

-- An operation whose one written buffer is `y` writes no other reference's buffer.
theorem not_writes {op : HloOp τ sig (Elt F)} {y b : Ref sig .tc} (h : op.writes = {Proc.devRef .tc y}) (hb : b ≠ y) :
    Proc.devRef .tc b ∉ op.writes := by
  rw [h, Finset.mem_singleton]
  exact StableHlo.devRef_ne_of_ne hb

theorem not_writes_of {op : HloOp τ sig (Elt F)} {y : Ref sig .tc} (h : op.writes = {Proc.devRef .tc y})
    (hy : y ∉ argRefs := by decide) (b : Ref sig .tc) (hb : b ∈ argRefs) : Proc.devRef .tc b ∉ op.writes :=
  not_writes h fun e => hy (e ▸ hb)

-- Each host line writes its own result buffer only, and no result buffer is an argument's.
theorem pre_keeps : (List.flatten [hostOps0, hostOps0_1, hostOps0_2] : List (HloOp τ sig (Elt F))).Forall fun op =>
    ∀ b ∈ argRefs, Proc.devRef .tc b ∉ op.writes :=
  ⟨not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl, not_writes_of rfl⟩
theorem hostOps1_keeps : (List.flatten [hostOps1] : List (HloOp τ sig (Elt F))).Forall fun op =>
    ∀ b ∈ argRefs, Proc.devRef .tc b ∉ op.writes :=
  ⟨not_writes_of rfl, not_writes_of rfl⟩

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  exact List.forall_mem_singleton.mpr fun op hop => Pipeline.sub_ucRefs op (List.forall_iff_forall_mem.mp hostOps1_sub op hop)

theorem sfx_fresh : ∀ ops ∈ ([hostOps1] : List (List (HloOp τ sig (Elt F)))), ∀ op ∈ ops, op.fresh = ∅ :=
  List.forall_mem_singleton.mpr (List.forall_iff_forall_mem.mp hostOps1_fresh)

-- Each operation after the region writes only its own result, which is no array the region reads or writes.
theorem sfx_keeps : ∀ ops ∈ ([hostOps1] : List (List (HloOp τ sig (Elt F)))), ∀ op ∈ ops,
    ∀ w, Proc.devRef .tc (Pipeline.arrRef spec0 w) ∉ op.writes :=
  List.forall_mem_singleton.mpr (List.forall_iff_forall_mem.mp
    ⟨fun w => not_writes rfl ((by decide : ∀ w, Pipeline.arrRef spec0 w ≠ main_v67) w),
     fun w => not_writes rfl ((by decide : ∀ w, Pipeline.arrRef spec0 w ≠ main_v68) w)⟩)

theorem V_arg (c : Dev nD) (b : Ref sig .tc) (hb : b ∈ argRefs) : V m c b = m ((c : Thread nD τ).loc b) :=
  StableHlo.after_of_forall_not_mem (b := Proc.devRef .tc b) _ _ fun op hop => List.forall_iff_forall_mem.mp pre_keeps op hop b hb

theorem arg_window_in : ∀ w : Fin cfg0.W, Pipeline.arrRef spec0 w ∈ argRefs → (cfg0.win w).isOut = false := by
  decide

-- An argument array the region reads is never one it writes, so it ends as it began.
theorem arrAt_arg (c : Dev nD) (w : Fin cfg0.W) (hb : Pipeline.arrRef spec0 w ∈ argRefs) (n) :
    (dats m 0 c).arrAt w n = m ((c : Thread nD τ).loc (Pipeline.arrRef spec0 w)) :=
  ((dats m 0 c).arrAt_in w (arg_window_in w hb) n).trans ((A_eq m c w).trans (V_arg m c _ hb))

theorem W_arg (c : Dev nD) (b : Ref sig .tc) (hb : b ∈ argRefs) :
    Pipeline.afterTail₀ cfgs (dats m) 0 (V0 m) [hostOps1] c b = m ((c : Thread nD τ).loc b) := by
  unfold Pipeline.afterTail₀
  refine (StableHlo.after_of_forall_not_mem (b := Proc.devRef .tc b) _ _ fun op hop => List.forall_iff_forall_mem.mp hostOps1_keeps op hop b hb).trans ?_
  by_cases h : ∃ w, Pipeline.arrRef spec0 w = b
  · obtain ⟨w, rfl⟩ := h
    exact (Pipeline.withArrays_arr _ winFacts0.arr_inj c _ _ w).trans (arrAt_arg m c w hb _)
  · exact (Pipeline.withArrays_of_ne _ c _ _ b (not_exists.mp h)).trans (V_arg m c b hb)

end Cert.KernelIdeal.Frm

end
-- ==== Proof.KIFrameBody.lean ====
import proofs.«429130_j6116033429958_3_alg».proof.Proof.KIFrame

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- For an input window, what the body finds and what it leaves are one thing: the window's block of the entry array.
theorem keep_in (c : Dev nD) (w : Fin 29) (hw : (cfg0.win w).isOut = false) (t : Fin cfg0.N) :
    (cfg0.win w).cut (cfg0.grid.coords t) ((dats m 0 c).after w t) = (dats m 0 c).blockOf w t := by
  fin_cases w <;> first | exact absurd hw (by decide) | (unfold Dat.blockOf; dsimp only [dats, iblk]; try rfl)

theorem before_eq_after (c : Dev nD) (w : Fin 29) (hw : (cfg0.win w).isOut = false) (t : Fin cfg0.N) (d) :
    (dats m 0 c).before w t d = (dats m 0 c).after w t := by
  fin_cases w <;> first | exact absurd hw (by decide) | exact ((dats m 0 c).before_in_eq_fetched _ rfl (fun _ => rfl) (fun _ _ _ => rfl) (keep_in m c _ rfl) t d).trans (by unfold Dat.fetched; rw [← keep_in m c _ rfl]; rfl)

theorem sound_kernel (c : Dev nD) (E : Set ℕ) (i : grid0.Coords) (arg1 arg3 arg4 arg5 arg28 arg29 : Memref sig .tc .vmem S1024x256 .f32) (arg2 : Memref sig .tc .vmem S1024x1 .i32) (arg6 : Memref sig .tc .vmem S4x256 .f32) (arg7 arg8 arg9 : Memref sig .tc .vmem S256x1024 .bf16) (arg10 : Memref sig .tc .vmem S1x1024 .f32) (arg11 arg13 arg18 arg19 : Memref sig .tc .vmem S256x256 .bf16) (arg12 arg14 arg20 : Memref sig .tc .vmem S1x256 .f32) (arg15 arg16 : Memref sig .tc .vmem S256x512 .bf16) (arg17 : Memref sig .tc .vmem S1x512 .f32) (arg21 : Memref sig .tc .vmem S256x192 .bf16) (arg22 : Memref sig .tc .vmem S1x192 .f32) (arg23 : Memref sig .tc .vmem S192x96 .bf16) (arg24 : Memref sig .tc .vmem S1x96 .f32) (arg25 : Memref sig .tc .vmem S96x8 .bf16) (arg26 : Memref sig .tc .vmem S1x8 .f32) (arg27 : Memref sig .tc .vmem S1024x8 .f32) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole) (harg25 : arg25.IsWhole) (harg26 : arg26.IsWhole) (harg27 : arg27.IsWhole) (harg28 : arg28.IsWhole) (harg29 : arg29.IsWhole)
    (B : Blk F) (K : PUnit → sProp 𝕄) :
    iprop((iprop(owns c.tc arg1 fullShare B.x0
          ∗ owns c.tc arg2 fullShare B.x1
          ∗ owns c.tc arg3 fullShare B.x2
          ∗ owns c.tc arg4 fullShare B.x3
          ∗ owns c.tc arg5 fullShare B.x4
          ∗ owns c.tc arg6 fullShare B.x5
          ∗ owns c.tc arg7 fullShare B.x6
          ∗ owns c.tc arg8 fullShare B.x7
          ∗ owns c.tc arg9 fullShare B.x8
          ∗ owns c.tc arg10 fullShare B.x9
          ∗ owns c.tc arg11 fullShare B.x10
          ∗ owns c.tc arg12 fullShare B.x11
          ∗ owns c.tc arg13 fullShare B.x12
          ∗ owns c.tc arg14 fullShare B.x13
          ∗ owns c.tc arg15 fullShare B.x14
          ∗ owns c.tc arg16 fullShare B.x15
          ∗ owns c.tc arg17 fullShare B.x16
          ∗ owns c.tc arg18 fullShare B.x17
          ∗ owns c.tc arg19 fullShare B.x18
          ∗ owns c.tc arg20 fullShare B.x19
          ∗ owns c.tc arg21 fullShare B.x20
          ∗ owns c.tc arg22 fullShare B.x21
          ∗ owns c.tc arg23 fullShare B.x22
          ∗ owns c.tc arg24 fullShare B.x23
          ∗ owns c.tc arg25 fullShare B.x24
          ∗ owns c.tc arg26 fullShare B.x25
          ∗ owns c.tc arg27 fullShare (out0_26 B)
          ∗ owns c.tc arg28 fullShare (out0_27 B)
          ∗ owns c.tc arg29 fullShare (out0_28 B)) -∗ K ⟨⟩)
        ∗ owns c.tc arg1 fullShare B.x0
        ∗ owns c.tc arg2 fullShare B.x1
        ∗ owns c.tc arg3 fullShare B.x2
        ∗ owns c.tc arg4 fullShare B.x3
        ∗ owns c.tc arg5 fullShare B.x4
        ∗ owns c.tc arg6 fullShare B.x5
        ∗ owns c.tc arg7 fullShare B.x6
        ∗ owns c.tc arg8 fullShare B.x7
        ∗ owns c.tc arg9 fullShare B.x8
        ∗ owns c.tc arg10 fullShare B.x9
        ∗ owns c.tc arg11 fullShare B.x10
        ∗ owns c.tc arg12 fullShare B.x11
        ∗ owns c.tc arg13 fullShare B.x12
        ∗ owns c.tc arg14 fullShare B.x13
        ∗ owns c.tc arg15 fullShare B.x14
        ∗ owns c.tc arg16 fullShare B.x15
        ∗ owns c.tc arg17 fullShare B.x16
        ∗ owns c.tc arg18 fullShare B.x17
        ∗ owns c.tc arg19 fullShare B.x18
        ∗ owns c.tc arg20 fullShare B.x19
        ∗ owns c.tc arg21 fullShare B.x20
        ∗ owns c.tc arg22 fullShare B.x21
        ∗ owns c.tc arg23 fullShare B.x22
        ∗ owns c.tc arg24 fullShare B.x23
        ∗ owns c.tc arg25 fullShare B.x24
        ∗ owns c.tc arg26 fullShare B.x25
        ∗ (∃ d, owns c.tc arg27 fullShare d)
        ∗ (∃ d, owns c.tc arg28 fullShare d)
        ∗ (∃ d, owns c.tc arg29 fullShare d))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  obtain ⟨x0, x1, x2, x3, x4, x5, x6, x7, x8, x9, x10, x11, x12, x13, x14, x15, x16, x17, x18, x19, x20, x21, x22, x23, x24, x25⟩ := B
  simp only [cc0__kernel_eq_skeleton]; unfold cc0__kernel_skel
  conv_lhs => arg 2; unfold owns
  iintro ⟨Hk, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%d27, %f27, -, H27⟩, ⟨%d28, %f28, -, H28⟩⟩
  subst_vars
  sl_exec
  sl_step
  iapply Hk
  isplitl [H0]; · iapply owns_intro; iexact H0
  isplitl [H1]; · iapply owns_intro; iexact H1
  isplitl [H2]; · iapply owns_intro; iexact H2
  isplitl [H3]; · iapply owns_intro; iexact H3
  isplitl [H4]; · iapply owns_intro; iexact H4
  isplitl [H5]; · iapply owns_intro; iexact H5
  isplitl [H6]; · iapply owns_intro; iexact H6
  isplitl [H7]; · iapply owns_intro; iexact H7
  isplitl [H8]; · iapply owns_intro; iexact H8
  isplitl [H9]; · iapply owns_intro; iexact H9
  isplitl [H10]; · iapply owns_intro; iexact H10
  isplitl [H11]; · iapply owns_intro; iexact H11
  isplitl [H12]; · iapply owns_intro; iexact H12
  isplitl [H13]; · iapply owns_intro; iexact H13
  isplitl [H14]; · iapply owns_intro; iexact H14
  isplitl [H15]; · iapply owns_intro; iexact H15
  isplitl [H16]; · iapply owns_intro; iexact H16
  isplitl [H17]; · iapply owns_intro; iexact H17
  isplitl [H18]; · iapply owns_intro; iexact H18
  isplitl [H19]; · iapply owns_intro; iexact H19
  isplitl [H20]; · iapply owns_intro; iexact H20
  isplitl [H21]; · iapply owns_intro; iexact H21
  isplitl [H22]; · iapply owns_intro; iexact H22
  isplitl [H23]; · iapply owns_intro; iexact H23
  isplitl [H24]; · iapply owns_intro; iexact H24
  isplitl [H25]; · iapply owns_intro; iexact H25
  unfold owns
  isplitl [H26]
  · iexists _; isplitr
    swap; · iexact H26
    ipureintro
    exact (View.read_writes_eq_canon _ _ _ (View.cover_of_tiled _ S1024x8.size (by rfl))).trans (by sl_kernel_rfl)
  isplitl [H27]
  · iexists _; isplitr
    swap; · iexact H27
    ipureintro
    exact (View.read_writes_eq_canon _ _ _ (View.cover_of_tiled _ S1024x256.size (by rfl))).trans (by sl_kernel_rfl)
  iexists _; isplitr
  swap; · iexact H28
  ipureintro
  exact (View.read_writes_eq_canon _ _ _ (View.cover_of_tiled _ S1024x256.size (by rfl))).trans (by sl_kernel_rfl)

-- At each grid point the inputs hold their blocks, so the body's triple applies; the rest of the precondition is framed.
theorem body_obligation (c : Dev nD) : BodyObligation (dats (F := F) m 0 c) (defs₀ (F := F)) Variants.none () Set.univ := fun t => by
  rw [bigSep_W0, bigSep_W0]
  simp (disch := rfl) only [before_eq_after]
  dsimp only [dats]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%_, H11⟩, ⟨%_, H12⟩, ⟨%_, H13⟩, ⟨%_, H14⟩, ⟨%_, H15⟩, ⟨%_, H16⟩, ⟨%_, H17⟩, ⟨%_, H18⟩, ⟨%_, H19⟩, ⟨%_, H20⟩, ⟨%_, H21⟩, ⟨%_, H22⟩, ⟨%_, H23⟩, ⟨%_, H24⟩, ⟨%_, H25⟩, ⟨%_, H26⟩, ⟨%_, H27⟩, ⟨%_, H28⟩⟩
  iapply sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (blk m c t) _
  dsimp only [blk]
  isplitl [HΦ Ho]
  · iintro ⟨H0, H1, H2, H3, H4, H5, H6, H7, H8, H9, H10, H11, H12, H13, H14, H15, H16, H17, H18, H19, H20, H21, H22, H23, H24, H25, H26, H27, H28⟩
    iframe
    iexact Ho
  iframe
  isplitl [H26]; · iexists _; iexact H26
  isplitl [H27]; · iexists _; iexact H27
  iexists _; iexact H28

end Cert.KernelIdeal.Frm

end
-- ==== Proof.KIFrameRun.lean ====
import proofs.«429130_j6116033429958_3_alg».proof.Proof.KIFrameHost
import proofs.«429130_j6116033429958_3_alg».proof.Proof.KIFrameBody

noncomputable section

namespace Cert.KernelIdeal.Frm

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem arg_unscoped : ∀ b ∈ argRefs, b.isScoped = false := by
  decide

-- No operation of @main writes an argument array: the region writes only its three results, each host line only its own.
theorem arg_kept (r : PUnit × MemSt nD τ sig (Elt F))
    (h : Pipeline.FramePost cfgs (dats m) 0 (Pipeline.afterTail₀ cfgs (dats m) 0 (V0 m) [hostOps1]) r)
    (c : Dev nD) (b : Ref sig .tc) (hb : b ∈ argRefs) :
    r.2.mem ((c.tc : Thread nD τ).loc b) = m ((c.tc : Thread nD τ).loc b) := by
  by_cases hw : ∃ w, Pipeline.arrRef spec0 w = b
  · obtain ⟨w, rfl⟩ := hw
    exact ((h c).1 w).trans (arrAt_arg m c w hb _)
  · exact ((h c).2 b (Pipeline.mem_restRefs_of b (arg_unscoped b hb) (not_exists.mp hw))).trans (W_arg m c b hb)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs _ _).mono (fun r h c => (List.forall_iff_forall_mem (l := argRefs)).mpr (arg_kept m r h c)) (run_main m ρ)

end Cert.KernelIdeal.Frm

end
-- ==== Proof.Spec.lean ====
import Idealize.ShloMosaic.PureOps.Ideal
import Idealize.ShloMosaic.Lib.ValueIdx
import Mathlib.Algebra.BigOperators.Fin

noncomputable section

namespace Cert.Net

open Idealize.ShloMosaic

@[ext] structure Params where
  emb : Fin 4 → Fin 25 → EReal
  wta : Fin 256 → Fin 25 → EReal
  bta : Fin 256 → EReal
  wih : Fin 1024 → Fin 512 → EReal
  whh : Fin 1024 → Fin 256 → EReal
  bih : Fin 1024 → EReal
  bhh : Fin 1024 → EReal
  wq : Fin 256 → Fin 256 → EReal
  bq : Fin 256 → EReal
  wk : Fin 256 → Fin 256 → EReal
  bk : Fin 256 → EReal
  wba : Fin 512 → Fin 512 → EReal
  bba : Fin 512 → EReal
  wat : Fin 256 → Fin 512 → EReal
  bat : Fin 256 → EReal
  wp1 : Fin 128 → Fin 256 → EReal
  bp1 : Fin 128 → EReal
  wp2 : Fin 64 → Fin 128 → EReal
  bp2 : Fin 64 → EReal
  wp : Fin 3 → Fin 64 → EReal
  bp : Fin 3 → EReal
  wv1 : Fin 64 → Fin 256 → EReal
  bv1 : Fin 64 → EReal
  wv2 : Fin 32 → Fin 64 → EReal
  bv2 : Fin 32 → EReal
  wv : Fin 1 → Fin 32 → EReal
  bv : Fin 1 → EReal

@[ext] structure Row where
  img : Fin 256 → EReal
  e : Fin 4
  hx : Fin 256 → EReal
  cx : Fin 256 → EReal
  q : Fin 256 → EReal

def lin {K N : ℕ} (x : Fin K → EReal) (w : Fin N → Fin K → EReal) (b : Fin N → EReal) (j : Fin N) : EReal :=
  (∑ k, x k * w j k) + b j

def linT {K N : ℕ} (x : Fin K → EReal) (w : Fin K → Fin N → EReal) (b : Fin N → EReal) (j : Fin N) : EReal :=
  (∑ k, x k * w k j) + b j

def relu (x : EReal) : EReal := max x 0
def sg (x : EReal) : EReal := Ideal.logistic x
def th (x : EReal) : EReal := Ideal.tanh x

def cat256 (x y : Fin 256 → EReal) : Fin 512 → EReal := fun k =>
  if h : k.val < 256 then x ⟨k.val, h⟩ else y ⟨k.val - 256, by omega⟩

def sl256 {n : ℕ} (o : ℕ) (ho : o + 256 ≤ n) (g : Fin n → EReal) : Fin 256 → EReal := fun j => g ⟨j.val + o, by omega⟩

-- The network in the order the plain program writes it.
section Plain
variable (P : Params) (R : Row)

def ga : Fin 256 → EReal := fun j => sg (lin (P.emb R.e) P.wta P.bta j)
def gf : Fin 256 → EReal := fun j => R.img j * ga P R j
def gates : Fin 1024 → EReal := fun j =>
  (((∑ k, cat256 (gf P R) (ga P R) k * P.wih j k) + P.bih j) + (∑ k, R.hx k * P.whh j k)) + P.bhh j
def cxN : Fin 256 → EReal := fun j =>
  sg (sl256 256 (by omega) (gates P R) j) * R.cx j + sg (sl256 0 (by omega) (gates P R) j) * th (sl256 512 (by omega) (gates P R) j)
def hxN : Fin 256 → EReal := fun j => sg (sl256 768 (by omega) (gates P R) j) * th (cxN P R j)
def ma : Fin 512 → EReal := fun j => relu (lin (cat256 (gf P R) (hxN P R)) P.wba P.bba j)
def wqo : Fin 256 → EReal := fun j => relu (lin R.q P.wq P.bq j)
def wko : Fin 256 → EReal := fun j => relu (lin (sl256 0 (by omega) (ma P R)) P.wk P.bk j)
def av : Fin 256 → EReal := fun j => th (wqo P R j + wko P R j) * sl256 256 (by omega) (ma P R) j
def aw : Fin 256 → EReal := fun j => relu (lin (cat256 (av P R) (hxN P R)) P.wat P.bat j)
def pol1 : Fin 128 → EReal := fun j => relu (lin (aw P R) P.wp1 P.bp1 j)
def pol2 : Fin 64 → EReal := fun j => relu (lin (pol1 P R) P.wp2 P.bp2 j)
def vh1 : Fin 64 → EReal := fun j => relu (lin (aw P R) P.wv1 P.bv1 j)
def vh2 : Fin 32 → EReal := fun j => relu (lin (vh1 P R) P.wv2 P.bv2 j)
def value : Fin 1 → EReal := fun j => lin (vh2 P R) P.wv P.bv j
def pol : Fin 3 → EReal := fun j => lin (pol2 P R) P.wp P.bp j
end Plain

@[ext] structure KParams where
  table : Fin 4 → Fin 256 → EReal
  wiha : Fin 256 → Fin 1024 → EReal
  wihb : Fin 256 → Fin 1024 → EReal
  whh : Fin 256 → Fin 1024 → EReal
  bih : Fin 1024 → EReal
  wq : Fin 256 → Fin 256 → EReal
  bq : Fin 256 → EReal
  wk : Fin 256 → Fin 256 → EReal
  bk : Fin 256 → EReal
  wbaa : Fin 256 → Fin 512 → EReal
  wbab : Fin 256 → Fin 512 → EReal
  bba : Fin 512 → EReal
  wata : Fin 256 → Fin 256 → EReal
  watb : Fin 256 → Fin 256 → EReal
  bat : Fin 256 → EReal
  wpv1 : Fin 256 → Fin 192 → EReal
  bpv1 : Fin 192 → EReal
  wt1 : Fin 192 → Fin 96 → EReal
  bt1 : Fin 96 → EReal
  wt2 : Fin 96 → Fin 8 → EReal
  bt2 : Fin 8 → EReal

-- The same network in the order the fused kernel evaluates it: table selection, split products, stacked heads.
section Kernel
variable (Q : KParams) (R : Row)

def kga : Fin 256 → EReal := fun j => ∑ c : Fin 4, (if R.e = c then (1 : EReal) else 0) * Q.table c j
def kgf : Fin 256 → EReal := fun j => R.img j * kga Q R j
def kgates : Fin 1024 → EReal := fun j =>
  (((∑ k, kgf Q R k * Q.wiha k j) + (∑ k, kga Q R k * Q.wihb k j)) + (∑ k, R.hx k * Q.whh k j)) + Q.bih j
def kcx : Fin 256 → EReal := fun j =>
  sg (sl256 256 (by omega) (kgates Q R) j) * R.cx j + sg (sl256 0 (by omega) (kgates Q R) j) * th (sl256 512 (by omega) (kgates Q R) j)
def khx : Fin 256 → EReal := fun j => sg (sl256 768 (by omega) (kgates Q R) j) * th (kcx Q R j)
def kma : Fin 512 → EReal := fun j =>
  relu (((∑ k, kgf Q R k * Q.wbaa k j) + (∑ k, khx Q R k * Q.wbab k j)) + Q.bba j)
def kwqo : Fin 256 → EReal := fun j => relu (linT R.q Q.wq Q.bq j)
def kwko : Fin 256 → EReal := fun j => relu (linT (sl256 0 (by omega) (kma Q R)) Q.wk Q.bk j)
def kav : Fin 256 → EReal := fun j => th (kwqo Q R j + kwko Q R j) * sl256 256 (by omega) (kma Q R) j
def kaw : Fin 256 → EReal := fun j =>
  relu (((∑ k, kav Q R k * Q.wata k j) + (∑ k, khx Q R k * Q.watb k j)) + Q.bat j)
def kpv1 : Fin 192 → EReal := fun j => relu (linT (kaw Q R) Q.wpv1 Q.bpv1 j)
def kpv2 : Fin 96 → EReal := fun j => relu (linT (kpv1 Q R) Q.wt1 Q.bt1 j)
def kfin : Fin 8 → EReal := fun j => linT (kpv2 Q R) Q.wt2 Q.bt2 j
end Kernel

-- The kernel's weights from the plain ones: transposes, halves, summed cell biases, heads stacked and padded with zeros.
def kparams (P : Params) : KParams where
  table c j := sg (lin (P.emb c) P.wta P.bta j)
  wiha k j := P.wih j ⟨k.val, by omega⟩
  wihb k j := P.wih j ⟨k.val + 256, by omega⟩
  whh k j := P.whh j k
  bih j := P.bih j + P.bhh j
  wq k j := P.wq j k
  bq := P.bq
  wk k j := P.wk j k
  bk := P.bk
  wbaa k j := P.wba j ⟨k.val, by omega⟩
  wbab k j := P.wba j ⟨k.val + 256, by omega⟩
  bba := P.bba
  wata k j := P.wat j ⟨k.val, by omega⟩
  watb k j := P.wat j ⟨k.val + 256, by omega⟩
  bat := P.bat
  wpv1 k j := if h : j.val < 128 then P.wp1 ⟨j.val, h⟩ k else P.wv1 ⟨j.val - 128, by omega⟩ k
  bpv1 j := if h : j.val < 128 then P.bp1 ⟨j.val, h⟩ else P.bv1 ⟨j.val - 128, by omega⟩
  wt1 k j :=
    if hk : k.val < 128 then (if hj : j.val < 64 then P.wp2 ⟨j.val, hj⟩ ⟨k.val, hk⟩ else 0)
    else (if hj : j.val < 64 then 0 else P.wv2 ⟨j.val - 64, by omega⟩ ⟨k.val - 128, by omega⟩)
  bt1 j := if h : j.val < 64 then P.bp2 ⟨j.val, h⟩ else P.bv2 ⟨j.val - 64, by omega⟩
  wt2 k j :=
    if hk : k.val < 64 then
      (if hj : 1 ≤ j.val ∧ j.val < 4 then P.wp ⟨j.val - 1, by omega⟩ ⟨k.val, hk⟩ else 0)
    else (if j.val = 0 then P.wv 0 ⟨k.val - 64, by omega⟩ else 0)
  bt2 j := if j.val = 0 then P.bv 0 else if hj : j.val < 4 then P.bp ⟨j.val - 1, by omega⟩ else 0

abbrev A2 (a b : ℕ) : Type := (⟨2, ![a, b]⟩ : Shape).Idx → EReal
abbrev A1 (a : ℕ) : Type := (⟨1, ![a]⟩ : Shape).Idx → EReal

open ValueIdx in

def params (x5 : A2 4 25) (x6 : A2 256 25) (x7 : A1 256) (x8 : A2 1024 512) (x9 : A2 1024 256) (x10 x11 : A1 1024)
    (x12 : A2 256 256) (x13 : A1 256) (x14 : A2 256 256) (x15 : A1 256) (x16 : A2 512 512) (x17 : A1 512)
    (x18 : A2 256 512) (x19 : A1 256) (x20 : A2 128 256) (x21 : A1 128) (x22 : A2 64 128) (x23 : A1 64)
    (x24 : A2 3 64) (x25 : A1 3) (x26 : A2 64 256) (x27 : A1 64) (x28 : A2 32 64) (x29 : A1 32)
    (x30 : A2 1 32) (x31 : A1 1) : Params where
  emb i k := x5 (ix2 i k)
  wta i k := x6 (ix2 i k)
  bta i := x7 (ix1 i)
  wih i k := x8 (ix2 i k)
  whh i k := x9 (ix2 i k)
  bih i := x10 (ix1 i)
  bhh i := x11 (ix1 i)
  wq i k := x12 (ix2 i k)
  bq i := x13 (ix1 i)
  wk i k := x14 (ix2 i k)
  bk i := x15 (ix1 i)
  wba i k := x16 (ix2 i k)
  bba i := x17 (ix1 i)
  wat i k := x18 (ix2 i k)
  bat i := x19 (ix1 i)
  wp1 i k := x20 (ix2 i k)
  bp1 i := x21 (ix1 i)
  wp2 i k := x22 (ix2 i k)
  bp2 i := x23 (ix1 i)
  wp i k := x24 (ix2 i k)
  bp i := x25 (ix1 i)
  wv1 i k := x26 (ix2 i k)
  bv1 i := x27 (ix1 i)
  wv2 i k := x28 (ix2 i k)
  bv2 i := x29 (ix1 i)
  wv i k := x30 (ix2 i k)
  bv i := x31 (ix1 i)

open ValueIdx in

def row (x0 x2 x3 x4 : A2 32768 256) (e : Fin 32768 → Fin 4) (r : Fin 32768) : Row where
  img k := x0 (ix2 r k)
  e := e r
  hx k := x2 (ix2 r k)
  cx k := x3 (ix2 r k)
  q k := x4 (ix2 r k)

open ValueIdx in

def G_value (P : Params) (x0 x2 x3 x4 : A2 32768 256) (e : Fin 32768 → Fin 4) : A2 32768 1 := fun i =>
  value P (row x0 x2 x3 x4 e ⟨(i 0).val, (i 0).isLt⟩) ⟨(i 1).val, (i 1).isLt⟩
def G_pol (P : Params) (x0 x2 x3 x4 : A2 32768 256) (e : Fin 32768 → Fin 4) : A2 32768 3 := fun i =>
  pol P (row x0 x2 x3 x4 e ⟨(i 0).val, (i 0).isLt⟩) ⟨(i 1).val, (i 1).isLt⟩
def G_hx (P : Params) (x0 x2 x3 x4 : A2 32768 256) (e : Fin 32768 → Fin 4) : A2 32768 256 := fun i =>
  hxN P (row x0 x2 x3 x4 e ⟨(i 0).val, (i 0).isLt⟩) ⟨(i 1).val, (i 1).isLt⟩
def G_cx (P : Params) (x0 x2 x3 x4 : A2 32768 256) (e : Fin 32768 → Fin 4) : A2 32768 256 := fun i =>
  cxN P (row x0 x2 x3 x4 e ⟨(i 0).val, (i 0).isLt⟩) ⟨(i 1).val, (i 1).isLt⟩

end Cert.Net

end
-- ==== Proof.KIPayA.lean ====
import proofs.«429130_j6116033429958_3_alg».proof.Proof.KIFrame
import proofs.«429130_j6116033429958_3_alg».proof.Proof.Spec
import Idealize.ShloMosaic.Lib.ValueLayout
import Idealize.ShloMosaic.PureOps.Ideal.Laws

noncomputable section

namespace Cert.KernelIdeal.Pay

open Cert.KernelIdeal Cert.KernelIdeal.Gen Cert.KernelIdeal.Frm Cert.Net
open Idealize.ShloMosaic Idealize.ShloMosaic.ValueIdx

def kp (x5 : Vec Ideal S4x256 .f32) (x6 x7 x8 : Vec Ideal S256x1024 .bf16) (x9 : Vec Ideal S1x1024 .f32)
    (x10 : Vec Ideal S256x256 .bf16) (x11 : Vec Ideal S1x256 .f32) (x12 : Vec Ideal S256x256 .bf16) (x13 : Vec Ideal S1x256 .f32)
    (x14 x15 : Vec Ideal S256x512 .bf16) (x16 : Vec Ideal S1x512 .f32) (x17 x18 : Vec Ideal S256x256 .bf16) (x19 : Vec Ideal S1x256 .f32)
    (x20 : Vec Ideal S256x192 .bf16) (x21 : Vec Ideal S1x192 .f32) (x22 : Vec Ideal S192x96 .bf16) (x23 : Vec Ideal S1x96 .f32)
    (x24 : Vec Ideal S96x8 .bf16) (x25 : Vec Ideal S1x8 .f32) : KParams where
  table c j := x5 (ix2 c j)
  wiha k j := x6 (ix2 k j)
  wihb k j := x7 (ix2 k j)
  whh k j := x8 (ix2 k j)
  bih j := x9 (ix2 (0 : Fin 1) j)
  wq k j := x10 (ix2 k j)
  bq j := x11 (ix2 (0 : Fin 1) j)
  wk k j := x12 (ix2 k j)
  bk j := x13 (ix2 (0 : Fin 1) j)
  wbaa k j := x14 (ix2 k j)
  wbab k j := x15 (ix2 k j)
  bba j := x16 (ix2 (0 : Fin 1) j)
  wata k j := x17 (ix2 k j)
  watb k j := x18 (ix2 k j)
  bat j := x19 (ix2 (0 : Fin 1) j)
  wpv1 k j := x20 (ix2 k j)
  bpv1 j := x21 (ix2 (0 : Fin 1) j)
  wt1 k j := x22 (ix2 k j)
  bt1 j := x23 (ix2 (0 : Fin 1) j)
  wt2 k j := x24 (ix2 k j)
  bt2 j := x25 (ix2 (0 : Fin 1) j)

def krow (x0 x2 x3 x4 : Vec Ideal S1024x256 .f32) (e : Fin 1024 → Fin 4) (p : Fin 1024) : Row where
  img k := x0 (ix2 p k)
  e := e p
  hx k := x2 (ix2 p k)
  cx k := x3 (ix2 p k)
  q k := x4 (ix2 p k)

theorem ld0 {a b : ℕ} {τ : EltTy} (x : Vec Ideal ⟨2, ![a, b]⟩ τ) (h) :
    View.ld x (Rect.unit ![0, 0] (Shape.size ⟨2, ![a, b]⟩) h) = x :=
  View.ld_unit_zero (funext fun a => match a with | ⟨0, _⟩ => rfl | ⟨1, _⟩ => rfl) h x

-- Re-index the one contracted axis by its coordinate; both operand indices then compute.
theorem mm_apply {m k n : ℕ} {φ₁ φ₂ : FTy} (D : DotDims ⟨2, ![m, k]⟩ ⟨2, ![k, n]⟩ ⟨2, ![m, n]⟩) (hD : D = .plain m k n)
    (l : FVec Ideal ⟨2, ![m, k]⟩ φ₁) (r : FVec Ideal ⟨2, ![k, n]⟩ φ₂) (p : Fin m) (j : Fin n) :
    matmul D none l r (constant (F := Ideal) ⟨2, ![m, n]⟩ .f32 0x00000000#32) (ix2 p j) = ∑ c : Fin k, l (ix2 p c) * r (ix2 c j) := by
  subst hD
  refine (Ideal.matmul_constant_zero_apply _ none _ _ _).trans (Fintype.sum_equiv (contrEquiv1 _ k rfl rfl) _ _ fun q => ?_)
  congr 2 <;> exact funext fun a => Fin.ext (by match a with | ⟨0, _⟩ => rfl | ⟨1, _⟩ => rfl)

theorem relu_apply {s : Shape} (a : FVec Ideal s .f32) (i : s.Idx) :
    maximumf a (broadcast s (Scalar.ofBits (F := Ideal) .f32 0x00000000#32)) i = relu (a i) :=
  congrArg (max (a i)) Ideal.ofBits_zero_f32

theorem tanh_apply {s : Shape} (x : FVec Ideal s .f32) (i : s.Idx) : tanh x i = th (x i) := rfl

theorem logistic_apply {s : Shape} (x : FVec Ideal s .f32) (i : s.Idx) : logistic x i = sg (x i) := rfl

theorem slice_cols_apply {α : Type} {a b c : ℕ} (o : ℕ) (x : (⟨2, ![a, b]⟩ : Shape).Idx → α)
    (h : (⟨2, ![a, b]⟩ : Shape).Slices ![0, o] ⟨2, ![a, c]⟩) (p : Fin a) (j : Fin c) :
    extractStridedSlice ⟨2, ![a, c]⟩ ![0, o] x h (ix2 p j) = x (ix2 p ⟨j.val + o, by have : o + c ≤ b := h.2 1; omega⟩) :=
  slice2_axis1_apply o x h p j _ (Nat.add_comm _ _)

theorem onehot_word (a b : BitVec 32) :
    FloatOps.sitofp (F := Ideal) .f32 ((IntOp.cmpi .eq a b).setWidth 32) = if a = b then (1 : EReal) else 0 := by
  have hc : ∀ c : Bool, ((BitVec.ofBool c).setWidth 32).toInt = if c then 1 else 0 := by decide
  show ((((BitVec.ofBool (a == b)).setWidth 32).toInt : ℝ) : EReal) = _
  rw [hc]
  by_cases h : a = b <;> simp [h]

theorem word_eq_iff (a c : Fin 4) : BitVec.ofNat 32 a.val = BitVec.ofNat 32 c.val ↔ a = c := by
  revert a c; decide

-- The selection is the product of the one-hot row of the instruction index with the four-row table.
theorem pay2_apply {x1 : Vec Ideal S1024x1 .i32} {x5 : Vec Ideal S4x256 .f32} {e : Fin 1024 → Fin 4}
    (he : ∀ p : Fin 1024, x1 (ix2 p (0 : Fin 1)) = BitVec.ofNat 32 (e p).val) (p : Fin 1024) (j : Fin 256) :
    k0_pay2 (F := Ideal) x1 x5 (ix2 p j) = ∑ c : Fin 4, (if e p = c then (1 : EReal) else 0) * x5 (ix2 c j) := by
  unfold k0_pay2
  refine (mm_apply _ rfl _ _ p j).trans (Finset.sum_congr rfl fun c _ => ?_)
  rw [shapeCast_self x5]
  refine congrArg (· * x5 (ix2 c j)) ((onehot_word _ _).trans ?_)
  rw [shapeCast_self x1, iota_single_apply,
    broadcastTo_apply x1 broadcasts_S1024x1_S1024x4 (ix2 p c) (ix2 p (0 : Fin 1)) (fun a => match a with
      | ⟨0, _⟩ => rfl
      | ⟨1, _⟩ => rfl), he p]
  exact if_congr (word_eq_iff (e p) c) rfl rfl

variable (B : Blk Ideal) (e : Fin 1024 → Fin 4) (he : ∀ p : Fin 1024, B.x1 (ix2 p (0 : Fin 1)) = BitVec.ofNat 32 (e p).val)

include he

theorem bGf_apply (p : Fin 1024) (j : Fin 256) : bGf B (ix2 p j) = kgf (kp B.x5 B.x6 B.x7 B.x8 B.x9 B.x10 B.x11 B.x12 B.x13 B.x14 B.x15 B.x16 B.x17 B.x18 B.x19 B.x20 B.x21 B.x22 B.x23 B.x24 B.x25) (krow B.x0 B.x2 B.x3 B.x4 e p) j := by
  unfold bGf k0_pay3
  simp only [ld0, mulf_apply, pay2_apply he]
  rfl

-- Read at the index, the body's cell step is the row's, term for term.
theorem bCx_apply (p : Fin 1024) (j : Fin 256) : bCx B (ix2 p j) = kcx (kp B.x5 B.x6 B.x7 B.x8 B.x9 B.x10 B.x11 B.x12 B.x13 B.x14 B.x15 B.x16 B.x17 B.x18 B.x19 B.x20 B.x21 B.x22 B.x23 B.x24 B.x25) (krow B.x0 B.x2 B.x3 B.x4 e p) j := by
  unfold bCx bGates bGi bGfo k0_pay7 k0_pay5 k0_pay6 k0_pay4 k0_pay3
  simp only [ld0, addf_apply, mulf_apply, truncf_apply, tanh_apply, logistic_apply, shapeCast_self, broadcastTo_1b_ab_apply, slice_cols_apply, mm_apply dot_S1024x256_S256x1024_S1024x1024_1_0_0_1_n_n rfl, pay2_apply he]
  rfl

theorem bHx_apply (p : Fin 1024) (j : Fin 256) : bHx B (ix2 p j) = khx (kp B.x5 B.x6 B.x7 B.x8 B.x9 B.x10 B.x11 B.x12 B.x13 B.x14 B.x15 B.x16 B.x17 B.x18 B.x19 B.x20 B.x21 B.x22 B.x23 B.x24 B.x25) (krow B.x0 B.x2 B.x3 B.x4 e p) j := by
  unfold bHx bGates bGi bGfo k0_pay8 k0_pay7 k0_pay5 k0_pay6 k0_pay4 k0_pay3
  simp only [ld0, addf_apply, mulf_apply, truncf_apply, tanh_apply, logistic_apply, shapeCast_self, broadcastTo_1b_ab_apply, slice_cols_apply, mm_apply dot_S1024x256_S256x1024_S1024x1024_1_0_0_1_n_n rfl, pay2_apply he]
  rfl

end Cert.KernelIdeal.Pay

end
-- ==== Proof.KIPayB.lean ====
import proofs.«429130_j6116033429958_3_alg».proof.Proof.KIPayA

noncomputable section

namespace Cert.KernelIdeal.Pay

open Cert.KernelIdeal Cert.KernelIdeal.Gen Cert.KernelIdeal.Frm Cert.Net
open Idealize.ShloMosaic Idealize.ShloMosaic.ValueIdx

variable (B : Blk Ideal) (e : Fin 1024 → Fin 4) (he : ∀ p : Fin 1024, B.x1 (ix2 p (0 : Fin 1)) = BitVec.ofNat 32 (e p).val)

include he in
-- Past the new hidden state every payload is read at the index by the same rules, down to the row's network.
theorem bOut_apply (p : Fin 1024) (j : Fin 8) : bOut B (ix2 p j) = kfin (kp B.x5 B.x6 B.x7 B.x8 B.x9 B.x10 B.x11 B.x12 B.x13 B.x14 B.x15 B.x16 B.x17 B.x18 B.x19 B.x20 B.x21 B.x22 B.x23 B.x24 B.x25) (krow B.x0 B.x2 B.x3 B.x4 e p) j := by
  unfold bOut bPv2 bWk bWq bVal k0_pay1 k0_pay13 k0_pay12 k0_pay11 k0_pay10 k0_pay9
  rw [← bHx]
  simp only [ld0, addf_apply, mulf_apply, truncf_apply, relu_apply, tanh_apply, shapeCast_self, broadcastTo_1b_ab_apply, slice_cols_apply, bGf_apply B e he, bHx_apply B e he,
    mm_apply dot_S1024x96_S96x8_S1024x8_1_0_0_1_n_n rfl, mm_apply dot_S1024x192_S192x96_S1024x96_1_0_0_1_n_n rfl,
    mm_apply dot_S1024x256_S256x192_S1024x192_1_0_0_1_n_n rfl, mm_apply dot_S1024x256_S256x256_S1024x256_1_0_0_1_n_n rfl,
    mm_apply dot_S1024x256_S256x512_S1024x512_1_0_0_1_n_n rfl]
  rfl

end Cert.KernelIdeal.Pay

end
-- ==== Proof.KIHost.lean ====
import proofs.«429130_j6116033429958_3_alg».proof.Proof.KIFrameHost
import proofs.«429130_j6116033429958_3_alg».proof.Proof.KIPayA
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.HostV

open Cert.KernelIdeal Cert.KernelIdeal.Gen Cert.KernelIdeal.Frm Cert.Net
open Idealize.ShloMosaic Idealize.ShloMosaic.ValueIdx Idealize.SL.Sem Idealize.ShloMosaic.StableHlo

section Terms

abbrev zeros (s : Shape) (h : S_.BroadcastsInDim s (![] : Fin 0 → Fin s.rank)) : FVec Ideal s .f32 :=
  broadcastInDim s ![] h (constant (F := Ideal) S_ .f32 0x00000000#32)

abbrev ones4x256 : FVec Ideal S4x256 .f32 :=
  broadcastInDim S4x256 ![] bcast_S_S4x256 (constant (F := Ideal) S_ .f32 0x3F800000#32)

def tInstr (x1 : IVec S32768x1 32) : IVec S32768x1 32 :=
  minsi (broadcastInDim S32768x1 ![] bcast_S_S32768x1 (constantI S_ 32 3#32))
    (maxsi (broadcastInDim S32768x1 ![] bcast_S_S32768x1 (constantI S_ 32 0#32)) x1)

def tLin (x5 : FVec Ideal S4x25 .f32) (x6 : FVec Ideal S256x25 .f32) (x7 : FVec Ideal S256 .f32) : FVec Ideal S4x256 .f32 :=
  addf (Host.dotGeneral dot_S4x25_S25x256_S4x256_1_0_0_1_n_n none x5 (transpose S25x256 [1, 0] x6 transposes_S256x25_S25x256_1_0))
    (broadcastInDim S4x256 ![0, 1] bcast_S1x256_S4x256_0_1 (broadcastInDim S1x256 ![1] bcast_S256_S1x256_1 x7))

def tTable (x5 : FVec Ideal S4x25 .f32) (x6 : FVec Ideal S256x25 .f32) (x7 : FVec Ideal S256 .f32) : FVec Ideal S4x256 .f32 :=
  Host.divf ones4x256 (addf ones4x256 (Host.exp (Host.negf (tLin x5 x6 x7))))

def tWpv1 (x20 : FVec Ideal S128x256 .f32) (x26 : FVec Ideal S64x256 .f32) : FVec Ideal S256x192 .bf16 :=
  truncf .bf16 (transpose S256x192 [1, 0] (concatenate S192x256 0 [⟨S128x256, x20⟩, ⟨S64x256, x26⟩] concatenates_S128x256_S64x256_S192x256_d0) transposes_S192x256_S256x192_1_0) bitsLt_bf16_f32
def tBpv1 (x21 : FVec Ideal S128 .f32) (x27 : FVec Ideal S64 .f32) : FVec Ideal S1x192 .f32 :=
  shapeCast S1x192 (concatenate S192 0 [⟨S128, x21⟩, ⟨S64, x27⟩] concatenates_S128_S64_S192_d0) shapeCasts_S192_S1x192
def tWt1 (x22 : FVec Ideal S64x128 .f32) (x28 : FVec Ideal S32x64 .f32) : FVec Ideal S192x96 .bf16 :=
  truncf .bf16 (concatenate S192x96 0
    [⟨S128x96, concatenate S128x96 1 [⟨S128x64, transpose S128x64 [1, 0] x22 transposes_S64x128_S128x64_1_0⟩, ⟨S128x32, zeros S128x32 bcast_S_S128x32⟩] concatenates_S128x64_S128x32_S128x96_d1⟩,
     ⟨S64x96, concatenate S64x96 1 [⟨S64x64, zeros S64x64 bcast_S_S64x64⟩, ⟨S64x32, transpose S64x32 [1, 0] x28 transposes_S32x64_S64x32_1_0⟩] concatenates_S64x64_S64x32_S64x96_d1⟩]
    concatenates_S128x96_S64x96_S192x96_d0) bitsLt_bf16_f32
def tBt1 (x23 : FVec Ideal S64 .f32) (x29 : FVec Ideal S32 .f32) : FVec Ideal S1x96 .f32 :=
  shapeCast S1x96 (concatenate S96 0 [⟨S64, x23⟩, ⟨S32, x29⟩] concatenates_S64_S32_S96_d0) shapeCasts_S96_S1x96
def tWt2 (x24 : FVec Ideal S3x64 .f32) (x30 : FVec Ideal S1x32 .f32) : FVec Ideal S96x8 .bf16 :=
  truncf .bf16 (concatenate S96x8 0
    [⟨S64x8, concatenate S64x8 1 [⟨S64x1, zeros S64x1 bcast_S_S64x1⟩, ⟨S64x3, transpose S64x3 [1, 0] x24 transposes_S3x64_S64x3_1_0⟩, ⟨S64x4, zeros S64x4 bcast_S_S64x4⟩] concatenates_S64x1_S64x3_S64x4_S64x8_d1⟩,
     ⟨S32x8, concatenate S32x8 1 [⟨S32x1, transpose S32x1 [1, 0] x30 transposes_S1x32_S32x1_1_0⟩, ⟨S32x7, zeros S32x7 bcast_S_S32x7⟩] concatenates_S32x1_S32x7_S32x8_d1⟩]
    concatenates_S64x8_S32x8_S96x8_d0) bitsLt_bf16_f32
def tBt2 (x31 : FVec Ideal S1 .f32) (x25 : FVec Ideal S3 .f32) : FVec Ideal S1x8 .f32 :=
  shapeCast S1x8 (concatenate S8 0 [⟨S1, x31⟩, ⟨S3, x25⟩, ⟨S4, zeros S4 bcast_S_S4⟩] concatenates_S1_S3_S4_S8_d0) shapeCasts_S8_S1x8

end Terms

section Reads
variable {α : Type}

theorem slice_transpose_apply {a b n : ℕ} (o : ℕ) (x : (⟨2, ![a, b]⟩ : Shape).Idx → α)
    (ht : (⟨2, ![a, b]⟩ : Shape).Transposes [1, 0] ⟨2, ![b, a]⟩)
    (hs : (⟨2, ![b, a]⟩ : Shape).Slices ![o, 0] ⟨2, ![n, a]⟩) (k : Fin n) (j : Fin a) (k' : Fin b) (hk : k'.val = o + k.val) :
    extractStridedSlice ⟨2, ![n, a]⟩ ![o, 0] (transpose ⟨2, ![b, a]⟩ [1, 0] x ht) hs (ix2 k j) = x (ix2 j k') :=
  (slice2_axis0_apply o _ hs k j k' hk).trans (transpose_ix2_apply x ht _ _)

theorem eq_dite {p : Prop} [Decidable p] {c : α} {f : p → α} {g : ¬p → α} (hf : ∀ h, c = f h) (hg : ∀ h, c = g h) :
    c = dite p f g := by
  by_cases h : p
  · rw [dif_pos h]; exact hf h
  · rw [dif_neg h]; exact hg h

theorem piece_rows {a b n : ℕ} {xs : List ((s : Shape) × (s.Idx → α))} {h : Shape.Concatenates (xs.map (·.1)) ⟨2, ![a, b]⟩ 0}
    {x : (⟨2, ![n, b]⟩ : Shape).Idx → α} (i : Fin a) (j : Fin b) (k pre i' : ℕ) (hi : pre + i' = i.val)
    (hk : k < xs.length := by exact of_decide_eq_true rfl) (hx : xs[k] = ⟨_, x⟩ := by exact rfl)
    (hpre : (((xs.take k).map (·.1)).map fun s : Shape => if h : s.rank = 2 then s.size ((0 : Fin 2).cast h.symm) else 0).sum = pre := by exact rfl)
    (hi' : i' < n := by omega) :
    concatenate ⟨2, ![a, b]⟩ 0 xs h (ix2 i j) = x (ix2 ⟨i', hi'⟩ j) :=
  concatenate_apply_piece 0 xs h _ k hk _ x hx rfl pre hpre _
    (fun c hc => match c, hc with | ⟨0, _⟩, hc => absurd rfl hc | ⟨1, _⟩, _ => rfl) hi

theorem piece_cols {a b n : ℕ} {xs : List ((s : Shape) × (s.Idx → α))} {h : Shape.Concatenates (xs.map (·.1)) ⟨2, ![a, b]⟩ 1}
    {x : (⟨2, ![a, n]⟩ : Shape).Idx → α} (i : Fin a) (j : Fin b) (k pre j' : ℕ) (hj : pre + j' = j.val)
    (hk : k < xs.length := by exact of_decide_eq_true rfl) (hx : xs[k] = ⟨_, x⟩ := by exact rfl)
    (hpre : (((xs.take k).map (·.1)).map fun s : Shape => if h : s.rank = 2 then s.size ((1 : Fin 2).cast h.symm) else 0).sum = pre := by exact rfl)
    (hj' : j' < n := by omega) :
    concatenate ⟨2, ![a, b]⟩ 1 xs h (ix2 i j) = x (ix2 i ⟨j', hj'⟩) :=
  concatenate_apply_piece 1 xs h _ k hk _ x hx rfl pre hpre _
    (fun c hc => match c, hc with | ⟨0, _⟩, _ => rfl | ⟨1, _⟩, hc => absurd rfl hc) hj

theorem piece_vec {a n : ℕ} {xs : List ((s : Shape) × (s.Idx → α))} {h : Shape.Concatenates (xs.map (·.1)) ⟨1, ![a]⟩ 0}
    {x : (⟨1, ![n]⟩ : Shape).Idx → α} (i : Fin a) (k pre i' : ℕ) (hi : pre + i' = i.val)
    (hk : k < xs.length := by exact of_decide_eq_true rfl) (hx : xs[k] = ⟨_, x⟩ := by exact rfl)
    (hpre : (((xs.take k).map (·.1)).map fun s : Shape => if h : s.rank = 1 then s.size ((0 : Fin 1).cast h.symm) else 0).sum = pre := by exact rfl)
    (hi' : i' < n := by omega) :
    concatenate ⟨1, ![a]⟩ 0 xs h (ix1 i) = x (ix1 ⟨i', hi'⟩) :=
  concatenate_apply_piece 0 xs h _ k hk _ x hx rfl pre hpre _
    (fun c hc => match c, hc with | ⟨0, _⟩, hc => absurd rfl hc) hi

theorem zeros_apply (s : Shape) (h : S_.BroadcastsInDim s (![] : Fin 0 → Fin s.rank)) (i : s.Idx) : zeros s h i = 0 :=
  (broadcastInDim_apply _ h _ i ix0 (fun a => a.elim0)).trans Ideal.ofBits_zero_f32

theorem ones4x256_apply (i : S4x256.Idx) : ones4x256 i = 1 :=
  (broadcastInDim_apply _ bcast_S_S4x256 _ i ix0 (fun a => a.elim0)).trans (IdealRules.sign_bit.ideal_onePat .f32)

end Reads

section Fields

theorem trunc_read {s : Shape} (a : FVec Ideal s .f32) (i : s.Idx) :
    (truncf .bf16 a bitsLt_bf16_f32 : FVec Ideal s .bf16) i = a i := rfl

theorem dot_lhs0 (i : S4x256.Idx) (q : dot_S4x25_S25x256_S4x256_1_0_0_1_n_n.contr.Idx) : (dot_S4x25_S25x256_S4x256_1_0_0_1_n_n.lhsIdx i q 0).val = (i 0).val := by
  unfold DotDims.lhsIdx
  rw [dif_neg (show ¬(0 : Fin S4x25.rank) ∈ dot_S4x25_S25x256_S4x256_1_0_0_1_n_n.lhsBatch by decide), dif_pos (show (0 : Fin S4x25.rank) ∈ dot_S4x25_S25x256_S4x256_1_0_0_1_n_n.lhsNonContracting by decide)]
  rfl
theorem dot_lhs1 (i : S4x256.Idx) (q : dot_S4x25_S25x256_S4x256_1_0_0_1_n_n.contr.Idx) : (dot_S4x25_S25x256_S4x256_1_0_0_1_n_n.lhsIdx i q 1).val = (q ⟨0, by decide⟩).val :=
  dot_S4x25_S25x256_S4x256_1_0_0_1_n_n.lhsIdx_val_of_single rfl i q
theorem dot_rhs0 (i : S4x256.Idx) (q : dot_S4x25_S25x256_S4x256_1_0_0_1_n_n.contr.Idx) : (dot_S4x25_S25x256_S4x256_1_0_0_1_n_n.rhsIdx i q 0).val = (q ⟨0, by decide⟩).val :=
  dot_S4x25_S25x256_S4x256_1_0_0_1_n_n.rhsIdx_val_of_single rfl i q
theorem dot_rhs1 (i : S4x256.Idx) (q : dot_S4x25_S25x256_S4x256_1_0_0_1_n_n.contr.Idx) : (dot_S4x25_S25x256_S4x256_1_0_0_1_n_n.rhsIdx i q 1).val = (i 1).val := by
  unfold DotDims.rhsIdx
  rw [dif_neg (show ¬(1 : Fin S25x256.rank) ∈ dot_S4x25_S25x256_S4x256_1_0_0_1_n_n.rhsBatch by decide), dif_pos (show (1 : Fin S25x256.rank) ∈ dot_S4x25_S25x256_S4x256_1_0_0_1_n_n.rhsNonContracting by decide)]
  rfl

theorem tLin_apply (x5 : FVec Ideal S4x25 .f32) (x6 : FVec Ideal S256x25 .f32) (x7 : FVec Ideal S256 .f32) (c : Fin 4) (j : Fin 256) :
    tLin x5 x6 x7 (ix2 c j) = (∑ k : Fin 25, x5 (ix2 c k) * x6 (ix2 j k)) + x7 (ix1 j) := by
  unfold tLin
  have h1 : (Host.dotGeneral (F := Ideal) dot_S4x25_S25x256_S4x256_1_0_0_1_n_n none x5 (transpose S25x256 [1, 0] x6 transposes_S256x25_S25x256_1_0)) (ix2 c j)
      = ∑ k : Fin 25, x5 (ix2 c k) * x6 (ix2 j k) := by
    simp only [Host.dotGeneral]
    rw [Ideal.dotGeneral_apply, ← Equiv.sum_comp (ValueIdx.contrEquiv1 dot_S4x25_S25x256_S4x256_1_0_0_1_n_n 25 rfl rfl).symm]
    refine Finset.sum_congr rfl fun k _ => ?_
    have hk := ValueIdx.contrEquiv1_symm_val dot_S4x25_S25x256_S4x256_1_0_0_1_n_n 25 rfl rfl k
    have el : dot_S4x25_S25x256_S4x256_1_0_0_1_n_n.lhsIdx (ix2 c j) ((ValueIdx.contrEquiv1 dot_S4x25_S25x256_S4x256_1_0_0_1_n_n 25 rfl rfl).symm k) = ix2 c k := funext fun a => Fin.ext (by
      match a with
      | ⟨0, _⟩ => exact dot_lhs0 _ _
      | ⟨1, _⟩ => exact (dot_lhs1 _ _).trans hk)
    have er : dot_S4x25_S25x256_S4x256_1_0_0_1_n_n.rhsIdx (ix2 c j) ((ValueIdx.contrEquiv1 dot_S4x25_S25x256_S4x256_1_0_0_1_n_n 25 rfl rfl).symm k) = ix2 k j := funext fun a => Fin.ext (by
      match a with
      | ⟨0, _⟩ => exact (dot_rhs0 _ _).trans hk
      | ⟨1, _⟩ => exact dot_rhs1 _ _)
    rw [el, er]
    exact congrArg _ (transpose_ix2_apply x6 transposes_S256x25_S25x256_1_0 k j)
  have h2 : (broadcastInDim S4x256 ![0, 1] bcast_S1x256_S4x256_0_1 (broadcastInDim S1x256 ![1] bcast_S256_S1x256_1 x7)) (ix2 c j) = x7 (ix1 j) :=
    (broadcastInDim_apply _ bcast_S1x256_S4x256_0_1 _ (ix2 c j) (ix2 (0 : Fin 1) j) (fun a => match a with
      | ⟨0, _⟩ => by show 0 = if (1 : Nat) = 1 then 0 else c.val; rw [if_pos rfl]
      | ⟨1, _⟩ => by show j.val = if (256 : Nat) = 1 then 0 else j.val; rw [if_neg (by decide)])).trans
    (broadcastInDim_apply _ bcast_S256_S1x256_1 x7 (ix2 (0 : Fin 1) j) (ix1 j) (fun a => match a with
      | ⟨0, _⟩ => by show j.val = if (256 : Nat) = 1 then 0 else j.val; rw [if_neg (by decide)]))
  exact (addf_apply _ _ _).trans (by rw [h1, h2])

theorem tTable_apply (x5 : FVec Ideal S4x25 .f32) (x6 : FVec Ideal S256x25 .f32) (x7 : FVec Ideal S256 .f32) (c : Fin 4) (j : Fin 256) :
    tTable x5 x6 x7 (ix2 c j) = sg (lin (fun k => x5 (ix2 c k)) (fun i k => x6 (ix2 i k)) (fun i => x7 (ix1 i)) j) := by
  have e : tTable x5 x6 x7 (ix2 c j)
      = Ideal.div (ones4x256 (ix2 c j)) (ones4x256 (ix2 c j) + Ideal.exp (-(tLin x5 x6 x7 (ix2 c j)))) := rfl
  rw [e, ones4x256_apply, tLin_apply]
  rfl

theorem tWpv1_apply (x20 : FVec Ideal S128x256 .f32) (x26 : FVec Ideal S64x256 .f32) (k : Fin 256) (j : Fin 192) :
    tWpv1 x20 x26 (ix2 k j) = if h : j.val < 128 then x20 (ix2 ⟨j.val, h⟩ k) else x26 (ix2 ⟨j.val - 128, by omega⟩ k) :=
  (trunc_read _ _).trans ((transpose_ix2_apply _ _ k j).trans (eq_dite
    (fun h => piece_rows j k 0 0 j.val (Nat.zero_add _)) fun h => piece_rows j k 1 128 (j.val - 128) (by omega)))
theorem tBpv1_apply (x21 : FVec Ideal S128 .f32) (x27 : FVec Ideal S64 .f32) (j : Fin 192) :
    tBpv1 x21 x27 (ix2 (0 : Fin 1) j) = if h : j.val < 128 then x21 (ix1 ⟨j.val, h⟩) else x27 (ix1 ⟨j.val - 128, by omega⟩) :=
  (shapeCast_a_1a_apply _ _ 0 j).trans (eq_dite (p := j.val < 128)
    (fun h => piece_vec j 0 0 j.val (Nat.zero_add _)) fun h => piece_vec j 1 128 (j.val - 128) (by omega))
theorem tWt1_apply (x22 : FVec Ideal S64x128 .f32) (x28 : FVec Ideal S32x64 .f32) (k : Fin 192) (j : Fin 96) :
    tWt1 x22 x28 (ix2 k j)
      = if hk : k.val < 128 then (if hj : j.val < 64 then x22 (ix2 ⟨j.val, hj⟩ ⟨k.val, hk⟩) else 0)
        else (if hj : j.val < 64 then 0 else x28 (ix2 ⟨j.val - 64, by omega⟩ ⟨k.val - 128, by omega⟩)) :=
  (trunc_read _ _).trans (eq_dite
    (fun hk => (piece_rows k j 0 0 k.val (Nat.zero_add _)).trans (eq_dite
      (fun hj => (piece_cols _ j 0 0 j.val (Nat.zero_add _)).trans (transpose_ix2_apply _ _ _ _))
      fun hj => (piece_cols _ j 1 64 (j.val - 64) (by omega)).trans (zeros_apply _ _ _)))
    fun hk => (piece_rows k j 1 128 (k.val - 128) (by omega)).trans (eq_dite
      (fun hj => (piece_cols _ j 0 0 j.val (Nat.zero_add _)).trans (zeros_apply _ _ _))
      fun hj => (piece_cols _ j 1 64 (j.val - 64) (by omega)).trans (transpose_ix2_apply _ _ _ _)))
theorem tBt1_apply (x23 : FVec Ideal S64 .f32) (x29 : FVec Ideal S32 .f32) (j : Fin 96) :
    tBt1 x23 x29 (ix2 (0 : Fin 1) j) = if h : j.val < 64 then x23 (ix1 ⟨j.val, h⟩) else x29 (ix1 ⟨j.val - 64, by omega⟩) :=
  (shapeCast_a_1a_apply _ _ 0 j).trans (eq_dite (p := j.val < 64)
    (fun h => piece_vec j 0 0 j.val (Nat.zero_add _)) fun h => piece_vec j 1 64 (j.val - 64) (by omega))
theorem tWt2_apply (x24 : FVec Ideal S3x64 .f32) (x30 : FVec Ideal S1x32 .f32) (k : Fin 96) (j : Fin 8) :
    tWt2 x24 x30 (ix2 k j)
      = if hk : k.val < 64 then (if hj : 1 ≤ j.val ∧ j.val < 4 then x24 (ix2 ⟨j.val - 1, by omega⟩ ⟨k.val, hk⟩) else 0)
        else (if j.val = 0 then x30 (ix2 (0 : Fin 1) ⟨k.val - 64, by omega⟩) else 0) :=
  (trunc_read _ _).trans (eq_dite
    (fun hk => (piece_rows k j 0 0 k.val (Nat.zero_add _)).trans (eq_dite
      (fun hj => (piece_cols _ j 1 1 (j.val - 1) (by omega)).trans (transpose_ix2_apply _ _ _ _))
      fun hj => if h0 : j.val < 1 then (piece_cols _ j 0 0 j.val (Nat.zero_add _)).trans (zeros_apply _ _ _)
        else (piece_cols _ j 2 4 (j.val - 4) (by omega)).trans (zeros_apply _ _ _)))
    fun hk => (piece_rows k j 1 64 (k.val - 64) (by omega)).trans (eq_dite
      (fun hj => (piece_cols _ j 0 0 0 (by omega)).trans (transpose_ix2_apply _ _ _ _))
      fun hj => (piece_cols _ j 1 1 (j.val - 1) (by omega)).trans (zeros_apply _ _ _)))
theorem tBt2_apply (x31 : FVec Ideal S1 .f32) (x25 : FVec Ideal S3 .f32) (j : Fin 8) :
    tBt2 x31 x25 (ix2 (0 : Fin 1) j)
      = if j.val = 0 then x31 (ix1 (0 : Fin 1)) else if hj : j.val < 4 then x25 (ix1 ⟨j.val - 1, by omega⟩) else 0 :=
  (shapeCast_a_1a_apply _ _ 0 j).trans (eq_dite (p := j.val = 0)
    (fun h0 => piece_vec j 0 0 0 (by omega))
    fun h0 => eq_dite (fun hj => piece_vec j 1 1 (j.val - 1) (by omega))
      fun hj => (piece_vec j 2 4 (j.val - 4) (by omega)).trans (zeros_apply _ _ _))
theorem tInstr_apply (x1 : IVec S32768x1 32) (r : Fin 32768) (n : Fin 4)
    (h : x1 (ix2 r (0 : Fin 1)) = BitVec.ofNat 32 n.val) : tInstr x1 (ix2 r (0 : Fin 1)) = BitVec.ofNat 32 n.val := by
  have e : tInstr x1 (ix2 r (0 : Fin 1)) = IntOp.minsi 3#32 (IntOp.maxsi 0#32 (x1 (ix2 r (0 : Fin 1)))) := rfl
  have key : ∀ n : Fin 4, IntOp.minsi 3#32 (IntOp.maxsi 0#32 (BitVec.ofNat 32 n.val)) = BitVec.ofNat 32 n.val := by decide
  rw [e, h]
  exact key n

end Fields

variable (m : (ℓ : Loc nD τ sig) → Buf (Elt Ideal) ℓ)

noncomputable def P (c : Dev nD) : Params :=
  params (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15))
    (m ((c.tc : Thread nD τ).loc main_arg16))
    (m ((c.tc : Thread nD τ).loc main_arg17))
    (m ((c.tc : Thread nD τ).loc main_arg18))
    (m ((c.tc : Thread nD τ).loc main_arg19))
    (m ((c.tc : Thread nD τ).loc main_arg20))
    (m ((c.tc : Thread nD τ).loc main_arg21))
    (m ((c.tc : Thread nD τ).loc main_arg22))
    (m ((c.tc : Thread nD τ).loc main_arg23))
    (m ((c.tc : Thread nD τ).loc main_arg24))
    (m ((c.tc : Thread nD τ).loc main_arg25))
    (m ((c.tc : Thread nD τ).loc main_arg26))
    (m ((c.tc : Thread nD τ).loc main_arg27))
    (m ((c.tc : Thread nD τ).loc main_arg28))
    (m ((c.tc : Thread nD τ).loc main_arg29))
    (m ((c.tc : Thread nD τ).loc main_arg30))
    (m ((c.tc : Thread nD τ).loc main_arg31))

theorem V_v0 (c : Dev nD) : (V m c main_v0 : IVec S32768x1 32) = tInstr (m ((c.tc : Thread nD τ).loc main_arg1)) := by
  dsimp only [V, V0]
  simp only [hostOps0, hostOps0_1, hostOps0_2, List.flatten_cons, List.flatten_nil, List.append_nil, List.cons_append, List.nil_append]
  after_results_simp
  rfl

set_option maxHeartbeats 800000 in
theorem V_weights (c : Dev nD) :
    Pay.kp (V m c main_v11) (V m c main_v14) (V m c main_v16) (V m c main_v18) (V m c main_v20) (V m c main_v34) (V m c main_v35) (V m c main_v37) (V m c main_v38) (V m c main_v23) (V m c main_v25) (V m c main_v26) (V m c main_v29) (V m c main_v31) (V m c main_v32) (V m c main_v42) (V m c main_v43) (V m c main_v51) (V m c main_v53) (V m c main_v62) (V m c main_v65) = kparams (P m c) := by
  dsimp only [V, V0]
  simp only [hostOps0, hostOps0_1, hostOps0_2, List.flatten_cons, List.flatten_nil, List.append_nil, List.cons_append, List.nil_append]
  after_results_simp
  exact KParams.ext (funext₂ (tTable_apply _ _ _))
    (funext₂ fun k j => (trunc_read _ _).trans (slice_transpose_apply 0 _ _ _ k j _ (Nat.zero_add _).symm))
    (funext₂ fun k j => (trunc_read _ _).trans (slice_transpose_apply 256 _ _ _ k j _ (Nat.add_comm _ _)))
    (funext₂ fun k j => (trunc_read _ _).trans (transpose_ix2_apply _ _ k j))
    (funext fun j => (shapeCast_a_1a_apply _ _ 0 j).trans (addf_apply _ _ _))
    (funext₂ fun k j => (trunc_read _ _).trans (transpose_ix2_apply _ _ k j))
    (funext (shapeCast_a_1a_apply _ _ 0))
    (funext₂ fun k j => (trunc_read _ _).trans (transpose_ix2_apply _ _ k j))
    (funext (shapeCast_a_1a_apply _ _ 0))
    (funext₂ fun k j => (trunc_read _ _).trans (slice_transpose_apply 0 _ _ _ k j _ (Nat.zero_add _).symm))
    (funext₂ fun k j => (trunc_read _ _).trans (slice_transpose_apply 256 _ _ _ k j _ (Nat.add_comm _ _)))
    (funext (shapeCast_a_1a_apply _ _ 0))
    (funext₂ fun k j => (trunc_read _ _).trans (slice_transpose_apply 0 _ _ _ k j _ (Nat.zero_add _).symm))
    (funext₂ fun k j => (trunc_read _ _).trans (slice_transpose_apply 256 _ _ _ k j _ (Nat.add_comm _ _)))
    (funext (shapeCast_a_1a_apply _ _ 0))
    (funext₂ (tWpv1_apply _ _))
    (funext (tBpv1_apply _ _))
    (funext₂ (tWt1_apply _ _))
    (funext (tBt1_apply _ _))
    (funext₂ (tWt2_apply _ _))
    (funext (tBt2_apply _ _))

theorem V_instr (c : Dev nD) (e : Fin 32768 → Fin 4)
    (he : ∀ r : Fin 32768, (m ((c.tc : Thread nD τ).loc main_arg1)) (ix2 r (0 : Fin 1)) = BitVec.ofNat 32 (e r).val) (r : Fin 32768) :
    V m c main_v0 (ix2 r (0 : Fin 1)) = BitVec.ofNat 32 (e r).val :=
  (congrFun (V_v0 m c) (ix2 r (0 : Fin 1))).trans (tInstr_apply _ r (e r) (he r))

end Cert.KernelIdeal.HostV

end
-- ==== Proof.KIBlocks.lean ====
import proofs.«429130_j6116033429958_3_alg».proof.Proof.KIFrame
import Idealize.ShloMosaic.Lib.ValueIdx
import Idealize.ShloMosaic.Lib.Pipeline.Value

namespace Cert.KernelIdeal.Frm

open Cert.KernelIdeal Cert.KernelIdeal.Gen
open Idealize.ShloMosaic Idealize.ShloMosaic.ValueIdx

variable {F : FTy → Type} [FloatOps F] (m : (ℓ : Loc nD τ sig) → Buf (Elt F) ℓ) (c : Dev nD) (t : Fin cfg0.N)

def grow (t : Fin cfg0.N) (p : Fin 1024) : Fin 32768 := ⟨t.val * 1024 + p.val, by have := t.isLt; have h : cfg0.N = 32 := N_0; omega⟩

-- The five batched inputs and the three outputs share one index map: at grid point `t` it names row block `t`.
theorem idx_row : ∀ t : Fin cfg0.N, win0_0.index t 0 = t.val := (by decide +kernel : ∀ t : Fin grid0.N, _)

theorem emb_row (w : Pipeline.Window sig grid0) (t : Fin cfg0.N) (a : Fin w.shape.rank) (h : w.index t a = t.val)
    (y : (w.xblock (grid0.coords t)).Idx) : ((w.rect t).emb y a : ℕ) = t.val * w.size a + y a := h ▸ w.rect_emb_val t y a

-- Entry `(p, j)` of row block `t` is entry `(1024 t + p, j)` of its array.
theorem read_0 (A : Vec F S32768x256 .f32) (p : Fin 1024) (j : Fin 256) :
    ((cfg0.win 0).blk t).view.read (Elt F) A (ix2 p j) = A (ix2 (grow t p) j) :=
  congrArg A (Shape.idx_ext₂ (emb_row win0_0 t 0 (idx_row t) _) (win0_0.rect_emb_val_of_index_zero t 1 rfl _))
theorem read_1 (A : Vec F S32768x1 .i32) (p : Fin 1024) (j : Fin 1) :
    ((cfg0.win 1).blk t).view.read (Elt F) A (ix2 p j) = A (ix2 (grow t p) j) :=
  congrArg A (Shape.idx_ext₂ (emb_row win0_1 t 0 (idx_row t) _) (win0_1.rect_emb_val_of_index_zero t 1 rfl _))
theorem read_2 (A : Vec F S32768x256 .f32) (p : Fin 1024) (j : Fin 256) :
    ((cfg0.win 2).blk t).view.read (Elt F) A (ix2 p j) = A (ix2 (grow t p) j) :=
  congrArg A (Shape.idx_ext₂ (emb_row win0_2 t 0 (idx_row t) _) (win0_2.rect_emb_val_of_index_zero t 1 rfl _))
theorem read_3 (A : Vec F S32768x256 .f32) (p : Fin 1024) (j : Fin 256) :
    ((cfg0.win 3).blk t).view.read (Elt F) A (ix2 p j) = A (ix2 (grow t p) j) :=
  congrArg A (Shape.idx_ext₂ (emb_row win0_3 t 0 (idx_row t) _) (win0_3.rect_emb_val_of_index_zero t 1 rfl _))
theorem read_4 (A : Vec F S32768x256 .f32) (p : Fin 1024) (j : Fin 256) :
    ((cfg0.win 4).blk t).view.read (Elt F) A (ix2 p j) = A (ix2 (grow t p) j) :=
  congrArg A (Shape.idx_ext₂ (emb_row win0_4 t 0 (idx_row t) _) (win0_4.rect_emb_val_of_index_zero t 1 rfl _))
theorem emb_26 (p : Fin 1024) (j : Fin 8) : ((cfg0.win 26).blk t).view.emb (ix2 p j) = ix2 (grow t p) j :=
  Shape.idx_ext₂ (emb_row win0_26 t 0 (idx_row t) _) (win0_26.rect_emb_val_of_index_zero t 1 rfl _)
theorem emb_27 (p : Fin 1024) (j : Fin 256) : ((cfg0.win 27).blk t).view.emb (ix2 p j) = ix2 (grow t p) j :=
  Shape.idx_ext₂ (emb_row win0_27 t 0 (idx_row t) _) (win0_27.rect_emb_val_of_index_zero t 1 rfl _)
theorem emb_28 (p : Fin 1024) (j : Fin 256) : ((cfg0.win 28).blk t).view.emb (ix2 p j) = ix2 (grow t p) j :=
  Shape.idx_ext₂ (emb_row win0_28 t 0 (idx_row t) _) (win0_28.rect_emb_val_of_index_zero t 1 rfl _)

theorem off_zero : (![0, 0] : Fin 2 → ℕ) = fun _ => 0 := funext fun a => by fin_cases a <;> rfl

-- An entry of a block whose index is `0` on every axis keeps its place.
theorem zero_emb (w : Pipeline.Window sig grid0) (h : w.index t = fun _ => 0) (y : (w.xblock (grid0.coords t)).Idx) (a : Fin w.shape.rank) :
    ((w.rect t).emb y a : ℕ) = y a := w.rect_emb_val_of_index_zero t a (congrFun h a) y

-- Contents read through a placement that moves nothing are the contents.
theorem read_id {n0 n1 : ℕ} {α : Type} (A : (⟨2, ![n0, n1]⟩ : Shape).Idx → α) (em : (⟨2, ![n0, n1]⟩ : Shape).Idx → (⟨2, ![n0, n1]⟩ : Shape).Idx)
    (h : ∀ y a, (em y a : ℕ) = y a) : (fun y => A (em y)) = A := funext fun y => congrArg A (funext fun a => Fin.ext (h y a))

-- Each weight block is its whole array.
theorem iblk_5 : (iblk m c 5 t : Vec F S4x256 .f32) = V m c main_v11 := by
  unfold iblk; generalize V m c = A; exact read_id (A main_v11) _ (zero_emb t win0_5 off_zero)
theorem iblk_6 : (iblk m c 6 t : Vec F S256x1024 .bf16) = V m c main_v14 := by
  unfold iblk; generalize V m c = A; exact read_id (A main_v14) _ (zero_emb t win0_6 off_zero)
theorem iblk_7 : (iblk m c 7 t : Vec F S256x1024 .bf16) = V m c main_v16 := by
  unfold iblk; generalize V m c = A; exact read_id (A main_v16) _ (zero_emb t win0_7 off_zero)
theorem iblk_8 : (iblk m c 8 t : Vec F S256x1024 .bf16) = V m c main_v18 := by
  unfold iblk; generalize V m c = A; exact read_id (A main_v18) _ (zero_emb t win0_8 off_zero)
theorem iblk_9 : (iblk m c 9 t : Vec F S1x1024 .f32) = V m c main_v20 := by
  unfold iblk; generalize V m c = A; exact read_id (A main_v20) _ (zero_emb t win0_9 off_zero)
theorem iblk_10 : (iblk m c 10 t : Vec F S256x256 .bf16) = V m c main_v34 := by
  unfold iblk; generalize V m c = A; exact read_id (A main_v34) _ (zero_emb t win0_10 off_zero)
theorem iblk_11 : (iblk m c 11 t : Vec F S1x256 .f32) = V m c main_v35 := by
  unfold iblk; generalize V m c = A; exact read_id (A main_v35) _ (zero_emb t win0_11 off_zero)
theorem iblk_12 : (iblk m c 12 t : Vec F S256x256 .bf16) = V m c main_v37 := by
  unfold iblk; generalize V m c = A; exact read_id (A main_v37) _ (zero_emb t win0_12 off_zero)
theorem iblk_13 : (iblk m c 13 t : Vec F S1x256 .f32) = V m c main_v38 := by
  unfold iblk; generalize V m c = A; exact read_id (A main_v38) _ (zero_emb t win0_13 off_zero)
theorem iblk_14 : (iblk m c 14 t : Vec F S256x512 .bf16) = V m c main_v23 := by
  unfold iblk; generalize V m c = A; exact read_id (A main_v23) _ (zero_emb t win0_14 off_zero)
theorem iblk_15 : (iblk m c 15 t : Vec F S256x512 .bf16) = V m c main_v25 := by
  unfold iblk; generalize V m c = A; exact read_id (A main_v25) _ (zero_emb t win0_15 off_zero)
theorem iblk_16 : (iblk m c 16 t : Vec F S1x512 .f32) = V m c main_v26 := by
  unfold iblk; generalize V m c = A; exact read_id (A main_v26) _ (zero_emb t win0_16 off_zero)
theorem iblk_17 : (iblk m c 17 t : Vec F S256x256 .bf16) = V m c main_v29 := by
  unfold iblk; generalize V m c = A; exact read_id (A main_v29) _ (zero_emb t win0_17 off_zero)
theorem iblk_18 : (iblk m c 18 t : Vec F S256x256 .bf16) = V m c main_v31 := by
  unfold iblk; generalize V m c = A; exact read_id (A main_v31) _ (zero_emb t win0_18 off_zero)
theorem iblk_19 : (iblk m c 19 t : Vec F S1x256 .f32) = V m c main_v32 := by
  unfold iblk; generalize V m c = A; exact read_id (A main_v32) _ (zero_emb t win0_19 off_zero)
theorem iblk_20 : (iblk m c 20 t : Vec F S256x192 .bf16) = V m c main_v42 := by
  unfold iblk; generalize V m c = A; exact read_id (A main_v42) _ (zero_emb t win0_20 off_zero)
theorem iblk_21 : (iblk m c 21 t : Vec F S1x192 .f32) = V m c main_v43 := by
  unfold iblk; generalize V m c = A; exact read_id (A main_v43) _ (zero_emb t win0_21 off_zero)
theorem iblk_22 : (iblk m c 22 t : Vec F S192x96 .bf16) = V m c main_v51 := by
  unfold iblk; generalize V m c = A; exact read_id (A main_v51) _ (zero_emb t win0_22 off_zero)
theorem iblk_23 : (iblk m c 23 t : Vec F S1x96 .f32) = V m c main_v53 := by
  unfold iblk; generalize V m c = A; exact read_id (A main_v53) _ (zero_emb t win0_23 off_zero)
theorem iblk_24 : (iblk m c 24 t : Vec F S96x8 .bf16) = V m c main_v62 := by
  unfold iblk; generalize V m c = A; exact read_id (A main_v62) _ (zero_emb t win0_24 off_zero)
theorem iblk_25 : (iblk m c 25 t : Vec F S1x8 .f32) = V m c main_v65 := by
  unfold iblk; generalize V m c = A; exact read_id (A main_v65) _ (zero_emb t win0_25 off_zero)

end Cert.KernelIdeal.Frm
-- ==== Proof.SpecLaws.lean ====
import proofs.«429130_j6116033429958_3_alg».proof.Proof.Spec

noncomputable section

namespace Cert.Net

open Idealize.ShloMosaic

-- A sum over `a + b` indices is the sum over the first `a` plus the sum over the last `b`.
theorem sum_split (a b n : ℕ) (h : a + b = n) (f : Fin n → EReal) :
    ∑ k, f k = (∑ k : Fin a, f ⟨k.val, by omega⟩) + ∑ k : Fin b, f ⟨k.val + a, by omega⟩ := by
  subst h
  rw [Fin.sum_univ_add]
  congr 1
  apply Finset.sum_congr rfl
  intro k _
  congr 1
  apply Fin.ext
  simp only [Fin.natAdd]
  omega

theorem cat256_lo (x y : Fin 256 → EReal) (k : Fin 256) (h : k.val < 512) : cat256 x y ⟨k.val, h⟩ = x k := by
  unfold cat256
  simp only [dif_pos k.isLt]

theorem cat256_hi (x y : Fin 256 → EReal) (k : Fin 256) (h : k.val + 256 < 512) :
    cat256 x y ⟨k.val + 256, h⟩ = y k := by
  unfold cat256
  have hn : ¬ (k.val + 256 < 256) := by omega
  simp only [dif_neg hn]
  congr 1

theorem sum_cat256 (x y : Fin 256 → EReal) (w : Fin 512 → EReal) :
    ∑ k, cat256 x y k * w k
      = (∑ k : Fin 256, x k * w ⟨k.val, by omega⟩) + ∑ k : Fin 256, y k * w ⟨k.val + 256, by omega⟩ := by
  rw [sum_split 256 256 512 rfl]
  simp only [cat256_lo, cat256_hi]

-- Layer by layer the kernel's order computes the plain order's value: sums over a concatenation split,
-- a product with 0 vanishes, and + is associative and commutative on the extended reals.
theorem kga_eq (P : Params) (R : Row) : kga (kparams P) R = ga P R := by
  funext j
  unfold kga ga
  simp only [kparams, ite_mul, one_mul, zero_mul, Finset.sum_ite_eq, Finset.mem_univ, if_true]

theorem kgf_eq (P : Params) (R : Row) : kgf (kparams P) R = gf P R := by
  funext j
  unfold kgf gf
  rw [kga_eq]

theorem kgates_eq (P : Params) (R : Row) : kgates (kparams P) R = gates P R := by
  funext j
  unfold kgates gates
  rw [kgf_eq, kga_eq, sum_cat256]
  simp only [kparams]
  ac_rfl

theorem kcx_eq (P : Params) (R : Row) : kcx (kparams P) R = cxN P R := by
  funext j
  unfold kcx cxN
  rw [kgates_eq]

theorem khx_eq (P : Params) (R : Row) : khx (kparams P) R = hxN P R := by
  funext j
  unfold khx hxN
  rw [kgates_eq, kcx_eq]

theorem kma_eq (P : Params) (R : Row) : kma (kparams P) R = ma P R := by
  funext j
  unfold kma ma lin
  rw [kgf_eq, khx_eq, sum_cat256]
  simp only [kparams]

theorem kwqo_eq (P : Params) (R : Row) : kwqo (kparams P) R = wqo P R := by
  funext j
  unfold kwqo wqo linT lin
  simp only [kparams]

theorem kwko_eq (P : Params) (R : Row) : kwko (kparams P) R = wko P R := by
  funext j
  unfold kwko wko linT lin
  rw [kma_eq]
  simp only [kparams]

theorem kav_eq (P : Params) (R : Row) : kav (kparams P) R = av P R := by
  funext j
  unfold kav av
  rw [kwqo_eq, kwko_eq, kma_eq]

theorem kaw_eq (P : Params) (R : Row) : kaw (kparams P) R = aw P R := by
  funext j
  unfold kaw aw lin
  rw [kav_eq, khx_eq, sum_cat256]
  simp only [kparams]

theorem kpv1_lo (P : Params) (R : Row) (j : Fin 128) (h : j.val < 192) :
    kpv1 (kparams P) R ⟨j.val, h⟩ = pol1 P R j := by
  unfold kpv1 pol1 linT lin
  rw [kaw_eq]
  simp only [kparams, dif_pos j.isLt]

theorem kpv1_hi (P : Params) (R : Row) (j : Fin 64) (h : j.val + 128 < 192) :
    kpv1 (kparams P) R ⟨j.val + 128, h⟩ = vh1 P R j := by
  unfold kpv1 vh1 linT lin
  rw [kaw_eq]
  have hn : ¬ (j.val + 128 < 128) := by omega
  simp only [kparams, dif_neg hn, Nat.add_sub_cancel]

theorem wt1_ll (P : Params) (k : Fin 128) (j : Fin 64) (hk : k.val < 192) (hj : j.val < 96) :
    (kparams P).wt1 ⟨k.val, hk⟩ ⟨j.val, hj⟩ = P.wp2 j k := by
  simp only [kparams, dif_pos k.isLt, dif_pos j.isLt]

theorem wt1_hl (P : Params) (k : Fin 64) (j : Fin 64) (hk : k.val + 128 < 192) (hj : j.val < 96) :
    (kparams P).wt1 ⟨k.val + 128, hk⟩ ⟨j.val, hj⟩ = 0 := by
  have hn : ¬ (k.val + 128 < 128) := by omega
  simp only [kparams, dif_neg hn, dif_pos j.isLt]

theorem wt1_lh (P : Params) (k : Fin 128) (j : Fin 32) (hk : k.val < 192) (hj : j.val + 64 < 96) :
    (kparams P).wt1 ⟨k.val, hk⟩ ⟨j.val + 64, hj⟩ = 0 := by
  have hn : ¬ (j.val + 64 < 64) := by omega
  simp only [kparams, dif_pos k.isLt, dif_neg hn]

theorem wt1_hh (P : Params) (k : Fin 64) (j : Fin 32) (hk : k.val + 128 < 192) (hj : j.val + 64 < 96) :
    (kparams P).wt1 ⟨k.val + 128, hk⟩ ⟨j.val + 64, hj⟩ = P.wv2 j k := by
  have hn : ¬ (k.val + 128 < 128) := by omega
  have hm : ¬ (j.val + 64 < 64) := by omega
  simp only [kparams, dif_neg hn, dif_neg hm, Nat.add_sub_cancel]

theorem bt1_lo (P : Params) (j : Fin 64) (hj : j.val < 96) : (kparams P).bt1 ⟨j.val, hj⟩ = P.bp2 j := by
  simp only [kparams, dif_pos j.isLt]

theorem bt1_hi (P : Params) (j : Fin 32) (hj : j.val + 64 < 96) : (kparams P).bt1 ⟨j.val + 64, hj⟩ = P.bv2 j := by
  have hm : ¬ (j.val + 64 < 64) := by omega
  simp only [kparams, dif_neg hm, Nat.add_sub_cancel]

theorem kpv2_lo (P : Params) (R : Row) (j : Fin 64) (h : j.val < 96) :
    kpv2 (kparams P) R ⟨j.val, h⟩ = pol2 P R j := by
  unfold kpv2 pol2 linT lin
  rw [sum_split 128 64 192 rfl]
  simp only [kpv1_lo, kpv1_hi, wt1_ll, wt1_hl, bt1_lo, mul_zero, Finset.sum_const_zero, add_zero]

theorem kpv2_hi (P : Params) (R : Row) (j : Fin 32) (h : j.val + 64 < 96) :
    kpv2 (kparams P) R ⟨j.val + 64, h⟩ = vh2 P R j := by
  unfold kpv2 vh2 linT lin
  rw [sum_split 128 64 192 rfl]
  simp only [kpv1_lo, kpv1_hi, wt1_lh, wt1_hh, bt1_hi, mul_zero, Finset.sum_const_zero, zero_add]

theorem wt2_l0 (P : Params) (k : Fin 64) (hk : k.val < 96) : (kparams P).wt2 ⟨k.val, hk⟩ ⟨0, by omega⟩ = 0 := by
  have hn : ¬ (1 ≤ 0 ∧ 0 < 4) := by omega
  simp only [kparams, dif_pos k.isLt, dif_neg hn]

theorem wt2_h0 (P : Params) (k : Fin 32) (hk : k.val + 64 < 96) :
    (kparams P).wt2 ⟨k.val + 64, hk⟩ ⟨0, by omega⟩ = P.wv 0 k := by
  have hn : ¬ (k.val + 64 < 64) := by omega
  simp only [kparams, dif_neg hn, if_true, Nat.add_sub_cancel]

theorem wt2_lp (P : Params) (k : Fin 64) (j : Fin 3) (hk : k.val < 96) (hj : j.val + 1 < 8) :
    (kparams P).wt2 ⟨k.val, hk⟩ ⟨j.val + 1, hj⟩ = P.wp j k := by
  have hp : 1 ≤ j.val + 1 ∧ j.val + 1 < 4 := by omega
  simp only [kparams, dif_pos k.isLt, dif_pos hp, Nat.add_sub_cancel]

theorem wt2_hp (P : Params) (k : Fin 32) (j : Fin 3) (hk : k.val + 64 < 96) (hj : j.val + 1 < 8) :
    (kparams P).wt2 ⟨k.val + 64, hk⟩ ⟨j.val + 1, hj⟩ = 0 := by
  have hn : ¬ (k.val + 64 < 64) := by omega
  have hz : ¬ (j.val + 1 = 0) := by omega
  simp only [kparams, dif_neg hn, if_neg hz]

theorem bt2_0 (P : Params) : (kparams P).bt2 ⟨0, by omega⟩ = P.bv 0 := by
  simp only [kparams, if_true]

theorem bt2_p (P : Params) (j : Fin 3) (hj : j.val + 1 < 8) : (kparams P).bt2 ⟨j.val + 1, hj⟩ = P.bp j := by
  have hz : ¬ (j.val + 1 = 0) := by omega
  have hp : j.val + 1 < 4 := by omega
  simp only [kparams, if_neg hz, dif_pos hp, Nat.add_sub_cancel]

theorem kfin_value (P : Params) (R : Row) : kfin (kparams P) R 0 = value P R 0 := by
  have h0 : (0 : Fin 8) = ⟨0, by omega⟩ := rfl
  rw [h0]
  unfold kfin value linT lin
  rw [sum_split 64 32 96 rfl]
  simp only [kpv2_lo, kpv2_hi, wt2_l0, wt2_h0, bt2_0, mul_zero, Finset.sum_const_zero, zero_add]

theorem kfin_pol (P : Params) (R : Row) (j : Fin 3) : kfin (kparams P) R ⟨j.val + 1, by omega⟩ = pol P R j := by
  unfold kfin pol linT lin
  rw [sum_split 64 32 96 rfl]
  simp only [kpv2_lo, kpv2_hi, wt2_lp, wt2_hp, bt2_p, mul_zero, Finset.sum_const_zero, add_zero]

end Cert.Net

end
-- ==== Proof.KIValue.lean ====
import proofs.«429130_j6116033429958_3_alg».proof.Proof.KIFrameRun
import proofs.«429130_j6116033429958_3_alg».proof.Proof.KIPayB
import proofs.«429130_j6116033429958_3_alg».proof.Proof.KIHost
import proofs.«429130_j6116033429958_3_alg».proof.Proof.KIBlocks
import proofs.«429130_j6116033429958_3_alg».proof.Proof.SpecLaws

noncomputable section

namespace Cert.KernelIdeal.Val

open Cert.KernelIdeal Cert.KernelIdeal.Gen Cert.KernelIdeal.Frm Cert.Net Cert.KernelIdeal.HostV
open Idealize.ShloMosaic Idealize.ShloMosaic.ValueIdx Idealize.SL.Sem

variable (m : (ℓ : Loc nD τ sig) → Buf (Elt Ideal) ℓ) (ρ : Dev nD → PrngReg)

theorem zero_off : (![0, 0] : Fin 2 → Nat) = fun _ => 0 := funext fun a => by fin_cases a <;> rfl

def tOf {n : ℕ} (i : (⟨2, ![32768, n]⟩ : Shape).Idx) : Fin cfg0.N :=
  ⟨(i 0).val / 1024, by have b : (i 0).val < 32768 := (i 0).isLt; have h : cfg0.N = 32 := N_0; omega⟩

-- Row `r` lies in the row block `r / 1024`: the 32 row blocks cover the array.
theorem mem_rows {n : ℕ} (i : (⟨2, ![32768, n]⟩ : Shape).Idx) (S : Finset (⟨2, ![32768, n]⟩ : Shape).Idx) (off size : Fin 2 → ℕ) (inb)
    (hS : S = (Rect.unit (s := ⟨2, ![32768, n]⟩) off size inb).set)
    (h0 : off 0 = (i 0).val / 1024 * 1024) (s0 : size 0 = 1024) (h1 : off 1 = 0) (s1 : size 1 = n) : i ∈ S := by
  have b0 : (i 0).val < 32768 := (i 0).isLt
  have b1 : (i 1).val < n := (i 1).isLt
  rw [hS, Rect.mem_set_unit]
  refine Fin.forall_fin_two.2 ⟨?_, ?_⟩
  · rw [h0, s0]; omega
  · rw [h1, s1]; omega

-- A block row whose entries and instruction index are an array row's is that array row.
theorem krow_eq (x0 x2 x3 x4 : Vec Ideal S1024x256 .f32) (e1 : Fin 1024 → Fin 4) (y0 y2 y3 y4 : A2 32768 256) (e : Fin 32768 → Fin 4)
    (p : Fin 1024) (r : Fin 32768) (h0 : ∀ k, x0 (ix2 p k) = y0 (ix2 r k)) (h2 : ∀ k, x2 (ix2 p k) = y2 (ix2 r k))
    (h3 : ∀ k, x3 (ix2 p k) = y3 (ix2 r k)) (h4 : ∀ k, x4 (ix2 p k) = y4 (ix2 r k)) (hi : e1 p = e r) :
    Pay.krow x0 x2 x3 x4 e1 p = row y0 y2 y3 y4 e r :=
  Row.ext (funext h0) hi (funext h2) (funext h3) (funext h4)

section Arrays

variable (e : Dev nD → Fin 32768 → Fin 4)
    (he : ∀ (c : Dev nD) (r : Fin 32768), (m ((c.tc : Thread nD τ).loc main_arg1)) (ix2 r (0 : Fin 1)) = BitVec.ofNat 32 (e c r).val)

abbrev brow (c : Dev nD) : Fin 32768 → Row :=
  row (m ((c.tc : Thread nD τ).loc main_arg0)) (m ((c.tc : Thread nD τ).loc main_arg2)) (m ((c.tc : Thread nD τ).loc main_arg3)) (m ((c.tc : Thread nD τ).loc main_arg4)) (e c)

-- The array whose entry `(r, j)` is `g` of batch row `r` at `j`.
abbrev rowsOf {n : ℕ} (g : Row → Fin n → EReal) (c : Dev nD) : A2 32768 n :=
  fun i => g (brow m e c ⟨(i 0).val, (i 0).isLt⟩) ⟨(i 1).val, (i 1).isLt⟩

-- A block whose entry `(p, j)` is `g` of batch row `1024 t + p` is row block `t` of `rowsOf g`.
theorem block_eq {n : ℕ} (g : Row → Fin n → EReal) (c : Dev nD) (t : Fin cfg0.N) (B : (⟨2, ![1024, n]⟩ : Shape).Idx → EReal)
    (em : (⟨2, ![1024, n]⟩ : Shape).Idx → (⟨2, ![32768, n]⟩ : Shape).Idx)
    (hB : ∀ p j, B (ix2 p j) = g (brow m e c (grow t p)) j) (hem : ∀ p j, em (ix2 p j) = ix2 (grow t p) j) :
    B = fun y => rowsOf m e g c (em y) := by
  funext y
  obtain ⟨p, j, rfl⟩ : ∃ (p : Fin 1024) (j : Fin n), y = ix2 p j := ⟨y 0, y 1, eq_ix2 y⟩
  exact (hB p j).trans (congrArg (rowsOf m e g c) (hem p j)).symm

-- Each weight block is its whole array: its block index is `0` on both axes.
theorem weights_at_point (c : Dev nD) (t : Fin cfg0.N) :
    Pay.kp (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) = kparams (P m c) := by
  rw [iblk_5 m c t, iblk_6 m c t, iblk_7 m c t, iblk_8 m c t, iblk_9 m c t, iblk_10 m c t, iblk_11 m c t, iblk_12 m c t, iblk_13 m c t, iblk_14 m c t, iblk_15 m c t, iblk_16 m c t, iblk_17 m c t, iblk_18 m c t, iblk_19 m c t, iblk_20 m c t, iblk_21 m c t, iblk_22 m c t, iblk_23 m c t, iblk_24 m c t, iblk_25 m c t]
  exact V_weights m c

include he in
theorem instr_at_point (c : Dev nD) (t : Fin cfg0.N) (p : Fin 1024) :
    (iblk m c 1 t : Vec Ideal S1024x1 .i32) (ix2 p (0 : Fin 1)) = BitVec.ofNat 32 (e c (grow t p)).val :=
  (read_1 t _ p 0).trans (V_instr m c (e c) (he c) (grow t p))

theorem arg0_at (c : Dev nD) (t : Fin cfg0.N) (p : Fin 1024) (k : Fin 256) :
    (iblk m c 0 t : Vec Ideal S1024x256 .f32) (ix2 p k) = (m ((c.tc : Thread nD τ).loc main_arg0) : A2 32768 256) (ix2 (grow t p) k) :=
  (read_0 t _ p k).trans (congrFun (V_arg m c main_arg0 (.head _)) _)
theorem arg2_at (c : Dev nD) (t : Fin cfg0.N) (p : Fin 1024) (k : Fin 256) :
    (iblk m c 2 t : Vec Ideal S1024x256 .f32) (ix2 p k) = (m ((c.tc : Thread nD τ).loc main_arg2) : A2 32768 256) (ix2 (grow t p) k) :=
  (read_2 t _ p k).trans (congrFun (V_arg m c main_arg2 (.tail _ (.tail _ (.head _)))) _)
theorem arg3_at (c : Dev nD) (t : Fin cfg0.N) (p : Fin 1024) (k : Fin 256) :
    (iblk m c 3 t : Vec Ideal S1024x256 .f32) (ix2 p k) = (m ((c.tc : Thread nD τ).loc main_arg3) : A2 32768 256) (ix2 (grow t p) k) :=
  (read_3 t _ p k).trans (congrFun (V_arg m c main_arg3 (.tail _ (.tail _ (.tail _ (.head _))))) _)
theorem arg4_at (c : Dev nD) (t : Fin cfg0.N) (p : Fin 1024) (k : Fin 256) :
    (iblk m c 4 t : Vec Ideal S1024x256 .f32) (ix2 p k) = (m ((c.tc : Thread nD τ).loc main_arg4) : A2 32768 256) (ix2 (grow t p) k) :=
  (read_4 t _ p k).trans (congrFun (V_arg m c main_arg4 (.tail _ (.tail _ (.tail _ (.tail _ (.head _)))))) _)

theorem row_at_point (c : Dev nD) (t : Fin cfg0.N) (p : Fin 1024) :
    Pay.krow (iblk m c 0 t) (iblk m c 2 t) (iblk m c 3 t) (iblk m c 4 t) (fun p => e c (grow t p)) p = brow m e c (grow t p) :=
  krow_eq _ _ _ _ _ _ _ _ _ _ p (grow t p) (arg0_at m c t p) (arg2_at m c t p) (arg3_at m c t p) (arg4_at m c t p) rfl

include he in
theorem hidden_final (c : Dev nD) : (dats m 0 c).arrAt 27 cfg0.N = rowsOf m e (hxN (P m c)) c :=
  (dats m 0 c).arrAt_eq_of_cover 27 _ (fun t _ => by
    show (dats m 0 c).after 27 t = _
    rw [after0_27]; unfold out0_27; rw [View.canon_unit_zero zero_off]
    exact block_eq m e (hxN (P m c)) c t _ _ (fun p j => by
      rw [Pay.bHx_apply (blk m c t) _ (instr_at_point m e he c t) p j]; dsimp only [blk]; rw [weights_at_point, row_at_point, khx_eq]) (emb_27 t))
    fun i => ⟨tOf i, flush0_27 _, mem_rows i _ _ _ _ (View.set_slice_whole _ _) (congrArg (· * 1024) (idx_row (tOf i))) rfl rfl rfl⟩

include he in
theorem cell_final (c : Dev nD) : (dats m 0 c).arrAt 28 cfg0.N = rowsOf m e (cxN (P m c)) c :=
  (dats m 0 c).arrAt_eq_of_cover 28 _ (fun t _ => by
    show (dats m 0 c).after 28 t = _
    rw [after0_28]; unfold out0_28; rw [View.canon_unit_zero zero_off]
    exact block_eq m e (cxN (P m c)) c t _ _ (fun p j => by
      rw [Pay.bCx_apply (blk m c t) _ (instr_at_point m e he c t) p j]; dsimp only [blk]; rw [weights_at_point, row_at_point, kcx_eq]) (emb_28 t))
    fun i => ⟨tOf i, flush0_28 _, mem_rows i _ _ _ _ (View.set_slice_whole _ _) (congrArg (· * 1024) (idx_row (tOf i))) rfl rfl rfl⟩

include he in
theorem packed_final (c : Dev nD) : (dats m 0 c).arrAt 26 cfg0.N = rowsOf m e (kfin (kparams (P m c))) c :=
  (dats m 0 c).arrAt_eq_of_cover 26 _ (fun t _ => by
    show (dats m 0 c).after 26 t = _
    rw [after0_26]; unfold out0_26; rw [View.canon_unit_zero zero_off]
    exact block_eq m e (kfin (kparams (P m c))) c t _ _ (fun p j => by
      rw [Pay.bOut_apply (blk m c t) _ (instr_at_point m e he c t) p j]; dsimp only [blk]; rw [weights_at_point, row_at_point]) (emb_26 t))
    fun i => ⟨tOf i, flush0_26 _, mem_rows i _ _ _ _ (View.set_slice_whole _ _) (congrArg (· * 1024) (idx_row (tOf i))) rfl rfl rfl⟩

-- Columns `o, o + 1, …` of the packed array: entry `(r, k)` of the slice is entry `(r, k + o)`.
theorem cols_apply {n : ℕ} (o : ℕ) (X : A2 32768 8) (h : S32768x8.Slices ![0, o] ⟨2, ![32768, n]⟩) (r : Fin 32768) (k : Fin n)
    (hk : k.val + o < 8) : extractStridedSlice ⟨2, ![32768, n]⟩ ![0, o] X h (ix2 r k) = X (ix2 r ⟨k.val + o, hk⟩) :=
  extractStridedSlice_apply _ _ _ _ _ fun a => match a with
    | ⟨0, _⟩ => (Nat.zero_add _).symm
    | ⟨1, _⟩ => Nat.add_comm _ _

include he in
theorem packed_after (c : Dev nD) :
    Pipeline.withArrays (cfgs 0).spec c (V0 m c) (fun w => (dats m 0 c).arrAt w (cfgs 0).N) (Proc.devRef .tc main_v66_0)
      = rowsOf m e (kfin (kparams (P m c))) c :=
  (Pipeline.withArrays_arr spec0 launch0.win.arr_inj c _ _ 26).trans (packed_final m e he c)

include he in
theorem tail_value (c : Dev nD) :
    Pipeline.afterTail₀ cfgs (dats m) 0 (V0 m) [hostOps1] c main_v67 = rowsOf m e (value (P m c)) c := by
  unfold Pipeline.afterTail₀
  show StableHlo.after hostOps1 _ (Proc.devRef .tc main_v67) = _
  after_results
  funext i
  obtain ⟨r, k, rfl⟩ : ∃ (r : Fin 32768) (k : Fin 1), i = ix2 r k := ⟨i 0, i 1, eq_ix2 i⟩
  obtain rfl : k = 0 := Subsingleton.elim _ _
  refine (cols_apply 0 _ _ r 0 (by decide)).trans ?_
  rw [packed_after m e he c]
  exact kfin_value (P m c) _

include he in
theorem tail_pol (c : Dev nD) :
    Pipeline.afterTail₀ cfgs (dats m) 0 (V0 m) [hostOps1] c main_v68 = rowsOf m e (pol (P m c)) c := by
  unfold Pipeline.afterTail₀
  show StableHlo.after hostOps1 _ (Proc.devRef .tc main_v68) = _
  after_results
  funext i
  obtain ⟨r, k, rfl⟩ : ∃ (r : Fin 32768) (k : Fin 3), i = ix2 r k := ⟨i 0, i 1, eq_ix2 i⟩
  refine (cols_apply 1 _ _ r k (by omega)).trans ?_
  rw [packed_after m e he c]
  exact kfin_pol (P m c) _ k

end Arrays

theorem kernel_run (e : Dev nD → Fin 32768 → Fin 4)
    (he : ∀ (c : Dev nD) (r : Fin 32768), (m ((c.tc : Thread nD τ).loc main_arg1)) (ix2 r (0 : Fin 1)) = BitVec.ofNat 32 (e c r).val) :
    θ_run defs (onTc (τ := τ) (main (F := Ideal))) ⟨m, fun _ => 0, ρ⟩ (fun r => ∀ c : Dev nD,
      r.2.mem ((c.tc : Thread nD τ).loc main_v67) = G_value (P m c) (m ((c.tc : Thread nD τ).loc main_arg0)) (m ((c.tc : Thread nD τ).loc main_arg2)) (m ((c.tc : Thread nD τ).loc main_arg3)) (m ((c.tc : Thread nD τ).loc main_arg4)) (e c)
      ∧ r.2.mem ((c.tc : Thread nD τ).loc main_v68) = G_pol (P m c) (m ((c.tc : Thread nD τ).loc main_arg0)) (m ((c.tc : Thread nD τ).loc main_arg2)) (m ((c.tc : Thread nD τ).loc main_arg3)) (m ((c.tc : Thread nD τ).loc main_arg4)) (e c)
      ∧ r.2.mem ((c.tc : Thread nD τ).loc main_v66_1) = G_hx (P m c) (m ((c.tc : Thread nD τ).loc main_arg0)) (m ((c.tc : Thread nD τ).loc main_arg2)) (m ((c.tc : Thread nD τ).loc main_arg3)) (m ((c.tc : Thread nD τ).loc main_arg4)) (e c)
      ∧ r.2.mem ((c.tc : Thread nD τ).loc main_v66_2) = G_cx (P m c) (m ((c.tc : Thread nD τ).loc main_arg0)) (m ((c.tc : Thread nD τ).loc main_arg2)) (m ((c.tc : Thread nD τ).loc main_arg3)) (m ((c.tc : Thread nD τ).loc main_arg4)) (e c)
      ∧ (∀ b ∈ argRefs, r.2.mem ((c.tc : Thread nD τ).loc b) = m ((c.tc : Thread nD τ).loc b))) :=
  (θ_run defs _ _).mono (fun r h c =>
    ⟨((h c).2 main_v67 (Pipeline.mem_restRefs_of main_v67 (by decide) (by decide))).trans (tail_value m e he c),
     ((h c).2 main_v68 (Pipeline.mem_restRefs_of main_v68 (by decide) (by decide))).trans (tail_pol m e he c),
     ((h c).1 27).trans (hidden_final m e he c),
     ((h c).1 28).trans (cell_final m e he c),
     fun b hb => arg_kept m r h c b hb⟩) (run_main m ρ)

end Cert.KernelIdeal.Val

end
-- ==== Proof.RefRead.lean ====
import proofs.«429130_j6116033429958_3_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

section

variable {F : FTy → Type} [FloatOps F]
  (x0 : (⟨S32768x256, .f32⟩ : BufTy).Contents (Elt F))
  (x1 : (⟨S32768x1, .i32⟩ : BufTy).Contents (Elt F))
  (x2 : (⟨S32768x256, .f32⟩ : BufTy).Contents (Elt F))
  (x3 : (⟨S32768x256, .f32⟩ : BufTy).Contents (Elt F))
  (x4 : (⟨S32768x256, .f32⟩ : BufTy).Contents (Elt F))
  (x5 : (⟨S4x25, .f32⟩ : BufTy).Contents (Elt F))
  (x6 : (⟨S256x25, .f32⟩ : BufTy).Contents (Elt F))
  (x7 : (⟨S256, .f32⟩ : BufTy).Contents (Elt F))
  (x8 : (⟨S1024x512, .f32⟩ : BufTy).Contents (Elt F))
  (x9 : (⟨S1024x256, .f32⟩ : BufTy).Contents (Elt F))
  (x10 : (⟨S1024, .f32⟩ : BufTy).Contents (Elt F))
  (x11 : (⟨S1024, .f32⟩ : BufTy).Contents (Elt F))
  (x12 : (⟨S256x256, .f32⟩ : BufTy).Contents (Elt F))
  (x13 : (⟨S256, .f32⟩ : BufTy).Contents (Elt F))
  (x14 : (⟨S256x256, .f32⟩ : BufTy).Contents (Elt F))
  (x15 : (⟨S256, .f32⟩ : BufTy).Contents (Elt F))
  (x16 : (⟨S512x512, .f32⟩ : BufTy).Contents (Elt F))
  (x17 : (⟨S512, .f32⟩ : BufTy).Contents (Elt F))
  (x18 : (⟨S256x512, .f32⟩ : BufTy).Contents (Elt F))
  (x19 : (⟨S256, .f32⟩ : BufTy).Contents (Elt F))
  (x20 : (⟨S128x256, .f32⟩ : BufTy).Contents (Elt F))
  (x21 : (⟨S128, .f32⟩ : BufTy).Contents (Elt F))
  (x22 : (⟨S64x128, .f32⟩ : BufTy).Contents (Elt F))
  (x23 : (⟨S64, .f32⟩ : BufTy).Contents (Elt F))
  (x24 : (⟨S3x64, .f32⟩ : BufTy).Contents (Elt F))
  (x25 : (⟨S3, .f32⟩ : BufTy).Contents (Elt F))
  (x26 : (⟨S64x256, .f32⟩ : BufTy).Contents (Elt F))
  (x27 : (⟨S64, .f32⟩ : BufTy).Contents (Elt F))
  (x28 : (⟨S32x64, .f32⟩ : BufTy).Contents (Elt F))
  (x29 : (⟨S32, .f32⟩ : BufTy).Contents (Elt F))
  (x30 : (⟨S1x32, .f32⟩ : BufTy).Contents (Elt F))
  (x31 : (⟨S1, .f32⟩ : BufTy).Contents (Elt F))

def val_main_c : (⟨S_, .i32⟩ : BufTy).Contents (Elt F) :=
  constantI S_ 32 0#32
theorem val_main_c_apply (i : S_.Idx) :
    val_main_c (F := F) i = 0#32 := rfl

def val_main_v0 : (⟨S32768x1, .i32⟩ : BufTy).Contents (Elt F) :=
  broadcastInDim S32768x1 ![] bcast_S_S32768x1 (val_main_c (F := F))
abbrev idx_main_v0 (i : S32768x1.Idx) : S_.Idx := fun a => a.elim0
theorem val_main_v0_apply (i : S32768x1.Idx) :
    val_main_v0 (F := F) i = val_main_c (F := F) (idx_main_v0 i) :=
  broadcastInDim_apply _ _ _ i _ fun a => a.elim0

def val_main_v1 : (⟨S32768x1, .i1⟩ : BufTy).Contents (Elt F) :=
  cmpi .slt (x1) (val_main_v0 (F := F))
theorem val_main_v1_apply (i : S32768x1.Idx) :
    val_main_v1 x1 i = IntOp.cmpi .slt (x1 i) (val_main_v0 (F := F) i) := rfl

def val_main_c_0 : (⟨S_, .i32⟩ : BufTy).Contents (Elt F) :=
  constantI S_ 32 4#32
theorem val_main_c_0_apply (i : S_.Idx) :
    val_main_c_0 (F := F) i = 4#32 := rfl

def val_main_v2 : (⟨S32768x1, .i32⟩ : BufTy).Contents (Elt F) :=
  broadcastInDim S32768x1 ![] bcast_S_S32768x1 (val_main_c_0 (F := F))
abbrev idx_main_v2 (i : S32768x1.Idx) : S_.Idx := fun a => a.elim0
theorem val_main_v2_apply (i : S32768x1.Idx) :
    val_main_v2 (F := F) i = val_main_c_0 (F := F) (idx_main_v2 i) :=
  broadcastInDim_apply _ _ _ i _ fun a => a.elim0

def val_main_v3 : (⟨S32768x1, .i32⟩ : BufTy).Contents (Elt F) :=
  addi (x1) (val_main_v2 (F := F))
theorem val_main_v3_apply (i : S32768x1.Idx) :
    val_main_v3 x1 i = IntOp.addi (x1 i) (val_main_v2 (F := F) i) := rfl

def val_main_v4 : (⟨S32768x1, .i32⟩ : BufTy).Contents (Elt F) :=
  select (val_main_v1 x1) (val_main_v3 x1) (x1)
theorem val_main_v4_apply (i : S32768x1.Idx) :
    val_main_v4 x1 i = Scalar.select (val_main_v1 x1 i) (val_main_v3 x1 i) (x1 i) := rfl

def val_main_v5 : (⟨S32768x1x1, .i32⟩ : BufTy).Contents (Elt F) :=
  broadcastInDim S32768x1x1 ![0, 1] bcast_S32768x1_S32768x1x1_0_1 (val_main_v4 x1)
abbrev idx_main_v5 (i : S32768x1x1.Idx) : S32768x1.Idx := fun a => match a with
  | ⟨0, _⟩ => ⟨(i 0).val, (i 0).isLt⟩
  | ⟨1, _⟩ => ⟨0, Nat.one_pos⟩
theorem val_main_v5_apply (i : S32768x1x1.Idx) :
    val_main_v5 x1 i = val_main_v4 x1 (idx_main_v5 i) :=
  broadcastInDim_apply _ _ _ i _ (Fin.forall_fin_two.2 ⟨rfl, rfl⟩)

def val_main_v6 : (⟨S32768x1x25, .f32⟩ : BufTy).Contents (Elt F) :=
  Host.gather gather_S4x25_S32768x1x1_S32768x1x25_2_0_n_n_0_2_125 (x5) (val_main_v5 x1)

def val_main_v7 : (⟨S32768x25, .f32⟩ : BufTy).Contents (Elt F) :=
  shapeCast _ (val_main_v6 x1 x5) shapeCasts_S32768x1x25_S32768x25
abbrev idx_main_v7 (i : S32768x25.Idx) : S32768x1x25.Idx := fun a => match a with
  | ⟨0, _⟩ => ⟨((i 0).val * 25 + (i 1).val) / 25, by have h0 : (i 0).val < 32768 := (i 0).isLt; have h1 : (i 1).val < 25 := (i 1).isLt; show ((i 0).val * 25 + (i 1).val) / 25 < 32768; omega⟩
  | ⟨1, _⟩ => ⟨0, Nat.one_pos⟩
  | ⟨2, _⟩ => ⟨((i 0).val * 25 + (i 1).val) % 25, by have h0 : (i 0).val < 32768 := (i 0).isLt; have h1 : (i 1).val < 25 := (i 1).isLt; show ((i 0).val * 25 + (i 1).val) % 25 < 25; omega⟩
theorem val_main_v7_apply (i : S32768x25.Idx) :
    val_main_v7 x1 x5 i = val_main_v6 x1 x5 (idx_main_v7 i) := by
  unfold val_main_v7
  generalize val_main_v6 x1 x5 = y
  exact shapeCast_apply y shapeCasts_S32768x1x25_S32768x25 i (idx_main_v7 i)
    (by rewrite [Shape.rowMajor_val_three, Shape.rowMajor_val_two]; have h0 : (i 0).val < 32768 := (i 0).isLt; have h1 : (i 1).val < 25 := (i 1).isLt; show (((i 0).val * 25 + (i 1).val) / 25 * 1 + 0) * 25 + ((i 0).val * 25 + (i 1).val) % 25 = (i 0).val * 25 + (i 1).val; omega)

def val_main_v8 : (⟨S25x256, .f32⟩ : BufTy).Contents (Elt F) :=
  transpose S25x256 [1, 0] (x6) transposes_S256x25_S25x256_1_0
abbrev idx_main_v8 (i : S25x256.Idx) : S256x25.Idx := fun a => match a with
  | ⟨0, _⟩ => ⟨(i 1).val, (i 1).isLt⟩
  | ⟨1, _⟩ => ⟨(i 0).val, (i 0).isLt⟩
theorem val_main_v8_apply (i : S25x256.Idx) :
    val_main_v8 x6 i = x6 (idx_main_v8 i) :=
  transpose_apply _ _ _ i _ (Fin.forall_fin_two.2 ⟨rfl, rfl⟩)

def val_main_v9 : (⟨S32768x256, .f32⟩ : BufTy).Contents (Elt F) :=
  Host.dotGeneral dot_S32768x25_S25x256_S32768x256_1_0_0_1_n_n none (val_main_v7 x1 x5) (val_main_v8 x6)
abbrev lidx_main_v9 (i : S32768x256.Idx) (k : Fin 25) : S32768x25.Idx := fun a => match a with
  | ⟨0, _⟩ => ⟨(i 0).val, (i 0).isLt⟩
  | ⟨1, _⟩ => ⟨k.val, k.isLt⟩
abbrev ridx_main_v9 (i : S32768x256.Idx) (k : Fin 25) : S25x256.Idx := fun a => match a with
  | ⟨0, _⟩ => ⟨k.val, k.isLt⟩
  | ⟨1, _⟩ => ⟨(i 1).val, (i 1).isLt⟩

def val_main_v10 : (⟨S1x256, .f32⟩ : BufTy).Contents (Elt F) :=
  broadcastInDim S1x256 ![1] bcast_S256_S1x256_1 (x7)
abbrev idx_main_v10 (i : S1x256.Idx) : S256.Idx := fun a => match a with
  | ⟨0, _⟩ => ⟨(i 1).val, (i 1).isLt⟩
theorem val_main_v10_apply (i : S1x256.Idx) :
    val_main_v10 x7 i = x7 (idx_main_v10 i) :=
  broadcastInDim_apply _ _ _ i _ (Fin.forall_fin_one.2 rfl)

def val_main_v11 : (⟨S32768x256, .f32⟩ : BufTy).Contents (Elt F) :=
  broadcastInDim S32768x256 ![0, 1] bcast_S1x256_S32768x256_0_1 (val_main_v10 x7)
abbrev idx_main_v11 (i : S32768x256.Idx) : S1x256.Idx := fun a => match a with
  | ⟨0, _⟩ => ⟨0, Nat.one_pos⟩
  | ⟨1, _⟩ => ⟨(i 1).val, (i 1).isLt⟩
theorem val_main_v11_apply (i : S32768x256.Idx) :
    val_main_v11 x7 i = val_main_v10 x7 (idx_main_v11 i) :=
  broadcastInDim_apply _ _ _ i _ (Fin.forall_fin_two.2 ⟨rfl, rfl⟩)

def val_main_v12 : (⟨S32768x256, .f32⟩ : BufTy).Contents (Elt F) :=
  addf (val_main_v9 x1 x5 x6) (val_main_v11 x7)
theorem val_main_v12_apply (i : S32768x256.Idx) :
    val_main_v12 x1 x5 x6 x7 i = FloatOps.addf (val_main_v9 x1 x5 x6 i) (val_main_v11 x7 i) := rfl

def val_main_v13 : (⟨S32768x256, .f32⟩ : BufTy).Contents (Elt F) :=
  Host.negf (val_main_v12 x1 x5 x6 x7)
theorem val_main_v13_apply (i : S32768x256.Idx) :
    val_main_v13 x1 x5 x6 x7 i = FloatOps.hostNegf (val_main_v12 x1 x5 x6 x7 i) := rfl

def val_main_v14 : (⟨S32768x256, .f32⟩ : BufTy).Contents (Elt F) :=
  Host.exp (val_main_v13 x1 x5 x6 x7)
theorem val_main_v14_apply (i : S32768x256.Idx) :
    val_main_v14 x1 x5 x6 x7 i = FloatOps.hostUnary .exp (val_main_v13 x1 x5 x6 x7 i) := rfl

def val_main_cst : (⟨S_, .f32⟩ : BufTy).Contents (Elt F) :=
  constant S_ .f32 0x3F800000#32
theorem val_main_cst_apply (i : S_.Idx) :
    val_main_cst (F := F) i = FloatOps.ofBits .f32 0x3F800000#32 := rfl

def val_main_v15 : (⟨S32768x256, .f32⟩ : BufTy).Contents (Elt F) :=
  broadcastInDim S32768x256 ![] bcast_S_S32768x256 (val_main_cst (F := F))
abbrev idx_main_v15 (i : S32768x256.Idx) : S_.Idx := fun a => a.elim0
theorem val_main_v15_apply (i : S32768x256.Idx) :
    val_main_v15 (F := F) i = val_main_cst (F := F) (idx_main_v15 i) :=
  broadcastInDim_apply _ _ _ i _ fun a => a.elim0

def val_main_v16 : (⟨S32768x256, .f32⟩ : BufTy).Contents (Elt F) :=
  addf (val_main_v15 (F := F)) (val_main_v14 x1 x5 x6 x7)
theorem val_main_v16_apply (i : S32768x256.Idx) :
    val_main_v16 x1 x5 x6 x7 i = FloatOps.addf (val_main_v15 (F := F) i) (val_main_v14 x1 x5 x6 x7 i) := rfl

def val_main_cst_1 : (⟨S_, .f32⟩ : BufTy).Contents (Elt F) :=
  constant S_ .f32 0x3F800000#32
theorem val_main_cst_1_apply (i : S_.Idx) :
    val_main_cst_1 (F := F) i = FloatOps.ofBits .f32 0x3F800000#32 := rfl

def val_main_v17 : (⟨S32768x256, .f32⟩ : BufTy).Contents (Elt F) :=
  broadcastInDim S32768x256 ![] bcast_S_S32768x256 (val_main_cst_1 (F := F))
abbrev idx_main_v17 (i : S32768x256.Idx) : S_.Idx := fun a => a.elim0
theorem val_main_v17_apply (i : S32768x256.Idx) :
    val_main_v17 (F := F) i = val_main_cst_1 (F := F) (idx_main_v17 i) :=
  broadcastInDim_apply _ _ _ i _ fun a => a.elim0

def val_main_v18 : (⟨S32768x256, .f32⟩ : BufTy).Contents (Elt F) :=
  Host.divf (val_main_v17 (F := F)) (val_main_v16 x1 x5 x6 x7)
theorem val_main_v18_apply (i : S32768x256.Idx) :
    val_main_v18 x1 x5 x6 x7 i = FloatOps.hostDivf (val_main_v17 (F := F) i) (val_main_v16 x1 x5 x6 x7 i) := rfl

def val_main_v19 : (⟨S32768x256, .f32⟩ : BufTy).Contents (Elt F) :=
  mulf (x0) (val_main_v18 x1 x5 x6 x7)
theorem val_main_v19_apply (i : S32768x256.Idx) :
    val_main_v19 x0 x1 x5 x6 x7 i = FloatOps.mulf (x0 i) (val_main_v18 x1 x5 x6 x7 i) := rfl

def val_main_v20 : (⟨S32768x512, .f32⟩ : BufTy).Contents (Elt F) :=
  concatenate S32768x512 1 [⟨S32768x256, (val_main_v19 x0 x1 x5 x6 x7)⟩, ⟨S32768x256, (val_main_v18 x1 x5 x6 x7)⟩] concatenates_S32768x256_S32768x256_S32768x512_d1

def val_main_v21 : (⟨S512x1024, .f32⟩ : BufTy).Contents (Elt F) :=
  transpose S512x1024 [1, 0] (x8) transposes_S1024x512_S512x1024_1_0
abbrev idx_main_v21 (i : S512x1024.Idx) : S1024x512.Idx := fun a => match a with
  | ⟨0, _⟩ => ⟨(i 1).val, (i 1).isLt⟩
  | ⟨1, _⟩ => ⟨(i 0).val, (i 0).isLt⟩
theorem val_main_v21_apply (i : S512x1024.Idx) :
    val_main_v21 x8 i = x8 (idx_main_v21 i) :=
  transpose_apply _ _ _ i _ (Fin.forall_fin_two.2 ⟨rfl, rfl⟩)

def val_main_v22 : (⟨S32768x1024, .f32⟩ : BufTy).Contents (Elt F) :=
  Host.dotGeneral dot_S32768x512_S512x1024_S32768x1024_1_0_0_1_n_n none (val_main_v20 x0 x1 x5 x6 x7) (val_main_v21 x8)
abbrev lidx_main_v22 (i : S32768x1024.Idx) (k : Fin 512) : S32768x512.Idx := fun a => match a with
  | ⟨0, _⟩ => ⟨(i 0).val, (i 0).isLt⟩
  | ⟨1, _⟩ => ⟨k.val, k.isLt⟩
abbrev ridx_main_v22 (i : S32768x1024.Idx) (k : Fin 512) : S512x1024.Idx := fun a => match a with
  | ⟨0, _⟩ => ⟨k.val, k.isLt⟩
  | ⟨1, _⟩ => ⟨(i 1).val, (i 1).isLt⟩

def val_main_v23 : (⟨S1x1024, .f32⟩ : BufTy).Contents (Elt F) :=
  broadcastInDim S1x1024 ![1] bcast_S1024_S1x1024_1 (x10)
abbrev idx_main_v23 (i : S1x1024.Idx) : S1024.Idx := fun a => match a with
  | ⟨0, _⟩ => ⟨(i 1).val, (i 1).isLt⟩
theorem val_main_v23_apply (i : S1x1024.Idx) :
    val_main_v23 x10 i = x10 (idx_main_v23 i) :=
  broadcastInDim_apply _ _ _ i _ (Fin.forall_fin_one.2 rfl)

def val_main_v24 : (⟨S32768x1024, .f32⟩ : BufTy).Contents (Elt F) :=
  broadcastInDim S32768x1024 ![0, 1] bcast_S1x1024_S32768x1024_0_1 (val_main_v23 x10)
abbrev idx_main_v24 (i : S32768x1024.Idx) : S1x1024.Idx := fun a => match a with
  | ⟨0, _⟩ => ⟨0, Nat.one_pos⟩
  | ⟨1, _⟩ => ⟨(i 1).val, (i 1).isLt⟩
theorem val_main_v24_apply (i : S32768x1024.Idx) :
    val_main_v24 x10 i = val_main_v23 x10 (idx_main_v24 i) :=
  broadcastInDim_apply _ _ _ i _ (Fin.forall_fin_two.2 ⟨rfl, rfl⟩)

def val_main_v25 : (⟨S32768x1024, .f32⟩ : BufTy).Contents (Elt F) :=
  addf (val_main_v22 x0 x1 x5 x6 x7 x8) (val_main_v24 x10)
theorem val_main_v25_apply (i : S32768x1024.Idx) :
    val_main_v25 x0 x1 x5 x6 x7 x8 x10 i = FloatOps.addf (val_main_v22 x0 x1 x5 x6 x7 x8 i) (val_main_v24 x10 i) := rfl

def val_main_v26 : (⟨S256x1024, .f32⟩ : BufTy).Contents (Elt F) :=
  transpose S256x1024 [1, 0] (x9) transposes_S1024x256_S256x1024_1_0
abbrev idx_main_v26 (i : S256x1024.Idx) : S1024x256.Idx := fun a => match a with
  | ⟨0, _⟩ => ⟨(i 1).val, (i 1).isLt⟩
  | ⟨1, _⟩ => ⟨(i 0).val, (i 0).isLt⟩
theorem val_main_v26_apply (i : S256x1024.Idx) :
    val_main_v26 x9 i = x9 (idx_main_v26 i) :=
  transpose_apply _ _ _ i _ (Fin.forall_fin_two.2 ⟨rfl, rfl⟩)

def val_main_v27 : (⟨S32768x1024, .f32⟩ : BufTy).Contents (Elt F) :=
  Host.dotGeneral dot_S32768x256_S256x1024_S32768x1024_1_0_0_1_n_n none (x2) (val_main_v26 x9)
abbrev lidx_main_v27 (i : S32768x1024.Idx) (k : Fin 256) : S32768x256.Idx := fun a => match a with
  | ⟨0, _⟩ => ⟨(i 0).val, (i 0).isLt⟩
  | ⟨1, _⟩ => ⟨k.val, k.isLt⟩
abbrev ridx_main_v27 (i : S32768x1024.Idx) (k : Fin 256) : S256x1024.Idx := fun a => match a with
  | ⟨0, _⟩ => ⟨k.val, k.isLt⟩
  | ⟨1, _⟩ => ⟨(i 1).val, (i 1).isLt⟩

def val_main_v28 : (⟨S32768x1024, .f32⟩ : BufTy).Contents (Elt F) :=
  addf (val_main_v25 x0 x1 x5 x6 x7 x8 x10) (val_main_v27 x2 x9)
theorem val_main_v28_apply (i : S32768x1024.Idx) :
    val_main_v28 x0 x1 x2 x5 x6 x7 x8 x9 x10 i = FloatOps.addf (val_main_v25 x0 x1 x5 x6 x7 x8 x10 i) (val_main_v27 x2 x9 i) := rfl

def val_main_v29 : (⟨S1x1024, .f32⟩ : BufTy).Contents (Elt F) :=
  broadcastInDim S1x1024 ![1] bcast_S1024_S1x1024_1 (x11)
abbrev idx_main_v29 (i : S1x1024.Idx) : S1024.Idx := fun a => match a with
  | ⟨0, _⟩ => ⟨(i 1).val, (i 1).isLt⟩
theorem val_main_v29_apply (i : S1x1024.Idx) :
    val_main_v29 x11 i = x11 (idx_main_v29 i) :=
  broadcastInDim_apply _ _ _ i _ (Fin.forall_fin_one.2 rfl)

def val_main_v30 : (⟨S32768x1024, .f32⟩ : BufTy).Contents (Elt F) :=
  broadcastInDim S32768x1024 ![0, 1] bcast_S1x1024_S32768x1024_0_1 (val_main_v29 x11)
abbrev idx_main_v30 (i : S32768x1024.Idx) : S1x1024.Idx := fun a => match a with
  | ⟨0, _⟩ => ⟨0, Nat.one_pos⟩
  | ⟨1, _⟩ => ⟨(i 1).val, (i 1).isLt⟩
theorem val_main_v30_apply (i : S32768x1024.Idx) :
    val_main_v30 x11 i = val_main_v29 x11 (idx_main_v30 i) :=
  broadcastInDim_apply _ _ _ i _ (Fin.forall_fin_two.2 ⟨rfl, rfl⟩)

def val_main_v31 : (⟨S32768x1024, .f32⟩ : BufTy).Contents (Elt F) :=
  addf (val_main_v28 x0 x1 x2 x5 x6 x7 x8 x9 x10) (val_main_v30 x11)
theorem val_main_v31_apply (i : S32768x1024.Idx) :
    val_main_v31 x0 x1 x2 x5 x6 x7 x8 x9 x10 x11 i = FloatOps.addf (val_main_v28 x0 x1 x2 x5 x6 x7 x8 x9 x10 i) (val_main_v30 x11 i) := rfl

def val_main_v32 : (⟨S32768x256, .f32⟩ : BufTy).Contents (Elt F) :=
  extractStridedSlice S32768x256 ![0, 0] (val_main_v31 x0 x1 x2 x5 x6 x7 x8 x9 x10 x11) slices_S32768x1024_S32768x256_0_0
abbrev idx_main_v32 (i : S32768x256.Idx) : S32768x1024.Idx := fun a => match a with
  | ⟨0, _⟩ => ⟨(i 0).val, (i 0).isLt⟩
  | ⟨1, _⟩ => ⟨(i 1).val, by have h1 : (i 1).val < 256 := (i 1).isLt; show (i 1).val < 1024; omega⟩
theorem val_main_v32_apply (i : S32768x256.Idx) :
    val_main_v32 x0 x1 x2 x5 x6 x7 x8 x9 x10 x11 i = val_main_v31 x0 x1 x2 x5 x6 x7 x8 x9 x10 x11 (idx_main_v32 i) :=
  extractStridedSlice_apply _ _ _ i _ (fun a => match a with
    | ⟨0, _⟩ => (Nat.zero_add _).symm
    | ⟨1, _⟩ => (Nat.zero_add _).symm)

def val_main_v33 : (⟨S32768x256, .f32⟩ : BufTy).Contents (Elt F) :=
  extractStridedSlice S32768x256 ![0, 256] (val_main_v31 x0 x1 x2 x5 x6 x7 x8 x9 x10 x11) slices_S32768x1024_S32768x256_0_256
abbrev idx_main_v33 (i : S32768x256.Idx) : S32768x1024.Idx := fun a => match a with
  | ⟨0, _⟩ => ⟨(i 0).val, (i 0).isLt⟩
  | ⟨1, _⟩ => ⟨256 + (i 1).val, by have h1 : (i 1).val < 256 := (i 1).isLt; show 256 + (i 1).val < 1024; omega⟩
theorem val_main_v33_apply (i : S32768x256.Idx) :
    val_main_v33 x0 x1 x2 x5 x6 x7 x8 x9 x10 x11 i = val_main_v31 x0 x1 x2 x5 x6 x7 x8 x9 x10 x11 (idx_main_v33 i) :=
  extractStridedSlice_apply _ _ _ i _ (fun a => match a with
    | ⟨0, _⟩ => (Nat.zero_add _).symm
    | ⟨1, _⟩ => rfl)

def val_main_v34 : (⟨S32768x256, .f32⟩ : BufTy).Contents (Elt F) :=
  extractStridedSlice S32768x256 ![0, 512] (val_main_v31 x0 x1 x2 x5 x6 x7 x8 x9 x10 x11) slices_S32768x1024_S32768x256_0_512
abbrev idx_main_v34 (i : S32768x256.Idx) : S32768x1024.Idx := fun a => match a with
  | ⟨0, _⟩ => ⟨(i 0).val, (i 0).isLt⟩
  | ⟨1, _⟩ => ⟨512 + (i 1).val, by have h1 : (i 1).val < 256 := (i 1).isLt; show 512 + (i 1).val < 1024; omega⟩
theorem val_main_v34_apply (i : S32768x256.Idx) :
    val_main_v34 x0 x1 x2 x5 x6 x7 x8 x9 x10 x11 i = val_main_v31 x0 x1 x2 x5 x6 x7 x8 x9 x10 x11 (idx_main_v34 i) :=
  extractStridedSlice_apply _ _ _ i _ (fun a => match a with
    | ⟨0, _⟩ => (Nat.zero_add _).symm
    | ⟨1, _⟩ => rfl)

def val_main_v35 : (⟨S32768x256, .f32⟩ : BufTy).Contents (Elt F) :=
  extractStridedSlice S32768x256 ![0, 768] (val_main_v31 x0 x1 x2 x5 x6 x7 x8 x9 x10 x11) slices_S32768x1024_S32768x256_0_768
abbrev idx_main_v35 (i : S32768x256.Idx) : S32768x1024.Idx := fun a => match a with
  | ⟨0, _⟩ => ⟨(i 0).val, (i 0).isLt⟩
  | ⟨1, _⟩ => ⟨768 + (i 1).val, by have h1 : (i 1).val < 256 := (i 1).isLt; show 768 + (i 1).val < 1024; omega⟩
theorem val_main_v35_apply (i : S32768x256.Idx) :
    val_main_v35 x0 x1 x2 x5 x6 x7 x8 x9 x10 x11 i = val_main_v31 x0 x1 x2 x5 x6 x7 x8 x9 x10 x11 (idx_main_v35 i) :=
  extractStridedSlice_apply _ _ _ i _ (fun a => match a with
    | ⟨0, _⟩ => (Nat.zero_add _).symm
    | ⟨1, _⟩ => rfl)

def val_main_v36 : (⟨S32768x256, .f32⟩ : BufTy).Contents (Elt F) :=
  Host.negf (val_main_v33 x0 x1 x2 x5 x6 x7 x8 x9 x10 x11)
theorem val_main_v36_apply (i : S32768x256.Idx) :
    val_main_v36 x0 x1 x2 x5 x6 x7 x8 x9 x10 x11 i = FloatOps.hostNegf (val_main_v33 x0 x1 x2 x5 x6 x7 x8 x9 x10 x11 i) := rfl

def val_main_v37 : (⟨S32768x256, .f32⟩ : BufTy).Contents (Elt F) :=
  Host.exp (val_main_v36 x0 x1 x2 x5 x6 x7 x8 x9 x10 x11)
theorem val_main_v37_apply (i : S32768x256.Idx) :
    val_main_v37 x0 x1 x2 x5 x6 x7 x8 x9 x10 x11 i = FloatOps.hostUnary .exp (val_main_v36 x0 x1 x2 x5 x6 x7 x8 x9 x10 x11 i) := rfl

def val_main_cst_2 : (⟨S_, .f32⟩ : BufTy).Contents (Elt F) :=
  constant S_ .f32 0x3F800000#32
theorem val_main_cst_2_apply (i : S_.Idx) :
    val_main_cst_2 (F := F) i = FloatOps.ofBits .f32 0x3F800000#32 := rfl

def val_main_v38 : (⟨S32768x256, .f32⟩ : BufTy).Contents (Elt F) :=
  broadcastInDim S32768x256 ![] bcast_S_S32768x256 (val_main_cst_2 (F := F))
abbrev idx_main_v38 (i : S32768x256.Idx) : S_.Idx := fun a => a.elim0
theorem val_main_v38_apply (i : S32768x256.Idx) :
    val_main_v38 (F := F) i = val_main_cst_2 (F := F) (idx_main_v38 i) :=
  broadcastInDim_apply _ _ _ i _ fun a => a.elim0

def val_main_v39 : (⟨S32768x256, .f32⟩ : BufTy).Contents (Elt F) :=
  addf (val_main_v38 (F := F)) (val_main_v37 x0 x1 x2 x5 x6 x7 x8 x9 x10 x11)
theorem val_main_v39_apply (i : S32768x256.Idx) :
    val_main_v39 x0 x1 x2 x5 x6 x7 x8 x9 x10 x11 i = FloatOps.addf (val_main_v38 (F := F) i) (val_main_v37 x0 x1 x2 x5 x6 x7 x8 x9 x10 x11 i) := rfl

def val_main_cst_3 : (⟨S_, .f32⟩ : BufTy).Contents (Elt F) :=
  constant S_ .f32 0x3F800000#32
theorem val_main_cst_3_apply (i : S_.Idx) :
    val_main_cst_3 (F := F) i = FloatOps.ofBits .f32 0x3F800000#32 := rfl

def val_main_v40 : (⟨S32768x256, .f32⟩ : BufTy).Contents (Elt F) :=
  broadcastInDim S32768x256 ![] bcast_S_S32768x256 (val_main_cst_3 (F := F))
abbrev idx_main_v40 (i : S32768x256.Idx) : S_.Idx := fun a => a.elim0
theorem val_main_v40_apply (i : S32768x256.Idx) :
    val_main_v40 (F := F) i = val_main_cst_3 (F := F) (idx_main_v40 i) :=
  broadcastInDim_apply _ _ _ i _ fun a => a.elim0

def val_main_v41 : (⟨S32768x256, .f32⟩ : BufTy).Contents (Elt F) :=
  Host.divf (val_main_v40 (F := F)) (val_main_v39 x0 x1 x2 x5 x6 x7 x8 x9 x10 x11)
theorem val_main_v41_apply (i : S32768x256.Idx) :
    val_main_v41 x0 x1 x2 x5 x6 x7 x8 x9 x10 x11 i = FloatOps.hostDivf (val_main_v40 (F := F) i) (val_main_v39 x0 x1 x2 x5 x6 x7 x8 x9 x10 x11 i) := rfl

def val_main_v42 : (⟨S32768x256, .f32⟩ : BufTy).Contents (Elt F) :=
  mulf (val_main_v41 x0 x1 x2 x5 x6 x7 x8 x9 x10 x11) (x3)
theorem val_main_v42_apply (i : S32768x256.Idx) :
    val_main_v42 x0 x1 x2 x3 x5 x6 x7 x8 x9 x10 x11 i = FloatOps.mulf (val_main_v41 x0 x1 x2 x5 x6 x7 x8 x9 x10 x11 i) (x3 i) := rfl

def val_main_v43 : (⟨S32768x256, .f32⟩ : BufTy).Contents (Elt F) :=
  Host.negf (val_main_v32 x0 x1 x2 x5 x6 x7 x8 x9 x10 x11)
theorem val_main_v43_apply (i : S32768x256.Idx) :
    val_main_v43 x0 x1 x2 x5 x6 x7 x8 x9 x10 x11 i = FloatOps.hostNegf (val_main_v32 x0 x1 x2 x5 x6 x7 x8 x9 x10 x11 i) := rfl

def val_main_v44 : (⟨S32768x256, .f32⟩ : BufTy).Contents (Elt F) :=
  Host.exp (val_main_v43 x0 x1 x2 x5 x6 x7 x8 x9 x10 x11)
theorem val_main_v44_apply (i : S32768x256.Idx) :
    val_main_v44 x0 x1 x2 x5 x6 x7 x8 x9 x10 x11 i = FloatOps.hostUnary .exp (val_main_v43 x0 x1 x2 x5 x6 x7 x8 x9 x10 x11 i) := rfl

def val_main_cst_4 : (⟨S_, .f32⟩ : BufTy).Contents (Elt F) :=
  constant S_ .f32 0x3F800000#32
theorem val_main_cst_4_apply (i : S_.Idx) :
    val_main_cst_4 (F := F) i = FloatOps.ofBits .f32 0x3F800000#32 := rfl

def val_main_v45 : (⟨S32768x256, .f32⟩ : BufTy).Contents (Elt F) :=
  broadcastInDim S32768x256 ![] bcast_S_S32768x256 (val_main_cst_4 (F := F))
abbrev idx_main_v45 (i : S32768x256.Idx) : S_.Idx := fun a => a.elim0
theorem val_main_v45_apply (i : S32768x256.Idx) :
    val_main_v45 (F := F) i = val_main_cst_4 (F := F) (idx_main_v45 i) :=
  broadcastInDim_apply _ _ _ i _ fun a => a.elim0

def val_main_v46 : (⟨S32768x256, .f32⟩ : BufTy).Contents (Elt F) :=
  addf (val_main_v45 (F := F)) (val_main_v44 x0 x1 x2 x5 x6 x7 x8 x9 x10 x11)
theorem val_main_v46_apply (i : S32768x256.Idx) :
    val_main_v46 x0 x1 x2 x5 x6 x7 x8 x9 x10 x11 i = FloatOps.addf (val_main_v45 (F := F) i) (val_main_v44 x0 x1 x2 x5 x6 x7 x8 x9 x10 x11 i) := rfl

def val_main_cst_5 : (⟨S_, .f32⟩ : BufTy).Contents (Elt F) :=
  constant S_ .f32 0x3F800000#32
theorem val_main_cst_5_apply (i : S_.Idx) :
    val_main_cst_5 (F := F) i = FloatOps.ofBits .f32 0x3F800000#32 := rfl

def val_main_v47 : (⟨S32768x256, .f32⟩ : BufTy).Contents (Elt F) :=
  broadcastInDim S32768x256 ![] bcast_S_S32768x256 (val_main_cst_5 (F := F))
abbrev idx_main_v47 (i : S32768x256.Idx) : S_.Idx := fun a => a.elim0
theorem val_main_v47_apply (i : S32768x256.Idx) :
    val_main_v47 (F := F) i = val_main_cst_5 (F := F) (idx_main_v47 i) :=
  broadcastInDim_apply _ _ _ i _ fun a => a.elim0

def val_main_v48 : (⟨S32768x256, .f32⟩ : BufTy).Contents (Elt F) :=
  Host.divf (val_main_v47 (F := F)) (val_main_v46 x0 x1 x2 x5 x6 x7 x8 x9 x10 x11)
theorem val_main_v48_apply (i : S32768x256.Idx) :
    val_main_v48 x0 x1 x2 x5 x6 x7 x8 x9 x10 x11 i = FloatOps.hostDivf (val_main_v47 (F := F) i) (val_main_v46 x0 x1 x2 x5 x6 x7 x8 x9 x10 x11 i) := rfl

def val_main_v49 : (⟨S32768x256, .f32⟩ : BufTy).Contents (Elt F) :=
  Host.tanh (val_main_v34 x0 x1 x2 x5 x6 x7 x8 x9 x10 x11)
theorem val_main_v49_apply (i : S32768x256.Idx) :
    val_main_v49 x0 x1 x2 x5 x6 x7 x8 x9 x10 x11 i = FloatOps.hostUnary .tanh (val_main_v34 x0 x1 x2 x5 x6 x7 x8 x9 x10 x11 i) := rfl

def val_main_v50 : (⟨S32768x256, .f32⟩ : BufTy).Contents (Elt F) :=
  mulf (val_main_v48 x0 x1 x2 x5 x6 x7 x8 x9 x10 x11) (val_main_v49 x0 x1 x2 x5 x6 x7 x8 x9 x10 x11)
theorem val_main_v50_apply (i : S32768x256.Idx) :
    val_main_v50 x0 x1 x2 x5 x6 x7 x8 x9 x10 x11 i = FloatOps.mulf (val_main_v48 x0 x1 x2 x5 x6 x7 x8 x9 x10 x11 i) (val_main_v49 x0 x1 x2 x5 x6 x7 x8 x9 x10 x11 i) := rfl

def val_main_v51 : (⟨S32768x256, .f32⟩ : BufTy).Contents (Elt F) :=
  addf (val_main_v42 x0 x1 x2 x3 x5 x6 x7 x8 x9 x10 x11) (val_main_v50 x0 x1 x2 x5 x6 x7 x8 x9 x10 x11)
theorem val_main_v51_apply (i : S32768x256.Idx) :
    val_main_v51 x0 x1 x2 x3 x5 x6 x7 x8 x9 x10 x11 i = FloatOps.addf (val_main_v42 x0 x1 x2 x3 x5 x6 x7 x8 x9 x10 x11 i) (val_main_v50 x0 x1 x2 x5 x6 x7 x8 x9 x10 x11 i) := rfl

def val_main_v52 : (⟨S32768x256, .f32⟩ : BufTy).Contents (Elt F) :=
  Host.negf (val_main_v35 x0 x1 x2 x5 x6 x7 x8 x9 x10 x11)
theorem val_main_v52_apply (i : S32768x256.Idx) :
    val_main_v52 x0 x1 x2 x5 x6 x7 x8 x9 x10 x11 i = FloatOps.hostNegf (val_main_v35 x0 x1 x2 x5 x6 x7 x8 x9 x10 x11 i) := rfl

def val_main_v53 : (⟨S32768x256, .f32⟩ : BufTy).Contents (Elt F) :=
  Host.exp (val_main_v52 x0 x1 x2 x5 x6 x7 x8 x9 x10 x11)
theorem val_main_v53_apply (i : S32768x256.Idx) :
    val_main_v53 x0 x1 x2 x5 x6 x7 x8 x9 x10 x11 i = FloatOps.hostUnary .exp (val_main_v52 x0 x1 x2 x5 x6 x7 x8 x9 x10 x11 i) := rfl

def val_main_cst_6 : (⟨S_, .f32⟩ : BufTy).Contents (Elt F) :=
  constant S_ .f32 0x3F800000#32
theorem val_main_cst_6_apply (i : S_.Idx) :
    val_main_cst_6 (F := F) i = FloatOps.ofBits .f32 0x3F800000#32 := rfl

def val_main_v54 : (⟨S32768x256, .f32⟩ : BufTy).Contents (Elt F) :=
  broadcastInDim S32768x256 ![] bcast_S_S32768x256 (val_main_cst_6 (F := F))
abbrev idx_main_v54 (i : S32768x256.Idx) : S_.Idx := fun a => a.elim0
theorem val_main_v54_apply (i : S32768x256.Idx) :
    val_main_v54 (F := F) i = val_main_cst_6 (F := F) (idx_main_v54 i) :=
  broadcastInDim_apply _ _ _ i _ fun a => a.elim0

def val_main_v55 : (⟨S32768x256, .f32⟩ : BufTy).Contents (Elt F) :=
  addf (val_main_v54 (F := F)) (val_main_v53 x0 x1 x2 x5 x6 x7 x8 x9 x10 x11)
theorem val_main_v55_apply (i : S32768x256.Idx) :
    val_main_v55 x0 x1 x2 x5 x6 x7 x8 x9 x10 x11 i = FloatOps.addf (val_main_v54 (F := F) i) (val_main_v53 x0 x1 x2 x5 x6 x7 x8 x9 x10 x11 i) := rfl

def val_main_cst_7 : (⟨S_, .f32⟩ : BufTy).Contents (Elt F) :=
  constant S_ .f32 0x3F800000#32
theorem val_main_cst_7_apply (i : S_.Idx) :
    val_main_cst_7 (F := F) i = FloatOps.ofBits .f32 0x3F800000#32 := rfl

def val_main_v56 : (⟨S32768x256, .f32⟩ : BufTy).Contents (Elt F) :=
  broadcastInDim S32768x256 ![] bcast_S_S32768x256 (val_main_cst_7 (F := F))
abbrev idx_main_v56 (i : S32768x256.Idx) : S_.Idx := fun a => a.elim0
theorem val_main_v56_apply (i : S32768x256.Idx) :
    val_main_v56 (F := F) i = val_main_cst_7 (F := F) (idx_main_v56 i) :=
  broadcastInDim_apply _ _ _ i _ fun a => a.elim0

def val_main_v57 : (⟨S32768x256, .f32⟩ : BufTy).Contents (Elt F) :=
  Host.divf (val_main_v56 (F := F)) (val_main_v55 x0 x1 x2 x5 x6 x7 x8 x9 x10 x11)
theorem val_main_v57_apply (i : S32768x256.Idx) :
    val_main_v57 x0 x1 x2 x5 x6 x7 x8 x9 x10 x11 i = FloatOps.hostDivf (val_main_v56 (F := F) i) (val_main_v55 x0 x1 x2 x5 x6 x7 x8 x9 x10 x11 i) := rfl

def val_main_v58 : (⟨S32768x256, .f32⟩ : BufTy).Contents (Elt F) :=
  Host.tanh (val_main_v51 x0 x1 x2 x3 x5 x6 x7 x8 x9 x10 x11)
theorem val_main_v58_apply (i : S32768x256.Idx) :
    val_main_v58 x0 x1 x2 x3 x5 x6 x7 x8 x9 x10 x11 i = FloatOps.hostUnary .tanh (val_main_v51 x0 x1 x2 x3 x5 x6 x7 x8 x9 x10 x11 i) := rfl

def val_main_v59 : (⟨S32768x256, .f32⟩ : BufTy).Contents (Elt F) :=
  mulf (val_main_v57 x0 x1 x2 x5 x6 x7 x8 x9 x10 x11) (val_main_v58 x0 x1 x2 x3 x5 x6 x7 x8 x9 x10 x11)
theorem val_main_v59_apply (i : S32768x256.Idx) :
    val_main_v59 x0 x1 x2 x3 x5 x6 x7 x8 x9 x10 x11 i = FloatOps.mulf (val_main_v57 x0 x1 x2 x5 x6 x7 x8 x9 x10 x11 i) (val_main_v58 x0 x1 x2 x3 x5 x6 x7 x8 x9 x10 x11 i) := rfl

def val_main_v60 : (⟨S32768x512, .f32⟩ : BufTy).Contents (Elt F) :=
  concatenate S32768x512 1 [⟨S32768x256, (val_main_v19 x0 x1 x5 x6 x7)⟩, ⟨S32768x256, (val_main_v59 x0 x1 x2 x3 x5 x6 x7 x8 x9 x10 x11)⟩] concatenates_S32768x256_S32768x256_S32768x512_d1

def val_main_v61 : (⟨S512x512, .f32⟩ : BufTy).Contents (Elt F) :=
  transpose S512x512 [1, 0] (x16) transposes_S512x512_S512x512_1_0
abbrev idx_main_v61 (i : S512x512.Idx) : S512x512.Idx := fun a => match a with
  | ⟨0, _⟩ => ⟨(i 1).val, (i 1).isLt⟩
  | ⟨1, _⟩ => ⟨(i 0).val, (i 0).isLt⟩
theorem val_main_v61_apply (i : S512x512.Idx) :
    val_main_v61 x16 i = x16 (idx_main_v61 i) :=
  transpose_apply _ _ _ i _ (Fin.forall_fin_two.2 ⟨rfl, rfl⟩)

def val_main_v62 : (⟨S32768x512, .f32⟩ : BufTy).Contents (Elt F) :=
  Host.dotGeneral dot_S32768x512_S512x512_S32768x512_1_0_0_1_n_n none (val_main_v60 x0 x1 x2 x3 x5 x6 x7 x8 x9 x10 x11) (val_main_v61 x16)
abbrev lidx_main_v62 (i : S32768x512.Idx) (k : Fin 512) : S32768x512.Idx := fun a => match a with
  | ⟨0, _⟩ => ⟨(i 0).val, (i 0).isLt⟩
  | ⟨1, _⟩ => ⟨k.val, k.isLt⟩
abbrev ridx_main_v62 (i : S32768x512.Idx) (k : Fin 512) : S512x512.Idx := fun a => match a with
  | ⟨0, _⟩ => ⟨k.val, k.isLt⟩
  | ⟨1, _⟩ => ⟨(i 1).val, (i 1).isLt⟩

def val_main_v63 : (⟨S1x512, .f32⟩ : BufTy).Contents (Elt F) :=
  broadcastInDim S1x512 ![1] bcast_S512_S1x512_1 (x17)
abbrev idx_main_v63 (i : S1x512.Idx) : S512.Idx := fun a => match a with
  | ⟨0, _⟩ => ⟨(i 1).val, (i 1).isLt⟩
theorem val_main_v63_apply (i : S1x512.Idx) :
    val_main_v63 x17 i = x17 (idx_main_v63 i) :=
  broadcastInDim_apply _ _ _ i _ (Fin.forall_fin_one.2 rfl)

def val_main_v64 : (⟨S32768x512, .f32⟩ : BufTy).Contents (Elt F) :=
  broadcastInDim S32768x512 ![0, 1] bcast_S1x512_S32768x512_0_1 (val_main_v63 x17)
abbrev idx_main_v64 (i : S32768x512.Idx) : S1x512.Idx := fun a => match a with
  | ⟨0, _⟩ => ⟨0, Nat.one_pos⟩
  | ⟨1, _⟩ => ⟨(i 1).val, (i 1).isLt⟩
theorem val_main_v64_apply (i : S32768x512.Idx) :
    val_main_v64 x17 i = val_main_v63 x17 (idx_main_v64 i) :=
  broadcastInDim_apply _ _ _ i _ (Fin.forall_fin_two.2 ⟨rfl, rfl⟩)

def val_main_v65 : (⟨S32768x512, .f32⟩ : BufTy).Contents (Elt F) :=
  addf (val_main_v62 x0 x1 x2 x3 x5 x6 x7 x8 x9 x10 x11 x16) (val_main_v64 x17)
theorem val_main_v65_apply (i : S32768x512.Idx) :
    val_main_v65 x0 x1 x2 x3 x5 x6 x7 x8 x9 x10 x11 x16 x17 i = FloatOps.addf (val_main_v62 x0 x1 x2 x3 x5 x6 x7 x8 x9 x10 x11 x16 i) (val_main_v64 x17 i) := rfl

def val_main_call0_cst : (⟨S_, .f32⟩ : BufTy).Contents (Elt F) :=
  constant S_ .f32 0x00000000#32
theorem val_main_call0_cst_apply (i : S_.Idx) :
    val_main_call0_cst (F := F) i = FloatOps.ofBits .f32 0x00000000#32 := rfl

def val_main_call0_v0 : (⟨S32768x512, .f32⟩ : BufTy).Contents (Elt F) :=
  broadcastInDim S32768x512 ![] bcast_S_S32768x512 (val_main_call0_cst (F := F))
abbrev idx_main_call0_v0 (i : S32768x512.Idx) : S_.Idx := fun a => a.elim0
theorem val_main_call0_v0_apply (i : S32768x512.Idx) :
    val_main_call0_v0 (F := F) i = val_main_call0_cst (F := F) (idx_main_call0_v0 i) :=
  broadcastInDim_apply _ _ _ i _ fun a => a.elim0

def val_main_v66 : (⟨S32768x512, .f32⟩ : BufTy).Contents (Elt F) :=
  maximumf (val_main_v65 x0 x1 x2 x3 x5 x6 x7 x8 x9 x10 x11 x16 x17) (val_main_call0_v0 (F := F))
theorem val_main_v66_apply (i : S32768x512.Idx) :
    val_main_v66 x0 x1 x2 x3 x5 x6 x7 x8 x9 x10 x11 x16 x17 i = FloatOps.maximumf (val_main_v65 x0 x1 x2 x3 x5 x6 x7 x8 x9 x10 x11 x16 x17 i) (val_main_call0_v0 (F := F) i) := rfl

def val_main_v67 : (⟨S32768x256, .f32⟩ : BufTy).Contents (Elt F) :=
  extractStridedSlice S32768x256 ![0, 0] (val_main_v66 x0 x1 x2 x3 x5 x6 x7 x8 x9 x10 x11 x16 x17) slices_S32768x512_S32768x256_0_0
abbrev idx_main_v67 (i : S32768x256.Idx) : S32768x512.Idx := fun a => match a with
  | ⟨0, _⟩ => ⟨(i 0).val, (i 0).isLt⟩
  | ⟨1, _⟩ => ⟨(i 1).val, by have h1 : (i 1).val < 256 := (i 1).isLt; show (i 1).val < 512; omega⟩
theorem val_main_v67_apply (i : S32768x256.Idx) :
    val_main_v67 x0 x1 x2 x3 x5 x6 x7 x8 x9 x10 x11 x16 x17 i = val_main_v66 x0 x1 x2 x3 x5 x6 x7 x8 x9 x10 x11 x16 x17 (idx_main_v67 i) :=
  extractStridedSlice_apply _ _ _ i _ (fun a => match a with
    | ⟨0, _⟩ => (Nat.zero_add _).symm
    | ⟨1, _⟩ => (Nat.zero_add _).symm)

def val_main_v68 : (⟨S32768x256, .f32⟩ : BufTy).Contents (Elt F) :=
  extractStridedSlice S32768x256 ![0, 256] (val_main_v66 x0 x1 x2 x3 x5 x6 x7 x8 x9 x10 x11 x16 x17) slices_S32768x512_S32768x256_0_256
abbrev idx_main_v68 (i : S32768x256.Idx) : S32768x512.Idx := fun a => match a with
  | ⟨0, _⟩ => ⟨(i 0).val, (i 0).isLt⟩
  | ⟨1, _⟩ => ⟨256 + (i 1).val, by have h1 : (i 1).val < 256 := (i 1).isLt; show 256 + (i 1).val < 512; omega⟩
theorem val_main_v68_apply (i : S32768x256.Idx) :
    val_main_v68 x0 x1 x2 x3 x5 x6 x7 x8 x9 x10 x11 x16 x17 i = val_main_v66 x0 x1 x2 x3 x5 x6 x7 x8 x9 x10 x11 x16 x17 (idx_main_v68 i) :=
  extractStridedSlice_apply _ _ _ i _ (fun a => match a with
    | ⟨0, _⟩ => (Nat.zero_add _).symm
    | ⟨1, _⟩ => rfl)

def val_main_v69 : (⟨S256x256, .f32⟩ : BufTy).Contents (Elt F) :=
  transpose S256x256 [1, 0] (x12) transposes_S256x256_S256x256_1_0
abbrev idx_main_v69 (i : S256x256.Idx) : S256x256.Idx := fun a => match a with
  | ⟨0, _⟩ => ⟨(i 1).val, (i 1).isLt⟩
  | ⟨1, _⟩ => ⟨(i 0).val, (i 0).isLt⟩
theorem val_main_v69_apply (i : S256x256.Idx) :
    val_main_v69 x12 i = x12 (idx_main_v69 i) :=
  transpose_apply _ _ _ i _ (Fin.forall_fin_two.2 ⟨rfl, rfl⟩)

def val_main_v70 : (⟨S32768x256, .f32⟩ : BufTy).Contents (Elt F) :=
  Host.dotGeneral dot_S32768x256_S256x256_S32768x256_1_0_0_1_n_n none (x4) (val_main_v69 x12)
abbrev lidx_main_v70 (i : S32768x256.Idx) (k : Fin 256) : S32768x256.Idx := fun a => match a with
  | ⟨0, _⟩ => ⟨(i 0).val, (i 0).isLt⟩
  | ⟨1, _⟩ => ⟨k.val, k.isLt⟩
abbrev ridx_main_v70 (i : S32768x256.Idx) (k : Fin 256) : S256x256.Idx := fun a => match a with
  | ⟨0, _⟩ => ⟨k.val, k.isLt⟩
  | ⟨1, _⟩ => ⟨(i 1).val, (i 1).isLt⟩

def val_main_v71 : (⟨S1x256, .f32⟩ : BufTy).Contents (Elt F) :=
  broadcastInDim S1x256 ![1] bcast_S256_S1x256_1 (x13)
abbrev idx_main_v71 (i : S1x256.Idx) : S256.Idx := fun a => match a with
  | ⟨0, _⟩ => ⟨(i 1).val, (i 1).isLt⟩
theorem val_main_v71_apply (i : S1x256.Idx) :
    val_main_v71 x13 i = x13 (idx_main_v71 i) :=
  broadcastInDim_apply _ _ _ i _ (Fin.forall_fin_one.2 rfl)

def val_main_v72 : (⟨S32768x256, .f32⟩ : BufTy).Contents (Elt F) :=
  broadcastInDim S32768x256 ![0, 1] bcast_S1x256_S32768x256_0_1 (val_main_v71 x13)
abbrev idx_main_v72 (i : S32768x256.Idx) : S1x256.Idx := fun a => match a with
  | ⟨0, _⟩ => ⟨0, Nat.one_pos⟩
  | ⟨1, _⟩ => ⟨(i 1).val, (i 1).isLt⟩
theorem val_main_v72_apply (i : S32768x256.Idx) :
    val_main_v72 x13 i = val_main_v71 x13 (idx_main_v72 i) :=
  broadcastInDim_apply _ _ _ i _ (Fin.forall_fin_two.2 ⟨rfl, rfl⟩)

def val_main_v73 : (⟨S32768x256, .f32⟩ : BufTy).Contents (Elt F) :=
  addf (val_main_v70 x4 x12) (val_main_v72 x13)
theorem val_main_v73_apply (i : S32768x256.Idx) :
    val_main_v73 x4 x12 x13 i = FloatOps.addf (val_main_v70 x4 x12 i) (val_main_v72 x13 i) := rfl

def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl

def val_main_call1_v0 : (⟨S32768x256, .f32⟩ : BufTy).Contents (Elt F) :=
  broadcastInDim S32768x256 ![] bcast_S_S32768x256 (val_main_call1_cst (F := F))
abbrev idx_main_call1_v0 (i : S32768x256.Idx) : S_.Idx := fun a => a.elim0
theorem val_main_call1_v0_apply (i : S32768x256.Idx) :
    val_main_call1_v0 (F := F) i = val_main_call1_cst (F := F) (idx_main_call1_v0 i) :=
  broadcastInDim_apply _ _ _ i _ fun a => a.elim0

def val_main_v74 : (⟨S32768x256, .f32⟩ : BufTy).Contents (Elt F) :=
  maximumf (val_main_v73 x4 x12 x13) (val_main_call1_v0 (F := F))
theorem val_main_v74_apply (i : S32768x256.Idx) :
    val_main_v74 x4 x12 x13 i = FloatOps.maximumf (val_main_v73 x4 x12 x13 i) (val_main_call1_v0 (F := F) i) := rfl

def val_main_v75 : (⟨S256x256, .f32⟩ : BufTy).Contents (Elt F) :=
  transpose S256x256 [1, 0] (x14) transposes_S256x256_S256x256_1_0
abbrev idx_main_v75 (i : S256x256.Idx) : S256x256.Idx := fun a => match a with
  | ⟨0, _⟩ => ⟨(i 1).val, (i 1).isLt⟩
  | ⟨1, _⟩ => ⟨(i 0).val, (i 0).isLt⟩
theorem val_main_v75_apply (i : S256x256.Idx) :
    val_main_v75 x14 i = x14 (idx_main_v75 i) :=
  transpose_apply _ _ _ i _ (Fin.forall_fin_two.2 ⟨rfl, rfl⟩)

def val_main_v76 : (⟨S32768x256, .f32⟩ : BufTy).Contents (Elt F) :=
  Host.dotGeneral dot_S32768x256_S256x256_S32768x256_1_0_0_1_n_n none (val_main_v67 x0 x1 x2 x3 x5 x6 x7 x8 x9 x10 x11 x16 x17) (val_main_v75 x14)
abbrev lidx_main_v76 (i : S32768x256.Idx) (k : Fin 256) : S32768x256.Idx := fun a => match a with
  | ⟨0, _⟩ => ⟨(i 0).val, (i 0).isLt⟩
  | ⟨1, _⟩ => ⟨k.val, k.isLt⟩
abbrev ridx_main_v76 (i : S32768x256.Idx) (k : Fin 256) : S256x256.Idx := fun a => match a with
  | ⟨0, _⟩ => ⟨k.val, k.isLt⟩
  | ⟨1, _⟩ => ⟨(i 1).val, (i 1).isLt⟩

def val_main_v77 : (⟨S1x256, .f32⟩ : BufTy).Contents (Elt F) :=
  broadcastInDim S1x256 ![1] bcast_S256_S1x256_1 (x15)
abbrev idx_main_v77 (i : S1x256.Idx) : S256.Idx := fun a => match a with
  | ⟨0, _⟩ => ⟨(i 1).val, (i 1).isLt⟩
theorem val_main_v77_apply (i : S1x256.Idx) :
    val_main_v77 x15 i = x15 (idx_main_v77 i) :=
  broadcastInDim_apply _ _ _ i _ (Fin.forall_fin_one.2 rfl)

def val_main_v78 : (⟨S32768x256, .f32⟩ : BufTy).Contents (Elt F) :=
  broadcastInDim S32768x256 ![0, 1] bcast_S1x256_S32768x256_0_1 (val_main_v77 x15)
abbrev idx_main_v78 (i : S32768x256.Idx) : S1x256.Idx := fun a => match a with
  | ⟨0, _⟩ => ⟨0, Nat.one_pos⟩
  | ⟨1, _⟩ => ⟨(i 1).val, (i 1).isLt⟩
theorem val_main_v78_apply (i : S32768x256.Idx) :
    val_main_v78 x15 i = val_main_v77 x15 (idx_main_v78 i) :=
  broadcastInDim_apply _ _ _ i _ (Fin.forall_fin_two.2 ⟨rfl, rfl⟩)

def val_main_v79 : (⟨S32768x256, .f32⟩ : BufTy).Contents (Elt F) :=
  addf (val_main_v76 x0 x1 x2 x3 x5 x6 x7 x8 x9 x10 x11 x14 x16 x17) (val_main_v78 x15)
theorem val_main_v79_apply (i : S32768x256.Idx) :
    val_main_v79 x0 x1 x2 x3 x5 x6 x7 x8 x9 x10 x11 x14 x15 x16 x17 i = FloatOps.addf (val_main_v76 x0 x1 x2 x3 x5 x6 x7 x8 x9 x10 x11 x14 x16 x17 i) (val_main_v78 x15 i) := rfl

def val_main_call2_cst : (⟨S_, .f32⟩ : BufTy).Contents (Elt F) :=
  constant S_ .f32 0x00000000#32
theorem val_main_call2_cst_apply (i : S_.Idx) :
    val_main_call2_cst (F := F) i = FloatOps.ofBits .f32 0x00000000#32 := rfl

def val_main_call2_v0 : (⟨S32768x256, .f32⟩ : BufTy).Contents (Elt F) :=
  broadcastInDim S32768x256 ![] bcast_S_S32768x256 (val_main_call2_cst (F := F))
abbrev idx_main_call2_v0 (i : S32768x256.Idx) : S_.Idx := fun a => a.elim0
theorem val_main_call2_v0_apply (i : S32768x256.Idx) :
    val_main_call2_v0 (F := F) i = val_main_call2_cst (F := F) (idx_main_call2_v0 i) :=
  broadcastInDim_apply _ _ _ i _ fun a => a.elim0

def val_main_v80 : (⟨S32768x256, .f32⟩ : BufTy).Contents (Elt F) :=
  maximumf (val_main_v79 x0 x1 x2 x3 x5 x6 x7 x8 x9 x10 x11 x14 x15 x16 x17) (val_main_call2_v0 (F := F))
theorem val_main_v80_apply (i : S32768x256.Idx) :
    val_main_v80 x0 x1 x2 x3 x5 x6 x7 x8 x9 x10 x11 x14 x15 x16 x17 i = FloatOps.maximumf (val_main_v79 x0 x1 x2 x3 x5 x6 x7 x8 x9 x10 x11 x14 x15 x16 x17 i) (val_main_call2_v0 (F := F) i) := rfl

def val_main_v81 : (⟨S32768x256, .f32⟩ : BufTy).Contents (Elt F) :=
  addf (val_main_v74 x4 x12 x13) (val_main_v80 x0 x1 x2 x3 x5 x6 x7 x8 x9 x10 x11 x14 x15 x16 x17)
theorem val_main_v81_apply (i : S32768x256.Idx) :
    val_main_v81 x0 x1 x2 x3 x4 x5 x6 x7 x8 x9 x10 x11 x12 x13 x14 x15 x16 x17 i = FloatOps.addf (val_main_v74 x4 x12 x13 i) (val_main_v80 x0 x1 x2 x3 x5 x6 x7 x8 x9 x10 x11 x14 x15 x16 x17 i) := rfl

def val_main_v82 : (⟨S32768x256, .f32⟩ : BufTy).Contents (Elt F) :=
  Host.tanh (val_main_v81 x0 x1 x2 x3 x4 x5 x6 x7 x8 x9 x10 x11 x12 x13 x14 x15 x16 x17)
theorem val_main_v82_apply (i : S32768x256.Idx) :
    val_main_v82 x0 x1 x2 x3 x4 x5 x6 x7 x8 x9 x10 x11 x12 x13 x14 x15 x16 x17 i = FloatOps.hostUnary .tanh (val_main_v81 x0 x1 x2 x3 x4 x5 x6 x7 x8 x9 x10 x11 x12 x13 x14 x15 x16 x17 i) := rfl

def val_main_v83 : (⟨S32768x256, .f32⟩ : BufTy).Contents (Elt F) :=
  mulf (val_main_v82 x0 x1 x2 x3 x4 x5 x6 x7 x8 x9 x10 x11 x12 x13 x14 x15 x16 x17) (val_main_v68 x0 x1 x2 x3 x5 x6 x7 x8 x9 x10 x11 x16 x17)
theorem val_main_v83_apply (i : S32768x256.Idx) :
    val_main_v83 x0 x1 x2 x3 x4 x5 x6 x7 x8 x9 x10 x11 x12 x13 x14 x15 x16 x17 i = FloatOps.mulf (val_main_v82 x0 x1 x2 x3 x4 x5 x6 x7 x8 x9 x10 x11 x12 x13 x14 x15 x16 x17 i) (val_main_v68 x0 x1 x2 x3 x5 x6 x7 x8 x9 x10 x11 x16 x17 i) := rfl

def val_main_v84 : (⟨S32768x512, .f32⟩ : BufTy).Contents (Elt F) :=
  concatenate S32768x512 1 [⟨S32768x256, (val_main_v83 x0 x1 x2 x3 x4 x5 x6 x7 x8 x9 x10 x11 x12 x13 x14 x15 x16 x17)⟩, ⟨S32768x256, (val_main_v59 x0 x1 x2 x3 x5 x6 x7 x8 x9 x10 x11)⟩] concatenates_S32768x256_S32768x256_S32768x512_d1

def val_main_v85 : (⟨S512x256, .f32⟩ : BufTy).Contents (Elt F) :=
  transpose S512x256 [1, 0] (x18) transposes_S256x512_S512x256_1_0
abbrev idx_main_v85 (i : S512x256.Idx) : S256x512.Idx := fun a => match a with
  | ⟨0, _⟩ => ⟨(i 1).val, (i 1).isLt⟩
  | ⟨1, _⟩ => ⟨(i 0).val, (i 0).isLt⟩
theorem val_main_v85_apply (i : S512x256.Idx) :
    val_main_v85 x18 i = x18 (idx_main_v85 i) :=
  transpose_apply _ _ _ i _ (Fin.forall_fin_two.2 ⟨rfl, rfl⟩)

def val_main_v86 : (⟨S32768x256, .f32⟩ : BufTy).Contents (Elt F) :=
  Host.dotGeneral dot_S32768x512_S512x256_S32768x256_1_0_0_1_n_n none (val_main_v84 x0 x1 x2 x3 x4 x5 x6 x7 x8 x9 x10 x11 x12 x13 x14 x15 x16 x17) (val_main_v85 x18)
abbrev lidx_main_v86 (i : S32768x256.Idx) (k : Fin 512) : S32768x512.Idx := fun a => match a with
  | ⟨0, _⟩ => ⟨(i 0).val, (i 0).isLt⟩
  | ⟨1, _⟩ => ⟨k.val, k.isLt⟩
abbrev ridx_main_v86 (i : S32768x256.Idx) (k : Fin 512) : S512x256.Idx := fun a => match a with
  | ⟨0, _⟩ => ⟨k.val, k.isLt⟩
  | ⟨1, _⟩ => ⟨(i 1).val, (i 1).isLt⟩

def val_main_v87 : (⟨S1x256, .f32⟩ : BufTy).Contents (Elt F) :=
  broadcastInDim S1x256 ![1] bcast_S256_S1x256_1 (x19)
abbrev idx_main_v87 (i : S1x256.Idx) : S256.Idx := fun a => match a with
  | ⟨0, _⟩ => ⟨(i 1).val, (i 1).isLt⟩
theorem val_main_v87_apply (i : S1x256.Idx) :
    val_main_v87 x19 i = x19 (idx_main_v87 i) :=
  broadcastInDim_apply _ _ _ i _ (Fin.forall_fin_one.2 rfl)

def val_main_v88 : (⟨S32768x256, .f32⟩ : BufTy).Contents (Elt F) :=
  broadcastInDim S32768x256 ![0, 1] bcast_S1x256_S32768x256_0_1 (val_main_v87 x19)
abbrev idx_main_v88 (i : S32768x256.Idx) : S1x256.Idx := fun a => match a with
  | ⟨0, _⟩ => ⟨0, Nat.one_pos⟩
  | ⟨1, _⟩ => ⟨(i 1).val, (i 1).isLt⟩
theorem val_main_v88_apply (i : S32768x256.Idx) :
    val_main_v88 x19 i = val_main_v87 x19 (idx_main_v88 i) :=
  broadcastInDim_apply _ _ _ i _ (Fin.forall_fin_two.2 ⟨rfl, rfl⟩)

def val_main_v89 : (⟨S32768x256, .f32⟩ : BufTy).Contents (Elt F) :=
  addf (val_main_v86 x0 x1 x2 x3 x4 x5 x6 x7 x8 x9 x10 x11 x12 x13 x14 x15 x16 x17 x18) (val_main_v88 x19)
theorem val_main_v89_apply (i : S32768x256.Idx) :
    val_main_v89 x0 x1 x2 x3 x4 x5 x6 x7 x8 x9 x10 x11 x12 x13 x14 x15 x16 x17 x18 x19 i = FloatOps.addf (val_main_v86 x0 x1 x2 x3 x4 x5 x6 x7 x8 x9 x10 x11 x12 x13 x14 x15 x16 x17 x18 i) (val_main_v88 x19 i) := rfl

def val_main_call3_cst : (⟨S_, .f32⟩ : BufTy).Contents (Elt F) :=
  constant S_ .f32 0x00000000#32
theorem val_main_call3_cst_apply (i : S_.Idx) :
    val_main_call3_cst (F := F) i = FloatOps.ofBits .f32 0x00000000#32 := rfl

def val_main_call3_v0 : (⟨S32768x256, .f32⟩ : BufTy).Contents (Elt F) :=
  broadcastInDim S32768x256 ![] bcast_S_S32768x256 (val_main_call3_cst (F := F))
abbrev idx_main_call3_v0 (i : S32768x256.Idx) : S_.Idx := fun a => a.elim0
theorem val_main_call3_v0_apply (i : S32768x256.Idx) :
    val_main_call3_v0 (F := F) i = val_main_call3_cst (F := F) (idx_main_call3_v0 i) :=
  broadcastInDim_apply _ _ _ i _ fun a => a.elim0

def val_main_v90 : (⟨S32768x256, .f32⟩ : BufTy).Contents (Elt F) :=
  maximumf (val_main_v89 x0 x1 x2 x3 x4 x5 x6 x7 x8 x9 x10 x11 x12 x13 x14 x15 x16 x17 x18 x19) (val_main_call3_v0 (F := F))
theorem val_main_v90_apply (i : S32768x256.Idx) :
    val_main_v90 x0 x1 x2 x3 x4 x5 x6 x7 x8 x9 x10 x11 x12 x13 x14 x15 x16 x17 x18 x19 i = FloatOps.maximumf (val_main_v89 x0 x1 x2 x3 x4 x5 x6 x7 x8 x9 x10 x11 x12 x13 x14 x15 x16 x17 x18 x19 i) (val_main_call3_v0 (F := F) i) := rfl

def val_main_v91 : (⟨S256x128, .f32⟩ : BufTy).Contents (Elt F) :=
  transpose S256x128 [1, 0] (x20) transposes_S128x256_S256x128_1_0
abbrev idx_main_v91 (i : S256x128.Idx) : S128x256.Idx := fun a => match a with
  | ⟨0, _⟩ => ⟨(i 1).val, (i 1).isLt⟩
  | ⟨1, _⟩ => ⟨(i 0).val, (i 0).isLt⟩
theorem val_main_v91_apply (i : S256x128.Idx) :
    val_main_v91 x20 i = x20 (idx_main_v91 i) :=
  transpose_apply _ _ _ i _ (Fin.forall_fin_two.2 ⟨rfl, rfl⟩)

def val_main_v92 : (⟨S32768x128, .f32⟩ : BufTy).Contents (Elt F) :=
  Host.dotGeneral dot_S32768x256_S256x128_S32768x128_1_0_0_1_n_n none (val_main_v90 x0 x1 x2 x3 x4 x5 x6 x7 x8 x9 x10 x11 x12 x13 x14 x15 x16 x17 x18 x19) (val_main_v91 x20)
abbrev lidx_main_v92 (i : S32768x128.Idx) (k : Fin 256) : S32768x256.Idx := fun a => match a with
  | ⟨0, _⟩ => ⟨(i 0).val, (i 0).isLt⟩
  | ⟨1, _⟩ => ⟨k.val, k.isLt⟩
abbrev ridx_main_v92 (i : S32768x128.Idx) (k : Fin 256) : S256x128.Idx := fun a => match a with
  | ⟨0, _⟩ => ⟨k.val, k.isLt⟩
  | ⟨1, _⟩ => ⟨(i 1).val, (i 1).isLt⟩

def val_main_v93 : (⟨S1x128, .f32⟩ : BufTy).Contents (Elt F) :=
  broadcastInDim S1x128 ![1] bcast_S128_S1x128_1 (x21)
abbrev idx_main_v93 (i : S1x128.Idx) : S128.Idx := fun a => match a with
  | ⟨0, _⟩ => ⟨(i 1).val, (i 1).isLt⟩
theorem val_main_v93_apply (i : S1x128.Idx) :
    val_main_v93 x21 i = x21 (idx_main_v93 i) :=
  broadcastInDim_apply _ _ _ i _ (Fin.forall_fin_one.2 rfl)

def val_main_v94 : (⟨S32768x128, .f32⟩ : BufTy).Contents (Elt F) :=
  broadcastInDim S32768x128 ![0, 1] bcast_S1x128_S32768x128_0_1 (val_main_v93 x21)
abbrev idx_main_v94 (i : S32768x128.Idx) : S1x128.Idx := fun a => match a with
  | ⟨0, _⟩ => ⟨0, Nat.one_pos⟩
  | ⟨1, _⟩ => ⟨(i 1).val, (i 1).isLt⟩
theorem val_main_v94_apply (i : S32768x128.Idx) :
    val_main_v94 x21 i = val_main_v93 x21 (idx_main_v94 i) :=
  broadcastInDim_apply _ _ _ i _ (Fin.forall_fin_two.2 ⟨rfl, rfl⟩)

def val_main_v95 : (⟨S32768x128, .f32⟩ : BufTy).Contents (Elt F) :=
  addf (val_main_v92 x0 x1 x2 x3 x4 x5 x6 x7 x8 x9 x10 x11 x12 x13 x14 x15 x16 x17 x18 x19 x20) (val_main_v94 x21)
theorem val_main_v95_apply (i : S32768x128.Idx) :
    val_main_v95 x0 x1 x2 x3 x4 x5 x6 x7 x8 x9 x10 x11 x12 x13 x14 x15 x16 x17 x18 x19 x20 x21 i = FloatOps.addf (val_main_v92 x0 x1 x2 x3 x4 x5 x6 x7 x8 x9 x10 x11 x12 x13 x14 x15 x16 x17 x18 x19 x20 i) (val_main_v94 x21 i) := rfl

def val_main_call4_cst : (⟨S_, .f32⟩ : BufTy).Contents (Elt F) :=
  constant S_ .f32 0x00000000#32
theorem val_main_call4_cst_apply (i : S_.Idx) :
    val_main_call4_cst (F := F) i = FloatOps.ofBits .f32 0x00000000#32 := rfl

def val_main_call4_v0 : (⟨S32768x128, .f32⟩ : BufTy).Contents (Elt F) :=
  broadcastInDim S32768x128 ![] bcast_S_S32768x128 (val_main_call4_cst (F := F))
abbrev idx_main_call4_v0 (i : S32768x128.Idx) : S_.Idx := fun a => a.elim0
theorem val_main_call4_v0_apply (i : S32768x128.Idx) :
    val_main_call4_v0 (F := F) i = val_main_call4_cst (F := F) (idx_main_call4_v0 i) :=
  broadcastInDim_apply _ _ _ i _ fun a => a.elim0

def val_main_v96 : (⟨S32768x128, .f32⟩ : BufTy).Contents (Elt F) :=
  maximumf (val_main_v95 x0 x1 x2 x3 x4 x5 x6 x7 x8 x9 x10 x11 x12 x13 x14 x15 x16 x17 x18 x19 x20 x21) (val_main_call4_v0 (F := F))
theorem val_main_v96_apply (i : S32768x128.Idx) :
    val_main_v96 x0 x1 x2 x3 x4 x5 x6 x7 x8 x9 x10 x11 x12 x13 x14 x15 x16 x17 x18 x19 x20 x21 i = FloatOps.maximumf (val_main_v95 x0 x1 x2 x3 x4 x5 x6 x7 x8 x9 x10 x11 x12 x13 x14 x15 x16 x17 x18 x19 x20 x21 i) (val_main_call4_v0 (F := F) i) := rfl

def val_main_v97 : (⟨S128x64, .f32⟩ : BufTy).Contents (Elt F) :=
  transpose S128x64 [1, 0] (x22) transposes_S64x128_S128x64_1_0
abbrev idx_main_v97 (i : S128x64.Idx) : S64x128.Idx := fun a => match a with
  | ⟨0, _⟩ => ⟨(i 1).val, (i 1).isLt⟩
  | ⟨1, _⟩ => ⟨(i 0).val, (i 0).isLt⟩
theorem val_main_v97_apply (i : S128x64.Idx) :
    val_main_v97 x22 i = x22 (idx_main_v97 i) :=
  transpose_apply _ _ _ i _ (Fin.forall_fin_two.2 ⟨rfl, rfl⟩)

def val_main_v98 : (⟨S32768x64, .f32⟩ : BufTy).Contents (Elt F) :=
  Host.dotGeneral dot_S32768x128_S128x64_S32768x64_1_0_0_1_n_n none (val_main_v96 x0 x1 x2 x3 x4 x5 x6 x7 x8 x9 x10 x11 x12 x13 x14 x15 x16 x17 x18 x19 x20 x21) (val_main_v97 x22)
abbrev lidx_main_v98 (i : S32768x64.Idx) (k : Fin 128) : S32768x128.Idx := fun a => match a with
  | ⟨0, _⟩ => ⟨(i 0).val, (i 0).isLt⟩
  | ⟨1, _⟩ => ⟨k.val, k.isLt⟩
abbrev ridx_main_v98 (i : S32768x64.Idx) (k : Fin 128) : S128x64.Idx := fun a => match a with
  | ⟨0, _⟩ => ⟨k.val, k.isLt⟩
  | ⟨1, _⟩ => ⟨(i 1).val, (i 1).isLt⟩

def val_main_v99 : (⟨S1x64, .f32⟩ : BufTy).Contents (Elt F) :=
  broadcastInDim S1x64 ![1] bcast_S64_S1x64_1 (x23)
abbrev idx_main_v99 (i : S1x64.Idx) : S64.Idx := fun a => match a with
  | ⟨0, _⟩ => ⟨(i 1).val, (i 1).isLt⟩
theorem val_main_v99_apply (i : S1x64.Idx) :
    val_main_v99 x23 i = x23 (idx_main_v99 i) :=
  broadcastInDim_apply _ _ _ i _ (Fin.forall_fin_one.2 rfl)

def val_main_v100 : (⟨S32768x64, .f32⟩ : BufTy).Contents (Elt F) :=
  broadcastInDim S32768x64 ![0, 1] bcast_S1x64_S32768x64_0_1 (val_main_v99 x23)
abbrev idx_main_v100 (i : S32768x64.Idx) : S1x64.Idx := fun a => match a with
  | ⟨0, _⟩ => ⟨0, Nat.one_pos⟩
  | ⟨1, _⟩ => ⟨(i 1).val, (i 1).isLt⟩
theorem val_main_v100_apply (i : S32768x64.Idx) :
    val_main_v100 x23 i = val_main_v99 x23 (idx_main_v100 i) :=
  broadcastInDim_apply _ _ _ i _ (Fin.forall_fin_two.2 ⟨rfl, rfl⟩)

def val_main_v101 : (⟨S32768x64, .f32⟩ : BufTy).Contents (Elt F) :=
  addf (val_main_v98 x0 x1 x2 x3 x4 x5 x6 x7 x8 x9 x10 x11 x12 x13 x14 x15 x16 x17 x18 x19 x20 x21 x22) (val_main_v100 x23)
theorem val_main_v101_apply (i : S32768x64.Idx) :
    val_main_v101 x0 x1 x2 x3 x4 x5 x6 x7 x8 x9 x10 x11 x12 x13 x14 x15 x16 x17 x18 x19 x20 x21 x22 x23 i = FloatOps.addf (val_main_v98 x0 x1 x2 x3 x4 x5 x6 x7 x8 x9 x10 x11 x12 x13 x14 x15 x16 x17 x18 x19 x20 x21 x22 i) (val_main_v100 x23 i) := rfl

def val_main_call5_cst : (⟨S_, .f32⟩ : BufTy).Contents (Elt F) :=
  constant S_ .f32 0x00000000#32
theorem val_main_call5_cst_apply (i : S_.Idx) :
    val_main_call5_cst (F := F) i = FloatOps.ofBits .f32 0x00000000#32 := rfl

def val_main_call5_v0 : (⟨S32768x64, .f32⟩ : BufTy).Contents (Elt F) :=
  broadcastInDim S32768x64 ![] bcast_S_S32768x64 (val_main_call5_cst (F := F))
abbrev idx_main_call5_v0 (i : S32768x64.Idx) : S_.Idx := fun a => a.elim0
theorem val_main_call5_v0_apply (i : S32768x64.Idx) :
    val_main_call5_v0 (F := F) i = val_main_call5_cst (F := F) (idx_main_call5_v0 i) :=
  broadcastInDim_apply _ _ _ i _ fun a => a.elim0

def val_main_v102 : (⟨S32768x64, .f32⟩ : BufTy).Contents (Elt F) :=
  maximumf (val_main_v101 x0 x1 x2 x3 x4 x5 x6 x7 x8 x9 x10 x11 x12 x13 x14 x15 x16 x17 x18 x19 x20 x21 x22 x23) (val_main_call5_v0 (F := F))
theorem val_main_v102_apply (i : S32768x64.Idx) :
    val_main_v102 x0 x1 x2 x3 x4 x5 x6 x7 x8 x9 x10 x11 x12 x13 x14 x15 x16 x17 x18 x19 x20 x21 x22 x23 i = FloatOps.maximumf (val_main_v101 x0 x1 x2 x3 x4 x5 x6 x7 x8 x9 x10 x11 x12 x13 x14 x15 x16 x17 x18 x19 x20 x21 x22 x23 i) (val_main_call5_v0 (F := F) i) := rfl

def val_main_v103 : (⟨S256x64, .f32⟩ : BufTy).Contents (Elt F) :=
  transpose S256x64 [1, 0] (x26) transposes_S64x256_S256x64_1_0
abbrev idx_main_v103 (i : S256x64.Idx) : S64x256.Idx := fun a => match a with
  | ⟨0, _⟩ => ⟨(i 1).val, (i 1).isLt⟩
  | ⟨1, _⟩ => ⟨(i 0).val, (i 0).isLt⟩
theorem val_main_v103_apply (i : S256x64.Idx) :
    val_main_v103 x26 i = x26 (idx_main_v103 i) :=
  transpose_apply _ _ _ i _ (Fin.forall_fin_two.2 ⟨rfl, rfl⟩)

def val_main_v104 : (⟨S32768x64, .f32⟩ : BufTy).Contents (Elt F) :=
  Host.dotGeneral dot_S32768x256_S256x64_S32768x64_1_0_0_1_n_n none (val_main_v90 x0 x1 x2 x3 x4 x5 x6 x7 x8 x9 x10 x11 x12 x13 x14 x15 x16 x17 x18 x19) (val_main_v103 x26)
abbrev lidx_main_v104 (i : S32768x64.Idx) (k : Fin 256) : S32768x256.Idx := fun a => match a with
  | ⟨0, _⟩ => ⟨(i 0).val, (i 0).isLt⟩
  | ⟨1, _⟩ => ⟨k.val, k.isLt⟩
abbrev ridx_main_v104 (i : S32768x64.Idx) (k : Fin 256) : S256x64.Idx := fun a => match a with
  | ⟨0, _⟩ => ⟨k.val, k.isLt⟩
  | ⟨1, _⟩ => ⟨(i 1).val, (i 1).isLt⟩

def val_main_v105 : (⟨S1x64, .f32⟩ : BufTy).Contents (Elt F) :=
  broadcastInDim S1x64 ![1] bcast_S64_S1x64_1 (x27)
abbrev idx_main_v105 (i : S1x64.Idx) : S64.Idx := fun a => match a with
  | ⟨0, _⟩ => ⟨(i 1).val, (i 1).isLt⟩
theorem val_main_v105_apply (i : S1x64.Idx) :
    val_main_v105 x27 i = x27 (idx_main_v105 i) :=
  broadcastInDim_apply _ _ _ i _ (Fin.forall_fin_one.2 rfl)

def val_main_v106 : (⟨S32768x64, .f32⟩ : BufTy).Contents (Elt F) :=
  broadcastInDim S32768x64 ![0, 1] bcast_S1x64_S32768x64_0_1 (val_main_v105 x27)
abbrev idx_main_v106 (i : S32768x64.Idx) : S1x64.Idx := fun a => match a with
  | ⟨0, _⟩ => ⟨0, Nat.one_pos⟩
  | ⟨1, _⟩ => ⟨(i 1).val, (i 1).isLt⟩
theorem val_main_v106_apply (i : S32768x64.Idx) :
    val_main_v106 x27 i = val_main_v105 x27 (idx_main_v106 i) :=
  broadcastInDim_apply _ _ _ i _ (Fin.forall_fin_two.2 ⟨rfl, rfl⟩)

def val_main_v107 : (⟨S32768x64, .f32⟩ : BufTy).Contents (Elt F) :=
  addf (val_main_v104 x0 x1 x2 x3 x4 x5 x6 x7 x8 x9 x10 x11 x12 x13 x14 x15 x16 x17 x18 x19 x26) (val_main_v106 x27)
theorem val_main_v107_apply (i : S32768x64.Idx) :
    val_main_v107 x0 x1 x2 x3 x4 x5 x6 x7 x8 x9 x10 x11 x12 x13 x14 x15 x16 x17 x18 x19 x26 x27 i = FloatOps.addf (val_main_v104 x0 x1 x2 x3 x4 x5 x6 x7 x8 x9 x10 x11 x12 x13 x14 x15 x16 x17 x18 x19 x26 i) (val_main_v106 x27 i) := rfl

def val_main_call6_cst : (⟨S_, .f32⟩ : BufTy).Contents (Elt F) :=
  constant S_ .f32 0x00000000#32
theorem val_main_call6_cst_apply (i : S_.Idx) :
    val_main_call6_cst (F := F) i = FloatOps.ofBits .f32 0x00000000#32 := rfl

def val_main_call6_v0 : (⟨S32768x64, .f32⟩ : BufTy).Contents (Elt F) :=
  broadcastInDim S32768x64 ![] bcast_S_S32768x64 (val_main_call6_cst (F := F))
abbrev idx_main_call6_v0 (i : S32768x64.Idx) : S_.Idx := fun a => a.elim0
theorem val_main_call6_v0_apply (i : S32768x64.Idx) :
    val_main_call6_v0 (F := F) i = val_main_call6_cst (F := F) (idx_main_call6_v0 i) :=
  broadcastInDim_apply _ _ _ i _ fun a => a.elim0

def val_main_v108 : (⟨S32768x64, .f32⟩ : BufTy).Contents (Elt F) :=
  maximumf (val_main_v107 x0 x1 x2 x3 x4 x5 x6 x7 x8 x9 x10 x11 x12 x13 x14 x15 x16 x17 x18 x19 x26 x27) (val_main_call6_v0 (F := F))
theorem val_main_v108_apply (i : S32768x64.Idx) :
    val_main_v108 x0 x1 x2 x3 x4 x5 x6 x7 x8 x9 x10 x11 x12 x13 x14 x15 x16 x17 x18 x19 x26 x27 i = FloatOps.maximumf (val_main_v107 x0 x1 x2 x3 x4 x5 x6 x7 x8 x9 x10 x11 x12 x13 x14 x15 x16 x17 x18 x19 x26 x27 i) (val_main_call6_v0 (F := F) i) := rfl

def val_main_v109 : (⟨S64x32, .f32⟩ : BufTy).Contents (Elt F) :=
  transpose S64x32 [1, 0] (x28) transposes_S32x64_S64x32_1_0
abbrev idx_main_v109 (i : S64x32.Idx) : S32x64.Idx := fun a => match a with
  | ⟨0, _⟩ => ⟨(i 1).val, (i 1).isLt⟩
  | ⟨1, _⟩ => ⟨(i 0).val, (i 0).isLt⟩
theorem val_main_v109_apply (i : S64x32.Idx) :
    val_main_v109 x28 i = x28 (idx_main_v109 i) :=
  transpose_apply _ _ _ i _ (Fin.forall_fin_two.2 ⟨rfl, rfl⟩)

def val_main_v110 : (⟨S32768x32, .f32⟩ : BufTy).Contents (Elt F) :=
  Host.dotGeneral dot_S32768x64_S64x32_S32768x32_1_0_0_1_n_n none (val_main_v108 x0 x1 x2 x3 x4 x5 x6 x7 x8 x9 x10 x11 x12 x13 x14 x15 x16 x17 x18 x19 x26 x27) (val_main_v109 x28)
abbrev lidx_main_v110 (i : S32768x32.Idx) (k : Fin 64) : S32768x64.Idx := fun a => match a with
  | ⟨0, _⟩ => ⟨(i 0).val, (i 0).isLt⟩
  | ⟨1, _⟩ => ⟨k.val, k.isLt⟩
abbrev ridx_main_v110 (i : S32768x32.Idx) (k : Fin 64) : S64x32.Idx := fun a => match a with
  | ⟨0, _⟩ => ⟨k.val, k.isLt⟩
  | ⟨1, _⟩ => ⟨(i 1).val, (i 1).isLt⟩

def val_main_v111 : (⟨S1x32, .f32⟩ : BufTy).Contents (Elt F) :=
  broadcastInDim S1x32 ![1] bcast_S32_S1x32_1 (x29)
abbrev idx_main_v111 (i : S1x32.Idx) : S32.Idx := fun a => match a with
  | ⟨0, _⟩ => ⟨(i 1).val, (i 1).isLt⟩
theorem val_main_v111_apply (i : S1x32.Idx) :
    val_main_v111 x29 i = x29 (idx_main_v111 i) :=
  broadcastInDim_apply _ _ _ i _ (Fin.forall_fin_one.2 rfl)

def val_main_v112 : (⟨S32768x32, .f32⟩ : BufTy).Contents (Elt F) :=
  broadcastInDim S32768x32 ![0, 1] bcast_S1x32_S32768x32_0_1 (val_main_v111 x29)
abbrev idx_main_v112 (i : S32768x32.Idx) : S1x32.Idx := fun a => match a with
  | ⟨0, _⟩ => ⟨0, Nat.one_pos⟩
  | ⟨1, _⟩ => ⟨(i 1).val, (i 1).isLt⟩
theorem val_main_v112_apply (i : S32768x32.Idx) :
    val_main_v112 x29 i = val_main_v111 x29 (idx_main_v112 i) :=
  broadcastInDim_apply _ _ _ i _ (Fin.forall_fin_two.2 ⟨rfl, rfl⟩)

def val_main_v113 : (⟨S32768x32, .f32⟩ : BufTy).Contents (Elt F) :=
  addf (val_main_v110 x0 x1 x2 x3 x4 x5 x6 x7 x8 x9 x10 x11 x12 x13 x14 x15 x16 x17 x18 x19 x26 x27 x28) (val_main_v112 x29)
theorem val_main_v113_apply (i : S32768x32.Idx) :
    val_main_v113 x0 x1 x2 x3 x4 x5 x6 x7 x8 x9 x10 x11 x12 x13 x14 x15 x16 x17 x18 x19 x26 x27 x28 x29 i = FloatOps.addf (val_main_v110 x0 x1 x2 x3 x4 x5 x6 x7 x8 x9 x10 x11 x12 x13 x14 x15 x16 x17 x18 x19 x26 x27 x28 i) (val_main_v112 x29 i) := rfl

def val_main_call7_cst : (⟨S_, .f32⟩ : BufTy).Contents (Elt F) :=
  constant S_ .f32 0x00000000#32
theorem val_main_call7_cst_apply (i : S_.Idx) :
    val_main_call7_cst (F := F) i = FloatOps.ofBits .f32 0x00000000#32 := rfl

def val_main_call7_v0 : (⟨S32768x32, .f32⟩ : BufTy).Contents (Elt F) :=
  broadcastInDim S32768x32 ![] bcast_S_S32768x32 (val_main_call7_cst (F := F))
abbrev idx_main_call7_v0 (i : S32768x32.Idx) : S_.Idx := fun a => a.elim0
theorem val_main_call7_v0_apply (i : S32768x32.Idx) :
    val_main_call7_v0 (F := F) i = val_main_call7_cst (F := F) (idx_main_call7_v0 i) :=
  broadcastInDim_apply _ _ _ i _ fun a => a.elim0

def val_main_v114 : (⟨S32768x32, .f32⟩ : BufTy).Contents (Elt F) :=
  maximumf (val_main_v113 x0 x1 x2 x3 x4 x5 x6 x7 x8 x9 x10 x11 x12 x13 x14 x15 x16 x17 x18 x19 x26 x27 x28 x29) (val_main_call7_v0 (F := F))
theorem val_main_v114_apply (i : S32768x32.Idx) :
    val_main_v114 x0 x1 x2 x3 x4 x5 x6 x7 x8 x9 x10 x11 x12 x13 x14 x15 x16 x17 x18 x19 x26 x27 x28 x29 i = FloatOps.maximumf (val_main_v113 x0 x1 x2 x3 x4 x5 x6 x7 x8 x9 x10 x11 x12 x13 x14 x15 x16 x17 x18 x19 x26 x27 x28 x29 i) (val_main_call7_v0 (F := F) i) := rfl

def val_main_v115 : (⟨S32x1, .f32⟩ : BufTy).Contents (Elt F) :=
  transpose S32x1 [1, 0] (x30) transposes_S1x32_S32x1_1_0
abbrev idx_main_v115 (i : S32x1.Idx) : S1x32.Idx := fun a => match a with
  | ⟨0, _⟩ => ⟨(i 1).val, (i 1).isLt⟩
  | ⟨1, _⟩ => ⟨(i 0).val, (i 0).isLt⟩
theorem val_main_v115_apply (i : S32x1.Idx) :
    val_main_v115 x30 i = x30 (idx_main_v115 i) :=
  transpose_apply _ _ _ i _ (Fin.forall_fin_two.2 ⟨rfl, rfl⟩)

def val_main_v116 : (⟨S32768x1, .f32⟩ : BufTy).Contents (Elt F) :=
  Host.dotGeneral dot_S32768x32_S32x1_S32768x1_1_0_0_1_n_n none (val_main_v114 x0 x1 x2 x3 x4 x5 x6 x7 x8 x9 x10 x11 x12 x13 x14 x15 x16 x17 x18 x19 x26 x27 x28 x29) (val_main_v115 x30)
abbrev lidx_main_v116 (i : S32768x1.Idx) (k : Fin 32) : S32768x32.Idx := fun a => match a with
  | ⟨0, _⟩ => ⟨(i 0).val, (i 0).isLt⟩
  | ⟨1, _⟩ => ⟨k.val, k.isLt⟩
abbrev ridx_main_v116 (i : S32768x1.Idx) (k : Fin 32) : S32x1.Idx := fun a => match a with
  | ⟨0, _⟩ => ⟨k.val, k.isLt⟩
  | ⟨1, _⟩ => ⟨(i 1).val, (i 1).isLt⟩

def val_main_v117 : (⟨S1x1, .f32⟩ : BufTy).Contents (Elt F) :=
  broadcastInDim S1x1 ![1] bcast_S1_S1x1_1 (x31)
abbrev idx_main_v117 (i : S1x1.Idx) : S1.Idx := fun a => match a with
  | ⟨0, _⟩ => ⟨0, Nat.one_pos⟩
theorem val_main_v117_apply (i : S1x1.Idx) :
    val_main_v117 x31 i = x31 (idx_main_v117 i) :=
  broadcastInDim_apply _ _ _ i _ (Fin.forall_fin_one.2 rfl)

def val_main_v118 : (⟨S32768x1, .f32⟩ : BufTy).Contents (Elt F) :=
  broadcastInDim S32768x1 ![0, 1] bcast_S1x1_S32768x1_0_1 (val_main_v117 x31)
abbrev idx_main_v118 (i : S32768x1.Idx) : S1x1.Idx := fun a => match a with
  | ⟨0, _⟩ => ⟨0, Nat.one_pos⟩
  | ⟨1, _⟩ => ⟨0, Nat.one_pos⟩
theorem val_main_v118_apply (i : S32768x1.Idx) :
    val_main_v118 x31 i = val_main_v117 x31 (idx_main_v118 i) :=
  broadcastInDim_apply _ _ _ i _ (Fin.forall_fin_two.2 ⟨rfl, rfl⟩)

def val_main_v119 : (⟨S32768x1, .f32⟩ : BufTy).Contents (Elt F) :=
  addf (val_main_v116 x0 x1 x2 x3 x4 x5 x6 x7 x8 x9 x10 x11 x12 x13 x14 x15 x16 x17 x18 x19 x26 x27 x28 x29 x30) (val_main_v118 x31)
theorem val_main_v119_apply (i : S32768x1.Idx) :
    val_main_v119 x0 x1 x2 x3 x4 x5 x6 x7 x8 x9 x10 x11 x12 x13 x14 x15 x16 x17 x18 x19 x26 x27 x28 x29 x30 x31 i = FloatOps.addf (val_main_v116 x0 x1 x2 x3 x4 x5 x6 x7 x8 x9 x10 x11 x12 x13 x14 x15 x16 x17 x18 x19 x26 x27 x28 x29 x30 i) (val_main_v118 x31 i) := rfl

def val_main_v120 : (⟨S64x3, .f32⟩ : BufTy).Contents (Elt F) :=
  transpose S64x3 [1, 0] (x24) transposes_S3x64_S64x3_1_0
abbrev idx_main_v120 (i : S64x3.Idx) : S3x64.Idx := fun a => match a with
  | ⟨0, _⟩ => ⟨(i 1).val, (i 1).isLt⟩
  | ⟨1, _⟩ => ⟨(i 0).val, (i 0).isLt⟩
theorem val_main_v120_apply (i : S64x3.Idx) :
    val_main_v120 x24 i = x24 (idx_main_v120 i) :=
  transpose_apply _ _ _ i _ (Fin.forall_fin_two.2 ⟨rfl, rfl⟩)

def val_main_v121 : (⟨S32768x3, .f32⟩ : BufTy).Contents (Elt F) :=
  Host.dotGeneral dot_S32768x64_S64x3_S32768x3_1_0_0_1_n_n none (val_main_v102 x0 x1 x2 x3 x4 x5 x6 x7 x8 x9 x10 x11 x12 x13 x14 x15 x16 x17 x18 x19 x20 x21 x22 x23) (val_main_v120 x24)
abbrev lidx_main_v121 (i : S32768x3.Idx) (k : Fin 64) : S32768x64.Idx := fun a => match a with
  | ⟨0, _⟩ => ⟨(i 0).val, (i 0).isLt⟩
  | ⟨1, _⟩ => ⟨k.val, k.isLt⟩
abbrev ridx_main_v121 (i : S32768x3.Idx) (k : Fin 64) : S64x3.Idx := fun a => match a with
  | ⟨0, _⟩ => ⟨k.val, k.isLt⟩
  | ⟨1, _⟩ => ⟨(i 1).val, (i 1).isLt⟩

def val_main_v122 : (⟨S1x3, .f32⟩ : BufTy).Contents (Elt F) :=
  broadcastInDim S1x3 ![1] bcast_S3_S1x3_1 (x25)
abbrev idx_main_v122 (i : S1x3.Idx) : S3.Idx := fun a => match a with
  | ⟨0, _⟩ => ⟨(i 1).val, (i 1).isLt⟩
theorem val_main_v122_apply (i : S1x3.Idx) :
    val_main_v122 x25 i = x25 (idx_main_v122 i) :=
  broadcastInDim_apply _ _ _ i _ (Fin.forall_fin_one.2 rfl)

def val_main_v123 : (⟨S32768x3, .f32⟩ : BufTy).Contents (Elt F) :=
  broadcastInDim S32768x3 ![0, 1] bcast_S1x3_S32768x3_0_1 (val_main_v122 x25)
abbrev idx_main_v123 (i : S32768x3.Idx) : S1x3.Idx := fun a => match a with
  | ⟨0, _⟩ => ⟨0, Nat.one_pos⟩
  | ⟨1, _⟩ => ⟨(i 1).val, (i 1).isLt⟩
theorem val_main_v123_apply (i : S32768x3.Idx) :
    val_main_v123 x25 i = val_main_v122 x25 (idx_main_v123 i) :=
  broadcastInDim_apply _ _ _ i _ (Fin.forall_fin_two.2 ⟨rfl, rfl⟩)

def val_main_v124 : (⟨S32768x3, .f32⟩ : BufTy).Contents (Elt F) :=
  addf (val_main_v121 x0 x1 x2 x3 x4 x5 x6 x7 x8 x9 x10 x11 x12 x13 x14 x15 x16 x17 x18 x19 x20 x21 x22 x23 x24) (val_main_v123 x25)
theorem val_main_v124_apply (i : S32768x3.Idx) :
    val_main_v124 x0 x1 x2 x3 x4 x5 x6 x7 x8 x9 x10 x11 x12 x13 x14 x15 x16 x17 x18 x19 x20 x21 x22 x23 x24 x25 i = FloatOps.addf (val_main_v121 x0 x1 x2 x3 x4 x5 x6 x7 x8 x9 x10 x11 x12 x13 x14 x15 x16 x17 x18 x19 x20 x21 x22 x23 x24 i) (val_main_v123 x25 i) := rfl

end

-- Re-index the one contracted axis by its coordinate; both operand indices then compute.
theorem dot_apply {m k n : ℕ} {φ₁ φ₂ : FTy} (D : DotDims ⟨2, ![m, k]⟩ ⟨2, ![k, n]⟩ ⟨2, ![m, n]⟩) (hD : D = .plain m k n)
    (l : FVec Ideal ⟨2, ![m, k]⟩ φ₁) (r : FVec Ideal ⟨2, ![k, n]⟩ φ₂) (i : (⟨2, ![m, n]⟩ : Shape).Idx)
    (li : Fin k → (⟨2, ![m, k]⟩ : Shape).Idx) (ri : Fin k → (⟨2, ![k, n]⟩ : Shape).Idx)
    (hl : ∀ c, (li c 0).val = (i 0).val ∧ (li c 1).val = c.val) (hr : ∀ c, (ri c 0).val = c.val ∧ (ri c 1).val = (i 1).val) :
    Host.dotGeneral D none l r i = ∑ c : Fin k, l (li c) * r (ri c) := by
  subst hD
  simp only [Host.dotGeneral]
  rw [Ideal.dotGeneral_apply]
  refine Fintype.sum_equiv (ValueIdx.contrEquiv1 _ k rfl rfl) _ _ fun q => ?_
  congr 2 <;> refine funext fun a => Fin.ext ?_
  · match a with
    | ⟨0, _⟩ => exact (hl _).1.symm
    | ⟨1, _⟩ => exact (hl _).2.symm
  · match a with
    | ⟨0, _⟩ => exact (hr _).1.symm
    | ⟨1, _⟩ => exact (hr _).2.symm

variable (x0 : (⟨S32768x256, .f32⟩ : BufTy).Contents (Elt Ideal))
  (x1 : (⟨S32768x1, .i32⟩ : BufTy).Contents (Elt Ideal))
  (x2 : (⟨S32768x256, .f32⟩ : BufTy).Contents (Elt Ideal))
  (x3 : (⟨S32768x256, .f32⟩ : BufTy).Contents (Elt Ideal))
  (x4 : (⟨S32768x256, .f32⟩ : BufTy).Contents (Elt Ideal))
  (x5 : (⟨S4x25, .f32⟩ : BufTy).Contents (Elt Ideal))
  (x6 : (⟨S256x25, .f32⟩ : BufTy).Contents (Elt Ideal))
  (x7 : (⟨S256, .f32⟩ : BufTy).Contents (Elt Ideal))
  (x8 : (⟨S1024x512, .f32⟩ : BufTy).Contents (Elt Ideal))
  (x9 : (⟨S1024x256, .f32⟩ : BufTy).Contents (Elt Ideal))
  (x10 : (⟨S1024, .f32⟩ : BufTy).Contents (Elt Ideal))
  (x11 : (⟨S1024, .f32⟩ : BufTy).Contents (Elt Ideal))
  (x12 : (⟨S256x256, .f32⟩ : BufTy).Contents (Elt Ideal))
  (x13 : (⟨S256, .f32⟩ : BufTy).Contents (Elt Ideal))
  (x14 : (⟨S256x256, .f32⟩ : BufTy).Contents (Elt Ideal))
  (x15 : (⟨S256, .f32⟩ : BufTy).Contents (Elt Ideal))
  (x16 : (⟨S512x512, .f32⟩ : BufTy).Contents (Elt Ideal))
  (x17 : (⟨S512, .f32⟩ : BufTy).Contents (Elt Ideal))
  (x18 : (⟨S256x512, .f32⟩ : BufTy).Contents (Elt Ideal))
  (x19 : (⟨S256, .f32⟩ : BufTy).Contents (Elt Ideal))
  (x20 : (⟨S128x256, .f32⟩ : BufTy).Contents (Elt Ideal))
  (x21 : (⟨S128, .f32⟩ : BufTy).Contents (Elt Ideal))
  (x22 : (⟨S64x128, .f32⟩ : BufTy).Contents (Elt Ideal))
  (x23 : (⟨S64, .f32⟩ : BufTy).Contents (Elt Ideal))
  (x24 : (⟨S3x64, .f32⟩ : BufTy).Contents (Elt Ideal))
  (x25 : (⟨S3, .f32⟩ : BufTy).Contents (Elt Ideal))
  (x26 : (⟨S64x256, .f32⟩ : BufTy).Contents (Elt Ideal))
  (x27 : (⟨S64, .f32⟩ : BufTy).Contents (Elt Ideal))
  (x28 : (⟨S32x64, .f32⟩ : BufTy).Contents (Elt Ideal))
  (x29 : (⟨S32, .f32⟩ : BufTy).Contents (Elt Ideal))
  (x30 : (⟨S1x32, .f32⟩ : BufTy).Contents (Elt Ideal))
  (x31 : (⟨S1, .f32⟩ : BufTy).Contents (Elt Ideal))

theorem val_main_v9_apply (i : S32768x256.Idx) :
    val_main_v9 x1 x5 x6 i = ∑ k : Fin 25, (val_main_v7 x1 x5) (lidx_main_v9 i k) * (val_main_v8 x6) (ridx_main_v9 i k) :=
  dot_apply _ rfl _ _ i _ _ (fun _ => ⟨rfl, rfl⟩) fun _ => ⟨rfl, rfl⟩

theorem val_main_v22_apply (i : S32768x1024.Idx) :
    val_main_v22 x0 x1 x5 x6 x7 x8 i = ∑ k : Fin 512, (val_main_v20 x0 x1 x5 x6 x7) (lidx_main_v22 i k) * (val_main_v21 x8) (ridx_main_v22 i k) :=
  dot_apply _ rfl _ _ i _ _ (fun _ => ⟨rfl, rfl⟩) fun _ => ⟨rfl, rfl⟩

theorem val_main_v27_apply (i : S32768x1024.Idx) :
    val_main_v27 x2 x9 i = ∑ k : Fin 256, x2 (lidx_main_v27 i k) * (val_main_v26 x9) (ridx_main_v27 i k) :=
  dot_apply _ rfl _ _ i _ _ (fun _ => ⟨rfl, rfl⟩) fun _ => ⟨rfl, rfl⟩

theorem val_main_v62_apply (i : S32768x512.Idx) :
    val_main_v62 x0 x1 x2 x3 x5 x6 x7 x8 x9 x10 x11 x16 i = ∑ k : Fin 512, (val_main_v60 x0 x1 x2 x3 x5 x6 x7 x8 x9 x10 x11) (lidx_main_v62 i k) * (val_main_v61 x16) (ridx_main_v62 i k) :=
  dot_apply _ rfl _ _ i _ _ (fun _ => ⟨rfl, rfl⟩) fun _ => ⟨rfl, rfl⟩

theorem val_main_v70_apply (i : S32768x256.Idx) :
    val_main_v70 x4 x12 i = ∑ k : Fin 256, x4 (lidx_main_v70 i k) * (val_main_v69 x12) (ridx_main_v70 i k) :=
  dot_apply _ rfl _ _ i _ _ (fun _ => ⟨rfl, rfl⟩) fun _ => ⟨rfl, rfl⟩

theorem val_main_v76_apply (i : S32768x256.Idx) :
    val_main_v76 x0 x1 x2 x3 x5 x6 x7 x8 x9 x10 x11 x14 x16 x17 i = ∑ k : Fin 256, (val_main_v67 x0 x1 x2 x3 x5 x6 x7 x8 x9 x10 x11 x16 x17) (lidx_main_v76 i k) * (val_main_v75 x14) (ridx_main_v76 i k) :=
  dot_apply _ rfl _ _ i _ _ (fun _ => ⟨rfl, rfl⟩) fun _ => ⟨rfl, rfl⟩

theorem val_main_v86_apply (i : S32768x256.Idx) :
    val_main_v86 x0 x1 x2 x3 x4 x5 x6 x7 x8 x9 x10 x11 x12 x13 x14 x15 x16 x17 x18 i = ∑ k : Fin 512, (val_main_v84 x0 x1 x2 x3 x4 x5 x6 x7 x8 x9 x10 x11 x12 x13 x14 x15 x16 x17) (lidx_main_v86 i k) * (val_main_v85 x18) (ridx_main_v86 i k) :=
  dot_apply _ rfl _ _ i _ _ (fun _ => ⟨rfl, rfl⟩) fun _ => ⟨rfl, rfl⟩

theorem val_main_v92_apply (i : S32768x128.Idx) :
    val_main_v92 x0 x1 x2 x3 x4 x5 x6 x7 x8 x9 x10 x11 x12 x13 x14 x15 x16 x17 x18 x19 x20 i = ∑ k : Fin 256, (val_main_v90 x0 x1 x2 x3 x4 x5 x6 x7 x8 x9 x10 x11 x12 x13 x14 x15 x16 x17 x18 x19) (lidx_main_v92 i k) * (val_main_v91 x20) (ridx_main_v92 i k) :=
  dot_apply _ rfl _ _ i _ _ (fun _ => ⟨rfl, rfl⟩) fun _ => ⟨rfl, rfl⟩

theorem val_main_v98_apply (i : S32768x64.Idx) :
    val_main_v98 x0 x1 x2 x3 x4 x5 x6 x7 x8 x9 x10 x11 x12 x13 x14 x15 x16 x17 x18 x19 x20 x21 x22 i = ∑ k : Fin 128, (val_main_v96 x0 x1 x2 x3 x4 x5 x6 x7 x8 x9 x10 x11 x12 x13 x14 x15 x16 x17 x18 x19 x20 x21) (lidx_main_v98 i k) * (val_main_v97 x22) (ridx_main_v98 i k) :=
  dot_apply _ rfl _ _ i _ _ (fun _ => ⟨rfl, rfl⟩) fun _ => ⟨rfl, rfl⟩

theorem val_main_v104_apply (i : S32768x64.Idx) :
    val_main_v104 x0 x1 x2 x3 x4 x5 x6 x7 x8 x9 x10 x11 x12 x13 x14 x15 x16 x17 x18 x19 x26 i = ∑ k : Fin 256, (val_main_v90 x0 x1 x2 x3 x4 x5 x6 x7 x8 x9 x10 x11 x12 x13 x14 x15 x16 x17 x18 x19) (lidx_main_v104 i k) * (val_main_v103 x26) (ridx_main_v104 i k) :=
  dot_apply _ rfl _ _ i _ _ (fun _ => ⟨rfl, rfl⟩) fun _ => ⟨rfl, rfl⟩

theorem val_main_v110_apply (i : S32768x32.Idx) :
    val_main_v110 x0 x1 x2 x3 x4 x5 x6 x7 x8 x9 x10 x11 x12 x13 x14 x15 x16 x17 x18 x19 x26 x27 x28 i = ∑ k : Fin 64, (val_main_v108 x0 x1 x2 x3 x4 x5 x6 x7 x8 x9 x10 x11 x12 x13 x14 x15 x16 x17 x18 x19 x26 x27) (lidx_main_v110 i k) * (val_main_v109 x28) (ridx_main_v110 i k) :=
  dot_apply _ rfl _ _ i _ _ (fun _ => ⟨rfl, rfl⟩) fun _ => ⟨rfl, rfl⟩

theorem val_main_v116_apply (i : S32768x1.Idx) :
    val_main_v116 x0 x1 x2 x3 x4 x5 x6 x7 x8 x9 x10 x11 x12 x13 x14 x15 x16 x17 x18 x19 x26 x27 x28 x29 x30 i = ∑ k : Fin 32, (val_main_v114 x0 x1 x2 x3 x4 x5 x6 x7 x8 x9 x10 x11 x12 x13 x14 x15 x16 x17 x18 x19 x26 x27 x28 x29) (lidx_main_v116 i k) * (val_main_v115 x30) (ridx_main_v116 i k) :=
  dot_apply _ rfl _ _ i _ _ (fun _ => ⟨rfl, rfl⟩) fun _ => ⟨rfl, rfl⟩

theorem val_main_v121_apply (i : S32768x3.Idx) :
    val_main_v121 x0 x1 x2 x3 x4 x5 x6 x7 x8 x9 x10 x11 x12 x13 x14 x15 x16 x17 x18 x19 x20 x21 x22 x23 x24 i = ∑ k : Fin 64, (val_main_v102 x0 x1 x2 x3 x4 x5 x6 x7 x8 x9 x10 x11 x12 x13 x14 x15 x16 x17 x18 x19 x20 x21 x22 x23) (lidx_main_v121 i k) * (val_main_v120 x24) (ridx_main_v121 i k) :=
  dot_apply _ rfl _ _ i _ _ (fun _ => ⟨rfl, rfl⟩) fun _ => ⟨rfl, rfl⟩

end Cert.ReferenceIdeal.ReadP

end
-- ==== Proof.RefValueA.lean ====
import proofs.«429130_j6116033429958_3_alg».proof.Proof.RefRead
import proofs.«429130_j6116033429958_3_alg».proof.Proof.Spec
import Idealize.ShloMosaic.PureOps.IdealRules

noncomputable section

namespace Cert.ReferenceIdeal.RefValue

open Gen ReadP Cert.Net Idealize.ShloMosaic ValueIdx

-- The start index encodes `c < 4`, a row of the table, so the lookup reads row `c` at the column offset `k`.
theorem gather_row {α : Type} (tbl : S4x25.Idx → α) (idx : IVec S32768x1x1 32) (r : Fin 32768) (k : Fin 25) (c : Fin 4)
    (h : idx (ix3 r 0 0) = BitVec.ofNat 32 c.val) :
    Host.gather gather_S4x25_S32768x1x1_S32768x1x25_2_0_n_n_0_2_125 tbl idx (ix3 r 0 k) = tbl (ix2 c k) := by
  unfold Host.gather
  congr 1
  funext a
  refine Fin.ext ?_
  match a with
  | ⟨0, _⟩ =>
    show GatherDims.start _ _ idx 0 + GatherDims.batchCoord _ _ 0 + GatherDims.offCoord _ _ 0 = c.val
    rw [GatherDims.batchCoord_eq_zero _ _ _ List.not_mem_nil,
      GatherDims.offCoord_eq_zero _ _ _ (fun hh => ((GatherDims.mem_sKept _ _).mp hh).1 (List.mem_singleton.mpr rfl))]
    unfold GatherDims.start
    rw [dif_pos (show (0 : Fin 2) ∈ gather_S4x25_S32768x1x1_S32768x1x25_2_0_n_n_0_2_125.startIndexMap from List.mem_singleton.mpr rfl),
      show gather_S4x25_S32768x1x1_S32768x1x25_2_0_n_n_0_2_125.siIdx (ix3 r 0 k) _ = ix3 r 0 0 from
        funext fun b => Fin.ext (by match b with | ⟨0, _⟩ => rfl | ⟨1, _⟩ => rfl | ⟨2, _⟩ => rfl), h]
    fin_cases c <;> decide
  | ⟨1, _⟩ =>
    show GatherDims.start _ _ idx 1 + GatherDims.batchCoord _ _ 1 + GatherDims.offCoord _ _ 1 = k.val
    rw [GatherDims.batchCoord_eq_zero _ _ _ List.not_mem_nil]
    unfold GatherDims.start GatherDims.offCoord
    rw [dif_neg (show ¬ (1 : Fin 2) ∈ gather_S4x25_S32768x1x1_S32768x1x25_2_0_n_n_0_2_125.startIndexMap by decide),
      dif_pos (show (1 : Fin 2) ∈ gather_S4x25_S32768x1x1_S32768x1x25_2_0_n_n_0_2_125.sKept by decide)]
    exact Nat.zero_add _

-- Every index is `ix2` of its two coordinates.
theorem rd2 {m n : ℕ} (x : A2 m n) (f) : x f = x (ix2 (f 0) (f 1)) := congrArg x (eq_ix2 f)
theorem rd1 {n : ℕ} (x : A1 n) (f) : x f = x (ix1 (f 0)) := congrArg x (eq_ix1 f)

theorem dot_rd {K : ℕ} {f g x w : Fin K → EReal} (hx : ∀ k, f k = x k) (hw : ∀ k, g k = w k) :
    ∑ k, f k * g k = ∑ k, x k * w k :=
  Finset.sum_congr rfl fun k _ => congrArg₂ (· * ·) (hx k) (hw k)

theorem relu_rd {K : ℕ} {f g x w : Fin K → EReal} {β b : EReal} (hx : ∀ k, f k = x k) (hw : ∀ k, g k = w k) (hb : β = b) :
    max ((∑ k, f k * g k) + β) (Ideal.ofBits .f32 0x00000000#32) = relu ((∑ k, x k * w k) + b) :=
  congrArg₂ max (congrArg₂ (· + ·) (dot_rd hx hw) hb) Ideal.ofBits_zero_f32

theorem sl_rd {n o : ℕ} {ho : o + 256 ≤ n} {g : Fin n → EReal} {j : Fin 256} {z : EReal} {h} (hz : z = g ⟨o + j.val, h⟩) :
    z = sl256 o ho g j :=
  hz.trans (congrArg g (Fin.ext (Nat.add_comm _ _)))

-- The printed `1 / (1 + exp (-z))` is the logistic function.
theorem sig_rd {z z' : EReal} (h : z = z') :
    Ideal.div (Ideal.ofBits .f32 0x3F800000#32) (Ideal.ofBits .f32 0x3F800000#32 + Ideal.exp (-z)) = sg z' := by
  rw [h, show Ideal.ofBits .f32 0x3F800000#32 = 1 from IdealRules.sign_bit.ideal_onePat .f32]; rfl

-- Along axis 1 a join of two 256-wide arrays reads the first below column 256 and the second, 256 to the left, from there on.
theorem cat_rd {y₁ y₂ : A2 32768 256} {f g : Fin 256 → EReal} (i : S32768x512.Idx)
    (h₁ : ∀ c, y₁ (ix2 (i 0) c) = f c) (h₂ : ∀ c, y₂ (ix2 (i 0) c) = g c) :
    concatenate S32768x512 1 [⟨S32768x256, y₁⟩, ⟨S32768x256, y₂⟩] concatenates_S32768x256_S32768x256_S32768x512_d1 i
      = cat256 f g (i 1) := by
  unfold cat256
  by_cases hk : (i 1).val < 256
  · rw [dif_pos hk, ← h₁]
    refine concatenate_pair_apply_left (1 : Fin S32768x512.rank) y₁ y₂ _ i rfl _ fun b => ?_
    match b with
    | ⟨0, _⟩ => rfl
    | ⟨1, _⟩ => rfl
  · rw [dif_neg hk, ← h₂]
    refine concatenate_pair_apply_right (1 : Fin S32768x512.rank) y₁ y₂ _ i rfl rfl _ (fun b hb => ?_) ?_
    · match b with
      | ⟨0, _⟩ => rfl
      | ⟨1, _⟩ => exact absurd rfl hb
    · show (i 1).val - 256 + 256 = (i 1).val
      omega

-- The thirty-two argument arrays, with every instruction index below 4.
structure Args where
  (x0 : A2 32768 256) (x1 : Vec Ideal S32768x1 .i32) (x2 x3 x4 : A2 32768 256) (x5 : A2 4 25) (x6 : A2 256 25) (x7 : A1 256)
  (x8 : A2 1024 512) (x9 : A2 1024 256) (x10 x11 : A1 1024) (x12 : A2 256 256) (x13 : A1 256) (x14 : A2 256 256) (x15 : A1 256)
  (x16 : A2 512 512) (x17 : A1 512) (x18 : A2 256 512) (x19 : A1 256) (x20 : A2 128 256) (x21 : A1 128) (x22 : A2 64 128)
  (x23 : A1 64) (x24 : A2 3 64) (x25 : A1 3) (x26 : A2 64 256) (x27 : A1 64) (x28 : A2 32 64) (x29 : A1 32) (x30 : A2 1 32)
  (x31 : A1 1) (e : Fin 32768 → Fin 4) (he : ∀ r, x1 (ix2 r 0) = BitVec.ofNat 32 (e r).val)

variable (a : Args)

def Args.W : Params := params a.x5 a.x6 a.x7 a.x8 a.x9 a.x10 a.x11 a.x12 a.x13 a.x14 a.x15 a.x16 a.x17 a.x18 a.x19 a.x20 a.x21 a.x22 a.x23 a.x24 a.x25 a.x26 a.x27 a.x28 a.x29 a.x30 a.x31

def Args.R : Fin 32768 → Row := row a.x0 a.x2 a.x3 a.x4 a.e

theorem we_rd (i : S32768x25.Idx) : val_main_v7 (F := Ideal) a.x1 a.x5 i = a.x5 (ix2 (a.e (i 0)) (i 1)) := by
  obtain ⟨r, k, rfl⟩ : ∃ (r : Fin 32768) (k : Fin 25), i = ix2 r k := ⟨i 0, i 1, eq_ix2 i⟩
  have e7 : idx_main_v7 (ix2 r k) = ix3 r 0 k := funext fun b => Fin.ext (by
    have := k.isLt
    match b with
    | ⟨0, _⟩ => show (r.val * 25 + k.val) / 25 = r.val; omega
    | ⟨1, _⟩ => rfl
    | ⟨2, _⟩ => show (r.val * 25 + k.val) % 25 = k.val; omega)
  have e5 : idx_main_v5 (ix3 r 0 0) = ix2 r 0 := eq_ix2 _
  rw [val_main_v7_apply, e7]
  refine gather_row _ _ _ _ _ ?_
  rw [val_main_v5_apply, e5, val_main_v4_apply, val_main_v1_apply, val_main_v3_apply, val_main_v0_apply, val_main_v2_apply,
    val_main_c_apply, val_main_c_0_apply, a.he]
  generalize a.e r = c
  fin_cases c <;> decide

theorem ga_rd (i : S32768x256.Idx) : val_main_v18 (F := Ideal) a.x1 a.x5 a.x6 a.x7 i = ga a.W (a.R (i 0)) (i 1) := by
  rw [val_main_v18_apply, val_main_v17_apply, val_main_cst_1_apply, val_main_v16_apply, val_main_v15_apply, val_main_cst_apply,
    val_main_v14_apply, val_main_v13_apply, val_main_v12_apply, val_main_v9_apply, val_main_v11_apply, val_main_v10_apply]
  exact sig_rd (congrArg₂ (· + ·) (dot_rd (fun _ => we_rd a _) fun _ => (val_main_v8_apply _ _).trans (rd2 _ _)) (rd1 _ _))

theorem gf_rd (i : S32768x256.Idx) : val_main_v19 (F := Ideal) a.x0 a.x1 a.x5 a.x6 a.x7 i = gf a.W (a.R (i 0)) (i 1) :=
  congrArg₂ (· * ·) (rd2 a.x0 i) (ga_rd a i)

theorem gates_rd (i : S32768x1024.Idx) :
    val_main_v31 (F := Ideal) a.x0 a.x1 a.x2 a.x5 a.x6 a.x7 a.x8 a.x9 a.x10 a.x11 i = gates a.W (a.R (i 0)) (i 1) := by
  rw [val_main_v31_apply, val_main_v28_apply, val_main_v25_apply, val_main_v22_apply, val_main_v24_apply, val_main_v23_apply,
    val_main_v27_apply, val_main_v30_apply, val_main_v29_apply]
  exact congrArg₂ (· + ·) (congrArg₂ (· + ·) (congrArg₂ (· + ·)
    (dot_rd (fun _ => cat_rd _ (fun _ => gf_rd a _) fun _ => ga_rd a _) fun _ => (val_main_v21_apply _ _).trans (rd2 _ _)) (rd1 _ _))
    (dot_rd (fun _ => rd2 _ _) fun _ => (val_main_v26_apply _ _).trans (rd2 _ _))) (rd1 _ _)

theorem cx_rd (i : S32768x256.Idx) :
    val_main_v51 (F := Ideal) a.x0 a.x1 a.x2 a.x3 a.x5 a.x6 a.x7 a.x8 a.x9 a.x10 a.x11 i = cxN a.W (a.R (i 0)) (i 1) := by
  rw [val_main_v51_apply, val_main_v42_apply, val_main_v41_apply, val_main_v40_apply, val_main_cst_3_apply, val_main_v39_apply,
    val_main_v38_apply, val_main_cst_2_apply, val_main_v37_apply, val_main_v36_apply, val_main_v33_apply, val_main_v50_apply,
    val_main_v48_apply, val_main_v47_apply, val_main_cst_5_apply, val_main_v46_apply, val_main_v45_apply, val_main_cst_4_apply,
    val_main_v44_apply, val_main_v43_apply, val_main_v32_apply, val_main_v49_apply, val_main_v34_apply]
  exact congrArg₂ (· + ·) (congrArg₂ (· * ·) (sig_rd (sl_rd (gates_rd a _))) (rd2 _ _))
    (congrArg₂ (· * ·) (sig_rd (gates_rd a _)) (congrArg Ideal.tanh (sl_rd (gates_rd a _))))

theorem hx_rd (i : S32768x256.Idx) :
    val_main_v59 (F := Ideal) a.x0 a.x1 a.x2 a.x3 a.x5 a.x6 a.x7 a.x8 a.x9 a.x10 a.x11 i = hxN a.W (a.R (i 0)) (i 1) := by
  rw [val_main_v59_apply, val_main_v57_apply, val_main_v56_apply, val_main_cst_7_apply, val_main_v55_apply, val_main_v54_apply,
    val_main_cst_6_apply, val_main_v53_apply, val_main_v52_apply, val_main_v35_apply, val_main_v58_apply]
  exact congrArg₂ (· * ·) (sig_rd (sl_rd (gates_rd a _))) (congrArg Ideal.tanh (cx_rd a i))

end Cert.ReferenceIdeal.RefValue

end
-- ==== Proof.RefValueB.lean ====
import proofs.«429130_j6116033429958_3_alg».proof.Proof.RefValueA

noncomputable section

namespace Cert.ReferenceIdeal.RefValue

open Gen ReadP Cert.Net Idealize.ShloMosaic ValueIdx

variable (a : Args)

theorem ma_rd (i : S32768x512.Idx) :
    val_main_v66 (F := Ideal) a.x0 a.x1 a.x2 a.x3 a.x5 a.x6 a.x7 a.x8 a.x9 a.x10 a.x11 a.x16 a.x17 i = ma a.W (a.R (i 0)) (i 1) := by
  rw [val_main_v66_apply, val_main_v65_apply, val_main_v62_apply, val_main_v64_apply, val_main_v63_apply, val_main_call0_v0_apply, val_main_call0_cst_apply]
  exact relu_rd (fun _ => cat_rd _ (fun _ => gf_rd a _) fun _ => hx_rd a _) (fun _ => (val_main_v61_apply _ _).trans (rd2 _ _)) (rd1 _ _)

theorem av_rd (i : S32768x256.Idx) : val_main_v83 (F := Ideal) a.x0 a.x1 a.x2 a.x3 a.x4 a.x5 a.x6 a.x7 a.x8 a.x9 a.x10 a.x11 a.x12 a.x13 a.x14 a.x15 a.x16 a.x17 i = av a.W (a.R (i 0)) (i 1) := by
  rw [val_main_v83_apply, val_main_v82_apply, val_main_v81_apply, val_main_v68_apply, val_main_v74_apply, val_main_v73_apply, val_main_v70_apply, val_main_v72_apply, val_main_v71_apply, val_main_call1_v0_apply, val_main_call1_cst_apply,
    val_main_v80_apply, val_main_v79_apply, val_main_v76_apply, val_main_v78_apply, val_main_v77_apply, val_main_call2_v0_apply, val_main_call2_cst_apply]
  exact congrArg₂ (· * ·) (congrArg Ideal.tanh (congrArg₂ (· + ·)
    (relu_rd (fun _ => rd2 _ _) (fun _ => (val_main_v69_apply _ _).trans (rd2 _ _)) (rd1 _ _))
    (relu_rd (fun _ => by rw [val_main_v67_apply]; exact ma_rd a _) (fun _ => (val_main_v75_apply _ _).trans (rd2 _ _)) (rd1 _ _))))
    (sl_rd (ma_rd a _))

theorem aw_rd (i : S32768x256.Idx) :
    val_main_v90 (F := Ideal) a.x0 a.x1 a.x2 a.x3 a.x4 a.x5 a.x6 a.x7 a.x8 a.x9 a.x10 a.x11 a.x12 a.x13 a.x14 a.x15 a.x16 a.x17 a.x18 a.x19 i = aw a.W (a.R (i 0)) (i 1) := by
  rw [val_main_v90_apply, val_main_v89_apply, val_main_v86_apply, val_main_v88_apply, val_main_v87_apply, val_main_call3_v0_apply, val_main_call3_cst_apply]
  exact relu_rd (fun _ => cat_rd _ (fun _ => av_rd a _) fun _ => hx_rd a _) (fun _ => (val_main_v85_apply _ _).trans (rd2 _ _)) (rd1 _ _)

theorem pol1_rd (i : S32768x128.Idx) :
    val_main_v96 (F := Ideal) a.x0 a.x1 a.x2 a.x3 a.x4 a.x5 a.x6 a.x7 a.x8 a.x9 a.x10 a.x11 a.x12 a.x13 a.x14 a.x15 a.x16 a.x17 a.x18 a.x19 a.x20 a.x21 i = pol1 a.W (a.R (i 0)) (i 1) := by
  rw [val_main_v96_apply, val_main_v95_apply, val_main_v92_apply, val_main_v94_apply, val_main_v93_apply, val_main_call4_v0_apply, val_main_call4_cst_apply]
  exact relu_rd (fun _ => aw_rd a _) (fun _ => (val_main_v91_apply _ _).trans (rd2 _ _)) (rd1 _ _)

theorem pol2_rd (i : S32768x64.Idx) :
    val_main_v102 (F := Ideal) a.x0 a.x1 a.x2 a.x3 a.x4 a.x5 a.x6 a.x7 a.x8 a.x9 a.x10 a.x11 a.x12 a.x13 a.x14 a.x15 a.x16 a.x17 a.x18 a.x19 a.x20 a.x21 a.x22 a.x23 i = pol2 a.W (a.R (i 0)) (i 1) := by
  rw [val_main_v102_apply, val_main_v101_apply, val_main_v98_apply, val_main_v100_apply, val_main_v99_apply, val_main_call5_v0_apply, val_main_call5_cst_apply]
  exact relu_rd (fun _ => pol1_rd a _) (fun _ => (val_main_v97_apply _ _).trans (rd2 _ _)) (rd1 _ _)

theorem vh1_rd (i : S32768x64.Idx) :
    val_main_v108 (F := Ideal) a.x0 a.x1 a.x2 a.x3 a.x4 a.x5 a.x6 a.x7 a.x8 a.x9 a.x10 a.x11 a.x12 a.x13 a.x14 a.x15 a.x16 a.x17 a.x18 a.x19 a.x26 a.x27 i = vh1 a.W (a.R (i 0)) (i 1) := by
  rw [val_main_v108_apply, val_main_v107_apply, val_main_v104_apply, val_main_v106_apply, val_main_v105_apply, val_main_call6_v0_apply, val_main_call6_cst_apply]
  exact relu_rd (fun _ => aw_rd a _) (fun _ => (val_main_v103_apply _ _).trans (rd2 _ _)) (rd1 _ _)

theorem vh2_rd (i : S32768x32.Idx) :
    val_main_v114 (F := Ideal) a.x0 a.x1 a.x2 a.x3 a.x4 a.x5 a.x6 a.x7 a.x8 a.x9 a.x10 a.x11 a.x12 a.x13 a.x14 a.x15 a.x16 a.x17 a.x18 a.x19 a.x26 a.x27 a.x28 a.x29 i = vh2 a.W (a.R (i 0)) (i 1) := by
  rw [val_main_v114_apply, val_main_v113_apply, val_main_v110_apply, val_main_v112_apply, val_main_v111_apply, val_main_call7_v0_apply, val_main_call7_cst_apply]
  exact relu_rd (fun _ => vh1_rd a _) (fun _ => (val_main_v109_apply _ _).trans (rd2 _ _)) (rd1 _ _)

theorem value_rd (i : S32768x1.Idx) :
    val_main_v119 (F := Ideal) a.x0 a.x1 a.x2 a.x3 a.x4 a.x5 a.x6 a.x7 a.x8 a.x9 a.x10 a.x11 a.x12 a.x13 a.x14 a.x15 a.x16 a.x17 a.x18 a.x19 a.x26 a.x27 a.x28 a.x29 a.x30 a.x31 i = value a.W (a.R (i 0)) (i 1) := by
  rw [val_main_v119_apply, val_main_v116_apply, val_main_v118_apply, val_main_v117_apply]
  exact congrArg₂ (· + ·) (dot_rd (fun _ => vh2_rd a _) fun _ => (val_main_v115_apply _ _).trans (rd2 _ _))
    ((rd1 _ _).trans (congrArg (fun j => a.x31 (ix1 j)) (Subsingleton.elim _ _)))

theorem pol_rd (i : S32768x3.Idx) :
    val_main_v124 (F := Ideal) a.x0 a.x1 a.x2 a.x3 a.x4 a.x5 a.x6 a.x7 a.x8 a.x9 a.x10 a.x11 a.x12 a.x13 a.x14 a.x15 a.x16 a.x17 a.x18 a.x19 a.x20 a.x21 a.x22 a.x23 a.x24 a.x25 i = pol a.W (a.R (i 0)) (i 1) := by
  rw [val_main_v124_apply, val_main_v121_apply, val_main_v123_apply, val_main_v122_apply]
  exact congrArg₂ (· + ·) (dot_rd (fun _ => pol2_rd a _) fun _ => (val_main_v120_apply _ _).trans (rd2 _ _)) (rd1 _ _)

end Cert.ReferenceIdeal.RefValue

end
-- ==== Proof.RefStages.lean ====
import proofs.«429130_j6116033429958_3_alg».proof.Proof.RefOps
import proofs.«429130_j6116033429958_3_alg».proof.Proof.RefRead
import Idealize.ShloMosaic.Lib.StableHlo.RunLoop

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- An operation as the run theorem wants it, writing one buffer, numbered `n` or more. -/
structure Ok (n : ℕ) (op : HloOp τ sig (Elt F)) : Prop where
  bufs : op.bufs ⊆ tcRefs τ sig
  fresh : op.fresh = ∅
  wr : ∃ y : Ref sig .tc, op.writes = {Proc.devRef .tc y} ∧ n ≤ y.idx

theorem ok {n : ℕ} {op : HloOp τ sig (Elt F)} {y : Ref sig .tc}
    (hb : op.bufs ⊆ tcRefs τ sig := by simp only [nullary_bufs_sub, unary_bufs_sub, binary_bufs_sub, ternary_bufs_sub, reshape_bufs_sub])
    (hw : op.writes = {Proc.devRef .tc y} := by rfl) (hy : n ≤ y.idx := by decide) (hf : op.fresh = ∅ := by rfl) : Ok n op :=
  ⟨hb, hf, y, hw, hy⟩

/-- Operations that each write one buffer numbered `n` or more leave every buffer numbered below `n` as it was. -/
theorem after_below {n : ℕ} {l : List (HloOp τ sig (Elt F))} (hl : l.Forall (Ok n)) (W : Valuation τ sig (Elt F))
    {r : Ref sig .tc} (hr : r.idx < n) : after l W (Proc.devRef .tc r) = W (Proc.devRef .tc r) :=
  after_of_forall_not_mem l W fun op hop hb => by
    obtain ⟨y, hw, hy⟩ := (List.forall_iff_forall_mem.mp hl op hop).wr
    rw [hw, Finset.mem_singleton] at hb
    obtain rfl := Proc.devRef_injective _ hb
    exact Nat.not_lt.mpr hy hr

noncomputable def chunks : List (List (HloOp τ sig (Elt F))) :=
  [ops_00, ops_01, ops_02, ops_03, ops_04, ops_05, ops_06, ops_07, ops_08, ops_09, ops_10, ops_11, ops_12, ops_13]

/-- The number of the first buffer stretch `k` writes: the thirty-two arguments come first, then one buffer an operation. -/
def lo : ℕ → ℕ
  | 0 => 32
  | k + 1 => lo k + [12, 12, 12, 12, 12, 10, 10, 10, 10, 12, 10, 12, 9, 8].getD k 0

theorem lo_mono : Monotone lo := monotone_nat_of_le_succ fun _ => Nat.le_add_right _ _

theorem ok_chunk (k : ℕ) : ((chunks (F := F)).getD k []).Forall (Ok (lo k)) := by
  iterate 14 (rcases k with _ | k; · (repeat' apply And.intro) <;> exact ok)
  trivial

theorem ok_ops (op : HloOp τ sig (Elt F)) (hop : op ∈ ops) : op.bufs ⊆ tcRefs τ sig ∧ op.fresh = ∅ := by
  obtain ⟨l, hl, ho⟩ := List.mem_flatten.mp hop
  obtain ⟨k, hk⟩ := List.mem_iff_getElem?.mp (show l ∈ chunks from hl)
  have h := ok_chunk (F := F) k
  rw [List.getD_eq_getElem?_getD, hk] at h
  exact ⟨(List.forall_iff_forall_mem.mp h op ho).bufs, (List.forall_iff_forall_mem.mp h op ho).fresh⟩

/-- The contents after the first `k` stretches. -/
noncomputable def st (V : Valuation τ sig (Elt F)) : ℕ → Valuation τ sig (Elt F)
  | 0 => V
  | k + 1 => after (chunks.getD k []) (st V k)

variable {V : Valuation τ sig (Elt F)}

theorem after_ops : after ops V = st V 14 := (afterL_eq_after_flatten chunks V).symm

/-- A buffer numbered below the first that stretch `j` writes holds after any later stretch what it held before stretch `j`. -/
theorem st_keep (j k : ℕ) (r : Ref sig .tc) (hk : j ≤ k := by decide) (hr : r.idx < lo j := by decide) :
    st V k (Proc.devRef .tc r) = st V j (Proc.devRef .tc r) := by
  induction k, hk using Nat.le_induction with
  | base => rfl
  | succ k hk ih => exact (after_below (ok_chunk k) _ (hr.trans_le (lo_mono hk))).trans ih

local notation "⟪" k "⟫" => V (Proc.devRef Proc.tc (Ref.mk Space.hbm k rfl))

theorem f_v9 : st V 1 (Proc.devRef .tc main_v9) = ReadP.val_main_v9 ⟪1⟫ ⟪5⟫ ⟪6⟫ := by
  show after ops_00 (st V 0) _ = _
  after_results
  rfl

theorem f_v18 : st V 2 (Proc.devRef .tc main_v18) = ReadP.val_main_v18 ⟪1⟫ ⟪5⟫ ⟪6⟫ ⟪7⟫ := by
  show after ops_01 (st V 1) _ = _
  after_results
  rw [f_v9, st_keep 0 1 main_arg7]
  rfl

theorem f_v19 : st V 2 (Proc.devRef .tc main_v19) = ReadP.val_main_v19 ⟪0⟫ ⟪1⟫ ⟪5⟫ ⟪6⟫ ⟪7⟫ := by
  show after ops_01 (st V 1) _ = _
  after_results
  rw [f_v9, st_keep 0 1 main_arg0, st_keep 0 1 main_arg7]
  rfl

theorem f_v31 : st V 3 (Proc.devRef .tc main_v31) = ReadP.val_main_v31 ⟪0⟫ ⟪1⟫ ⟪2⟫ ⟪5⟫ ⟪6⟫ ⟪7⟫ ⟪8⟫ ⟪9⟫ ⟪10⟫ ⟪11⟫ := by
  show after ops_02 (st V 2) _ = _
  after_results
  rw [f_v19, f_v18, st_keep 0 2 main_arg8, st_keep 0 2 main_arg10, st_keep 0 2 main_arg2, st_keep 0 2 main_arg9, st_keep 0 2 main_arg11]
  rfl

theorem f_v32 : st V 4 (Proc.devRef .tc main_v32) = ReadP.val_main_v32 ⟪0⟫ ⟪1⟫ ⟪2⟫ ⟪5⟫ ⟪6⟫ ⟪7⟫ ⟪8⟫ ⟪9⟫ ⟪10⟫ ⟪11⟫ := by
  show after ops_03 (st V 3) _ = _
  after_results
  rw [f_v31]
  rfl

theorem f_v34 : st V 4 (Proc.devRef .tc main_v34) = ReadP.val_main_v34 ⟪0⟫ ⟪1⟫ ⟪2⟫ ⟪5⟫ ⟪6⟫ ⟪7⟫ ⟪8⟫ ⟪9⟫ ⟪10⟫ ⟪11⟫ := by
  show after ops_03 (st V 3) _ = _
  after_results
  rw [f_v31]
  rfl

theorem f_v35 : st V 4 (Proc.devRef .tc main_v35) = ReadP.val_main_v35 ⟪0⟫ ⟪1⟫ ⟪2⟫ ⟪5⟫ ⟪6⟫ ⟪7⟫ ⟪8⟫ ⟪9⟫ ⟪10⟫ ⟪11⟫ := by
  show after ops_03 (st V 3) _ = _
  after_results
  rw [f_v31]
  rfl

theorem f_v41 : st V 4 (Proc.devRef .tc main_v41) = ReadP.val_main_v41 ⟪0⟫ ⟪1⟫ ⟪2⟫ ⟪5⟫ ⟪6⟫ ⟪7⟫ ⟪8⟫ ⟪9⟫ ⟪10⟫ ⟪11⟫ := by
  show after ops_03 (st V 3) _ = _
  after_results
  rw [f_v31]
  rfl

theorem f_v51 : st V 5 (Proc.devRef .tc main_v51) = ReadP.val_main_v51 ⟪0⟫ ⟪1⟫ ⟪2⟫ ⟪3⟫ ⟪5⟫ ⟪6⟫ ⟪7⟫ ⟪8⟫ ⟪9⟫ ⟪10⟫ ⟪11⟫ := by
  show after ops_04 (st V 4) _ = _
  after_results
  rw [f_v41, f_v32, f_v34, st_keep 0 4 main_arg3]
  rfl

theorem f_v59 : st V 6 (Proc.devRef .tc main_v59) = ReadP.val_main_v59 ⟪0⟫ ⟪1⟫ ⟪2⟫ ⟪3⟫ ⟪5⟫ ⟪6⟫ ⟪7⟫ ⟪8⟫ ⟪9⟫ ⟪10⟫ ⟪11⟫ := by
  show after ops_05 (st V 5) _ = _
  after_results
  rw [st_keep 4 5 main_v35, f_v35, f_v51]
  rfl

theorem f_v66 : st V 7 (Proc.devRef .tc main_v66) = ReadP.val_main_v66 ⟪0⟫ ⟪1⟫ ⟪2⟫ ⟪3⟫ ⟪5⟫ ⟪6⟫ ⟪7⟫ ⟪8⟫ ⟪9⟫ ⟪10⟫ ⟪11⟫ ⟪16⟫ ⟪17⟫ := by
  show after ops_06 (st V 6) _ = _
  after_results
  rw [st_keep 2 6 main_v19, f_v19, f_v59, st_keep 0 6 main_arg16, st_keep 0 6 main_arg17]
  rfl

theorem f_v67 : st V 7 (Proc.devRef .tc main_v67) = ReadP.val_main_v67 ⟪0⟫ ⟪1⟫ ⟪2⟫ ⟪3⟫ ⟪5⟫ ⟪6⟫ ⟪7⟫ ⟪8⟫ ⟪9⟫ ⟪10⟫ ⟪11⟫ ⟪16⟫ ⟪17⟫ := by
  show after ops_06 (st V 6) _ = _
  after_results
  rw [st_keep 2 6 main_v19, f_v19, f_v59, st_keep 0 6 main_arg16, st_keep 0 6 main_arg17]
  rfl

theorem f_v68 : st V 8 (Proc.devRef .tc main_v68) = ReadP.val_main_v68 ⟪0⟫ ⟪1⟫ ⟪2⟫ ⟪3⟫ ⟪5⟫ ⟪6⟫ ⟪7⟫ ⟪8⟫ ⟪9⟫ ⟪10⟫ ⟪11⟫ ⟪16⟫ ⟪17⟫ := by
  show after ops_07 (st V 7) _ = _
  after_results
  rw [f_v66]
  rfl

theorem f_v74 : st V 8 (Proc.devRef .tc main_v74) = ReadP.val_main_v74 ⟪4⟫ ⟪12⟫ ⟪13⟫ := by
  show after ops_07 (st V 7) _ = _
  after_results
  rw [st_keep 0 7 main_arg4, st_keep 0 7 main_arg12, st_keep 0 7 main_arg13]
  rfl

theorem f_v75 : st V 8 (Proc.devRef .tc main_v75) = ReadP.val_main_v75 ⟪14⟫ := by
  show after ops_07 (st V 7) _ = _
  after_results
  rw [st_keep 0 7 main_arg14]
  rfl

theorem f_v83 : st V 9 (Proc.devRef .tc main_v83) = ReadP.val_main_v83 ⟪0⟫ ⟪1⟫ ⟪2⟫ ⟪3⟫ ⟪4⟫ ⟪5⟫ ⟪6⟫ ⟪7⟫ ⟪8⟫ ⟪9⟫ ⟪10⟫ ⟪11⟫ ⟪12⟫ ⟪13⟫ ⟪14⟫ ⟪15⟫ ⟪16⟫ ⟪17⟫ := by
  show after ops_08 (st V 8) _ = _
  after_results
  rw [f_v74, st_keep 7 8 main_v67, f_v67, f_v75, f_v68, st_keep 0 8 main_arg15]
  rfl

theorem f_v90 : st V 10 (Proc.devRef .tc main_v90) = ReadP.val_main_v90 ⟪0⟫ ⟪1⟫ ⟪2⟫ ⟪3⟫ ⟪4⟫ ⟪5⟫ ⟪6⟫ ⟪7⟫ ⟪8⟫ ⟪9⟫ ⟪10⟫ ⟪11⟫ ⟪12⟫ ⟪13⟫ ⟪14⟫ ⟪15⟫ ⟪16⟫ ⟪17⟫ ⟪18⟫ ⟪19⟫ := by
  show after ops_09 (st V 9) _ = _
  after_results
  rw [f_v83, st_keep 6 9 main_v59, f_v59, st_keep 0 9 main_arg18, st_keep 0 9 main_arg19]
  rfl

theorem f_v92 : st V 10 (Proc.devRef .tc main_v92) = ReadP.val_main_v92 ⟪0⟫ ⟪1⟫ ⟪2⟫ ⟪3⟫ ⟪4⟫ ⟪5⟫ ⟪6⟫ ⟪7⟫ ⟪8⟫ ⟪9⟫ ⟪10⟫ ⟪11⟫ ⟪12⟫ ⟪13⟫ ⟪14⟫ ⟪15⟫ ⟪16⟫ ⟪17⟫ ⟪18⟫ ⟪19⟫ ⟪20⟫ := by
  show after ops_09 (st V 9) _ = _
  after_results
  rw [f_v83, st_keep 6 9 main_v59, f_v59, st_keep 0 9 main_arg18, st_keep 0 9 main_arg19, st_keep 0 9 main_arg20]
  rfl

theorem f_v93 : st V 10 (Proc.devRef .tc main_v93) = ReadP.val_main_v93 ⟪21⟫ := by
  show after ops_09 (st V 9) _ = _
  after_results
  rw [st_keep 0 9 main_arg21]
  rfl

theorem f_v101 : st V 11 (Proc.devRef .tc main_v101) = ReadP.val_main_v101 ⟪0⟫ ⟪1⟫ ⟪2⟫ ⟪3⟫ ⟪4⟫ ⟪5⟫ ⟪6⟫ ⟪7⟫ ⟪8⟫ ⟪9⟫ ⟪10⟫ ⟪11⟫ ⟪12⟫ ⟪13⟫ ⟪14⟫ ⟪15⟫ ⟪16⟫ ⟪17⟫ ⟪18⟫ ⟪19⟫ ⟪20⟫ ⟪21⟫ ⟪22⟫ ⟪23⟫ := by
  show after ops_10 (st V 10) _ = _
  after_results
  rw [f_v92, f_v93, st_keep 0 10 main_arg22, st_keep 0 10 main_arg23]
  rfl

theorem f_v102 : st V 12 (Proc.devRef .tc main_v102) = ReadP.val_main_v102 ⟪0⟫ ⟪1⟫ ⟪2⟫ ⟪3⟫ ⟪4⟫ ⟪5⟫ ⟪6⟫ ⟪7⟫ ⟪8⟫ ⟪9⟫ ⟪10⟫ ⟪11⟫ ⟪12⟫ ⟪13⟫ ⟪14⟫ ⟪15⟫ ⟪16⟫ ⟪17⟫ ⟪18⟫ ⟪19⟫ ⟪20⟫ ⟪21⟫ ⟪22⟫ ⟪23⟫ := by
  show after ops_11 (st V 11) _ = _
  after_results
  rw [f_v101]
  rfl

theorem f_v108 : st V 12 (Proc.devRef .tc main_v108) = ReadP.val_main_v108 ⟪0⟫ ⟪1⟫ ⟪2⟫ ⟪3⟫ ⟪4⟫ ⟪5⟫ ⟪6⟫ ⟪7⟫ ⟪8⟫ ⟪9⟫ ⟪10⟫ ⟪11⟫ ⟪12⟫ ⟪13⟫ ⟪14⟫ ⟪15⟫ ⟪16⟫ ⟪17⟫ ⟪18⟫ ⟪19⟫ ⟪26⟫ ⟪27⟫ := by
  show after ops_11 (st V 11) _ = _
  after_results
  rw [st_keep 10 11 main_v90, f_v90, st_keep 0 11 main_arg26, st_keep 0 11 main_arg27]
  rfl

theorem f_v109 : st V 12 (Proc.devRef .tc main_v109) = ReadP.val_main_v109 ⟪28⟫ := by
  show after ops_11 (st V 11) _ = _
  after_results
  rw [st_keep 0 11 main_arg28]
  rfl

theorem f_v116 : st V 13 (Proc.devRef .tc main_v116) = ReadP.val_main_v116 ⟪0⟫ ⟪1⟫ ⟪2⟫ ⟪3⟫ ⟪4⟫ ⟪5⟫ ⟪6⟫ ⟪7⟫ ⟪8⟫ ⟪9⟫ ⟪10⟫ ⟪11⟫ ⟪12⟫ ⟪13⟫ ⟪14⟫ ⟪15⟫ ⟪16⟫ ⟪17⟫ ⟪18⟫ ⟪19⟫ ⟪26⟫ ⟪27⟫ ⟪28⟫ ⟪29⟫ ⟪30⟫ := by
  show after ops_12 (st V 12) _ = _
  after_results
  rw [f_v108, f_v109, st_keep 0 12 main_arg29, st_keep 0 12 main_arg30]
  rfl

theorem f_v119 : st V 14 (Proc.devRef .tc main_v119) = ReadP.val_main_v119 ⟪0⟫ ⟪1⟫ ⟪2⟫ ⟪3⟫ ⟪4⟫ ⟪5⟫ ⟪6⟫ ⟪7⟫ ⟪8⟫ ⟪9⟫ ⟪10⟫ ⟪11⟫ ⟪12⟫ ⟪13⟫ ⟪14⟫ ⟪15⟫ ⟪16⟫ ⟪17⟫ ⟪18⟫ ⟪19⟫ ⟪26⟫ ⟪27⟫ ⟪28⟫ ⟪29⟫ ⟪30⟫ ⟪31⟫ := by
  show after ops_13 (st V 13) _ = _
  after_results
  rw [f_v116, st_keep 0 13 main_arg31]
  rfl

theorem f_v124 : st V 14 (Proc.devRef .tc main_v124) = ReadP.val_main_v124 ⟪0⟫ ⟪1⟫ ⟪2⟫ ⟪3⟫ ⟪4⟫ ⟪5⟫ ⟪6⟫ ⟪7⟫ ⟪8⟫ ⟪9⟫ ⟪10⟫ ⟪11⟫ ⟪12⟫ ⟪13⟫ ⟪14⟫ ⟪15⟫ ⟪16⟫ ⟪17⟫ ⟪18⟫ ⟪19⟫ ⟪20⟫ ⟪21⟫ ⟪22⟫ ⟪23⟫ ⟪24⟫ ⟪25⟫ := by
  show after ops_13 (st V 13) _ = _
  after_results
  rw [st_keep 12 13 main_v102, f_v102, st_keep 0 13 main_arg24, st_keep 0 13 main_arg25]
  rfl

end Cert.ReferenceIdeal.ValueP

end
-- ==== Proof.RefRun.lean ====
import proofs.«429130_j6116033429958_3_alg».proof.Proof.RefStages

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

theorem main_eq (c : Dev nD) : main (F := F) c = seq ops := by chain_rfl

noncomputable def argRefs : List (Ref sig .tc) :=
  [main_arg0, main_arg1, main_arg2, main_arg3, main_arg4, main_arg5, main_arg6, main_arg7, main_arg8, main_arg9, main_arg10,
   main_arg11, main_arg12, main_arg13, main_arg14, main_arg15, main_arg16, main_arg17, main_arg18, main_arg19, main_arg20,
   main_arg21, main_arg22, main_arg23, main_arg24, main_arg25, main_arg26, main_arg27, main_arg28, main_arg29, main_arg30,
   main_arg31]

/-- The program is a straight line, so it ends with each buffer at the fold of its operations; the fold is read stretch by stretch. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v119) = ReadP.val_main_v119 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31))
      ∧ r.2.mem ((c.tc : Thread nD τ).loc main_v124) = ReadP.val_main_v124 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_v59) = ReadP.val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v51) = ReadP.val_main_v51 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ ∀ b ∈ argRefs, r.2.mem ((c.tc : Thread nD τ).loc b) = m ((c.tc : Thread nD τ).loc b) := by
  refine (θ_run defs _ _).mono (fun _ h c => ?_) (run_seq (by decide) (by decide) defs main (fun _ => ops) main_eq
    (fun _ => List.forall_iff_forall_mem.mpr fun op h => (ok_ops op h).1) m ρ fun _ op h => (ok_ops op h).2)
  simp only [after_ops] at h
  exact ⟨(h c _).trans f_v119, (h c _).trans f_v124, (h c _).trans ((st_keep 6 14 main_v59).trans f_v59),
    (h c _).trans ((st_keep 5 14 main_v51).trans f_v51),
    fun b hb => (h c b).trans (st_keep 0 14 b (Nat.zero_le _) ((by decide : ∀ b ∈ argRefs, b.idx < lo 0) b hb))⟩

end Cert.ReferenceIdeal.ValueP

end
-- ==== Proof.RefValue.lean ====
import proofs.«429130_j6116033429958_3_alg».proof.Proof.RefValueB
import proofs.«429130_j6116033429958_3_alg».proof.Proof.RefRun

noncomputable section

namespace Cert.ReferenceIdeal.RefValue

open Gen Cert.Net Idealize.ShloMosaic ValueIdx Idealize.SL.Sem

variable (m : (ℓ : Loc nD τ sig) → Buf (Elt Ideal) ℓ) (ρ : Dev nD → PrngReg)

noncomputable def P (c : Dev nD) : Params :=
  params (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15))
    (m ((c.tc : Thread nD τ).loc main_arg16))
    (m ((c.tc : Thread nD τ).loc main_arg17))
    (m ((c.tc : Thread nD τ).loc main_arg18))
    (m ((c.tc : Thread nD τ).loc main_arg19))
    (m ((c.tc : Thread nD τ).loc main_arg20))
    (m ((c.tc : Thread nD τ).loc main_arg21))
    (m ((c.tc : Thread nD τ).loc main_arg22))
    (m ((c.tc : Thread nD τ).loc main_arg23))
    (m ((c.tc : Thread nD τ).loc main_arg24))
    (m ((c.tc : Thread nD τ).loc main_arg25))
    (m ((c.tc : Thread nD τ).loc main_arg26))
    (m ((c.tc : Thread nD τ).loc main_arg27))
    (m ((c.tc : Thread nD τ).loc main_arg28))
    (m ((c.tc : Thread nD τ).loc main_arg29))
    (m ((c.tc : Thread nD τ).loc main_arg30))
    (m ((c.tc : Thread nD τ).loc main_arg31))

theorem ref_run (e : Dev nD → Fin 32768 → Fin 4)
    (he : ∀ (c : Dev nD) (r : Fin 32768), (m ((c.tc : Thread nD τ).loc main_arg1)) (ix2 r (0 : Fin 1)) = BitVec.ofNat 32 (e c r).val) :
    θ_run defs (onTc (τ := τ) (main (F := Ideal))) ⟨m, fun _ => 0, ρ⟩ (fun r => ∀ c : Dev nD,
      r.2.mem ((c.tc : Thread nD τ).loc main_v119) = G_value (P m c) (m ((c.tc : Thread nD τ).loc main_arg0)) (m ((c.tc : Thread nD τ).loc main_arg2)) (m ((c.tc : Thread nD τ).loc main_arg3)) (m ((c.tc : Thread nD τ).loc main_arg4)) (e c)
      ∧ r.2.mem ((c.tc : Thread nD τ).loc main_v124) = G_pol (P m c) (m ((c.tc : Thread nD τ).loc main_arg0)) (m ((c.tc : Thread nD τ).loc main_arg2)) (m ((c.tc : Thread nD τ).loc main_arg3)) (m ((c.tc : Thread nD τ).loc main_arg4)) (e c)
      ∧ r.2.mem ((c.tc : Thread nD τ).loc main_v59) = G_hx (P m c) (m ((c.tc : Thread nD τ).loc main_arg0)) (m ((c.tc : Thread nD τ).loc main_arg2)) (m ((c.tc : Thread nD τ).loc main_arg3)) (m ((c.tc : Thread nD τ).loc main_arg4)) (e c)
      ∧ r.2.mem ((c.tc : Thread nD τ).loc main_v51) = G_cx (P m c) (m ((c.tc : Thread nD τ).loc main_arg0)) (m ((c.tc : Thread nD τ).loc main_arg2)) (m ((c.tc : Thread nD τ).loc main_arg3)) (m ((c.tc : Thread nD τ).loc main_arg4)) (e c)
      ∧ (∀ b ∈ ValueP.argRefs, r.2.mem ((c.tc : Thread nD τ).loc b) = m ((c.tc : Thread nD τ).loc b))) :=
  (θ_run defs _ _).mono (fun r h c => ⟨(h c).1.trans (funext (value_rd ⟨_, _, _, _, _, _, _, _, _, _, _, _, _, _, _, _, _, _, _, _, _, _, _, _, _, _, _, _, _, _, _, _, e c, he c⟩)),
    (h c).2.1.trans (funext (pol_rd ⟨_, _, _, _, _, _, _, _, _, _, _, _, _, _, _, _, _, _, _, _, _, _, _, _, _, _, _, _, _, _, _, _, e c, he c⟩)), (h c).2.2.1.trans (funext (hx_rd ⟨_, _, _, _, _, _, _, _, _, _, _, _, _, _, _, _, _, _, _, _, _, _, _, _, _, _, _, _, _, _, _, _, e c, he c⟩)),
    (h c).2.2.2.1.trans (funext (cx_rd ⟨_, _, _, _, _, _, _, _, _, _, _, _, _, _, _, _, _, _, _, _, _, _, _, _, _, _, _, _, _, _, _, _, e c, he c⟩)), (h c).2.2.2.2⟩) (ValueP.run (F := Ideal) m ρ)

end Cert.ReferenceIdeal.RefValue

end
-- ==== Proof.PreIdx.lean ====
import proofs.«429130_j6116033429958_3_alg».proof.Pre_finite_inputs
import proofs.«429130_j6116033429958_3_alg».proof.Proof.Gen.Pre_finite_inputs
import Idealize.ShloMosaic.Lib.ReduceAll
import Idealize.ShloMosaic.Lib.ValueIdx
import Idealize.ShloMosaic.Lib.StableHlo.Predicate

noncomputable section

namespace Cert.Pre_finite_inputs.Idx

open Cert.Pre_finite_inputs Cert.Pre_finite_inputs.Gen
open Idealize.ShloMosaic Idealize.ShloMosaic.ValueIdx

instance : Subsingleton S_.Idx := ⟨fun a b => funext fun d => d.elim0⟩

theorem word_of_range (w : BitVec 32) (h0 : 0 ≤ w.toInt) (h4 : w.toInt < 4) :
    w.toNat < 4 ∧ w = BitVec.ofNat 32 w.toNat := by
  have hlt := w.isLt
  refine ⟨?_, ?_⟩
  · rw [BitVec.toInt_eq_toNat_cond] at h0 h4
    split at h0 <;> omega
  · apply BitVec.eq_of_toNat_eq
    rw [BitVec.toNat_ofNat]
    omega

theorem part9_decode {F : FTy → Type} [FloatOps F] (a1 : IVec S32768x1 32) (v : IVec S_ 1)
    (h : fn_part9 (F := F) a1 v ix0 = 1#1) (r : Fin 32768) :
    0 ≤ (a1 (ix2 r (0 : Fin 1))).toInt ∧ (a1 (ix2 r (0 : Fin 1))).toInt < 4 := by
  dsimp only [fn_part9] at h
  simp only [andi] at h
  rw [IntOp.andi_eq_one, IntOp.andi_eq_one] at h
  obtain ⟨⟨_, h0⟩, h4⟩ := h
  have g0 := Host.reduce_andi_all _ _ _ _ _ h0 (ix2 r (0 : Fin 1))
  have g4 := Host.reduce_andi_all _ _ _ _ _ h4 (ix2 r (0 : Fin 1))
  simp only [cmpi, broadcastInDim, constantI] at g0 g4
  rw [IntOp.cmpi_sge] at g0
  rw [IntOp.cmpi_slt] at g4
  exact ⟨g0, g4⟩

-- The precondition's last two conjuncts bound every instruction index: it is the word of a number below four.
theorem idx_of_pre {F : FTy → Type} [FloatOps F] (a0 : FVec F S32768x256 .f32) (a1 : IVec S32768x1 32) (a2 : FVec F S32768x256 .f32) (a3 : FVec F S32768x256 .f32) (a4 : FVec F S32768x256 .f32) (a5 : FVec F S4x25 .f32) (a6 : FVec F S256x25 .f32) (a7 : FVec F S256 .f32) (a8 : FVec F S1024x512 .f32) (a9 : FVec F S1024x256 .f32) (a10 : FVec F S1024 .f32) (a11 : FVec F S1024 .f32) (a12 : FVec F S256x256 .f32) (a13 : FVec F S256 .f32) (a14 : FVec F S256x256 .f32) (a15 : FVec F S256 .f32) (a16 : FVec F S512x512 .f32) (a17 : FVec F S512 .f32) (a18 : FVec F S256x512 .f32) (a19 : FVec F S256 .f32) (a20 : FVec F S128x256 .f32) (a21 : FVec F S128 .f32) (a22 : FVec F S64x128 .f32) (a23 : FVec F S64 .f32) (a24 : FVec F S3x64 .f32) (a25 : FVec F S3 .f32) (a26 : FVec F S64x256 .f32) (a27 : FVec F S64 .f32) (a28 : FVec F S32x64 .f32) (a29 : FVec F S32 .f32) (a30 : FVec F S1x32 .f32) (a31 : FVec F S1 .f32)
    (h : fn (F := F) a0 a1 a2 a3 a4 a5 a6 a7 a8 a9 a10 a11 a12 a13 a14 a15 a16 a17 a18 a19 a20 a21 a22 a23 a24 a25 a26 a27 a28 a29 a30 a31 = (fun _ => 1#1)) :
    ∃ e : Fin 32768 → Fin 4, ∀ r : Fin 32768, a1 (ix2 r (0 : Fin 1)) = BitVec.ofNat 32 (e r).val := by
  have e := congrFun h ix0
  have key : ∀ r : Fin 32768, (a1 (ix2 r (0 : Fin 1))).toNat < 4
      ∧ a1 (ix2 r (0 : Fin 1)) = BitVec.ofNat 32 (a1 (ix2 r (0 : Fin 1))).toNat := fun r => by
    obtain ⟨g0, g4⟩ := part9_decode (F := F) a1 _ e r
    exact word_of_range _ g0 g4
  exact ⟨fun r => ⟨(a1 (ix2 r (0 : Fin 1))).toNat, (key r).1⟩, fun r => (key r).2⟩

end Cert.Pre_finite_inputs.Idx

end
-- ==== Proof.lean ====
import proofs.«429130_j6116033429958_3_alg».proof.Defs
import proofs.«429130_j6116033429958_3_alg».proof.Proof.Gen.Kernel
import proofs.«429130_j6116033429958_3_alg».proof.Proof.Gen.KernelIdeal
import proofs.«429130_j6116033429958_3_alg».proof.Proof.Gen.ReferenceIdeal
import proofs.«429130_j6116033429958_3_alg».proof.Proof.Gen.Pre_finite_inputs
import proofs.«429130_j6116033429958_3_alg».proof.Proof.KIFrameRun
import proofs.«429130_j6116033429958_3_alg».proof.Proof.KIValue
import proofs.«429130_j6116033429958_3_alg».proof.Proof.RefValue
import proofs.«429130_j6116033429958_3_alg».proof.Proof.PreIdx
import Idealize.ShloMosaic.Adequacy
import Idealize.ShloMosaic.Init

noncomputable section

namespace Cert.Proof

open Idealize.ShloMosaic Idealize.SL.Sem Idealize.ShloMosaic.ValueIdx

-- The word-level program and its idealization are the same text, so their kernel tables agree label by label.
set_option maxHeartbeats 2000000 in
theorem defs₀_eq : (Cert.KernelIdeal.defs₀ (F := Bits) : Defs Cert.Kernel.nD Cert.Kernel.τ Cert.Kernel.sig (Elt Bits) Cert.Kernel.Λ₀)
    = Cert.Kernel.defs₀ (F := Bits) := by
  unfold Cert.KernelIdeal.defs₀ Cert.Kernel.defs₀
  congr 1
  funext l a
  match l, a with
  | ⟨0, _⟩, (t, s) => rfl
  | ⟨n+1, h⟩, _ => exact absurd h (by omega)

-- The frame is proved once for every float instance, so the idealization's proof serves the word-level program.
set_option maxHeartbeats 2000000 in
theorem frame_k : Cert.frame_Kernel := fun m ρ _ => by
  have h := Cert.KernelIdeal.Frm.frame (F := Bits) m ρ
  unfold Cert.KernelIdeal.defs at h
  rw [defs₀_eq] at h
  exact h

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => by
    simpa only [Cert.ReferenceIdeal.ValueP.argRefs, List.forall_mem_cons, List.not_mem_nil, false_imp_iff, implies_true, and_true]
      using (h c).2.2.2.2) (Cert.ReferenceIdeal.ValueP.run (F := Ideal) m ρ)

theorem preserves : Cert.preserves_Kernel_KernelIdeal := trivial

-- Both programs end with their four results at the network applied row by row to argument arrays that agree;
-- the precondition puts every instruction index in the embedding table's range.
theorem algebraic : Cert.algebraic_KernelIdeal_ReferenceIdeal := by
  intro m ρ m' ρ' hpre hagree
  choose e he using fun c : Dev Cert.KernelIdeal.nD => Cert.Pre_finite_inputs.Idx.idx_of_pre (F := Ideal) (h := hpre c)
  refine ⟨_, _, _, _,
    (θ_run _ _ _).mono (fun r h c => ⟨(h c).1, (h c).2.1, (h c).2.2.1, (h c).2.2.2.1, by
      simpa only [Cert.KernelIdeal.Frm.argRefs, List.forall_mem_cons, List.not_mem_nil, false_imp_iff, implies_true, and_true]
        using (h c).2.2.2.2⟩) (Cert.KernelIdeal.Val.kernel_run m ρ e he),
    (θ_run _ _ _).mono (fun r h c => ?_)
      (Cert.ReferenceIdeal.RefValue.ref_run m' ρ' e fun c r => by rw [(hagree c).2.1]; exact he c r)⟩
  obtain ⟨h1, h2, h3, h4, hk⟩ := h c
  have hP : Cert.ReferenceIdeal.RefValue.P m' c = Cert.KernelIdeal.HostV.P m c := by
    unfold Cert.ReferenceIdeal.RefValue.P Cert.KernelIdeal.HostV.P
    simp only [hagree c]
  refine ⟨h1.trans ?_, h2.trans ?_, h3.trans ?_, h4.trans ?_, by
    simpa only [Cert.ReferenceIdeal.ValueP.argRefs, List.forall_mem_cons, List.not_mem_nil, false_imp_iff, implies_true, and_true]
      using hk⟩ <;> simp only [hP, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
